-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v55_1)) (v1 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55_1) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v130) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S1024x1024 : Shape := ⟨2, ![1024, 1024]⟩
abbrev S2x32x65536 : Shape := ⟨3, ![2, 32, 65536]⟩
abbrev S198x128 : Shape := ⟨2, ![198, 128]⟩
abbrev S128 : Shape := ⟨1, ![128]⟩
abbrev S198x64 : Shape := ⟨2, ![198, 64]⟩
abbrev S64 : Shape := ⟨1, ![64]⟩
abbrev S384x128 : Shape := ⟨2, ![384, 128]⟩
abbrev S384x64 : Shape := ⟨2, ![384, 64]⟩
abbrev S_ : Shape := ⟨0, ![]⟩

class Facts : Prop where
  bcast_S_S32x2048 : S_.BroadcastsInDim S32x2048 (![] : Fin 0 → Fin S32x2048.rank)
  reducesTo_S32x2048_S_d0_1 : S32x2048.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S2x32x65536 : S_.BroadcastsInDim S2x32x65536 (![] : Fin 0 → Fin S2x32x65536.rank)
  reducesTo_S2x32x65536_S_d0_1_2 : S2x32x65536.ReducesTo [0, 1, 2] S_
  bcast_S_S198x128 : S_.BroadcastsInDim S198x128 (![] : Fin 0 → Fin S198x128.rank)
  reducesTo_S198x128_S_d0_1 : S198x128.ReducesTo [0, 1] S_
  bcast_S_S128 : S_.BroadcastsInDim S128 (![] : Fin 0 → Fin S128.rank)
  reducesTo_S128_S_d0 : S128.ReducesTo [0] S_
  bcast_S_S198x64 : S_.BroadcastsInDim S198x64 (![] : Fin 0 → Fin S198x64.rank)
  reducesTo_S198x64_S_d0_1 : S198x64.ReducesTo [0, 1] S_
  bcast_S_S64 : S_.BroadcastsInDim S64 (![] : Fin 0 → Fin S64.rank)
  reducesTo_S64_S_d0 : S64.ReducesTo [0] S_
  bcast_S_S384x128 : S_.BroadcastsInDim S384x128 (![] : Fin 0 → Fin S384x128.rank)
  reducesTo_S384x128_S_d0_1 : S384x128.ReducesTo [0, 1] S_
  bcast_S_S384x64 : S_.BroadcastsInDim S384x64 (![] : Fin 0 → Fin S384x64.rank)
  reducesTo_S384x64_S_d0_1 : S384x64.ReducesTo [0, 1] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg7 : FVec F S384x128 .f32) (main_arg8 : FVec F S128 .f32) (main_arg9 : FVec F S384x64 .f32) (main_arg10 : FVec F S64 .f32) (main_v33 : IVec S_ 1) : IVec S_ 1 :=
  let main_v34 : FVec F S384x128 .f32 := Host.absf main_arg7
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S384x64 .f32 := Host.absf main_arg9
  let main_cst_16 : FVec F S_ .f32 := constant S_ .f32 0x7F800000#32
  let main_v45 : FVec F S384x64 .f32 := broadcastInDim S384x64 ![] bcast_S_S384x64 main_cst_16
  let main_v46 : IVec S384x64 1 := cmpf .olt main_v44 main_v45
  let main_c_17 : IVec S_ 1 := constantI S_ 1 1#1
  let main_v47 : IVec S_ 1 := (fun x v => Host.reduce IntOp.andi x v reducesTo_S384x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg4 : FVec F S128 .f32) (main_arg5 : FVec F S198x64 .f32) (main_arg6 : FVec F S64 .f32) (main_arg7 : FVec F S384x128 .f32) (main_arg8 : FVec F S128 .f32) (main_arg9 : FVec F S384x64 .f32) (main_arg10 : FVec F S64 .f32) (main_v13 : IVec S_ 1) (main_v16 : IVec S198x128 1) : IVec S_ 1 :=
  let main_c_5 : IVec S_ 1 := constantI S_ 1 1#1
  let main_v17 : IVec S_ 1 := (fun x v => Host.reduce IntOp.andi x v reducesTo_S198x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S198x64 .f32 := Host.absf main_arg5
  let main_cst_8 : FVec F S_ .f32 := constant S_ .f32 0x7F800000#32
  let main_v25 : FVec F S198x64 .f32 := broadcastInDim S198x64 ![] bcast_S_S198x64 main_cst_8
  let main_v26 : IVec S198x64 1 := cmpf .olt main_v24 main_v25
  let main_c_9 : IVec S_ 1 := constantI S_ 1 1#1
  let main_v27 : IVec S_ 1 := (fun x v => Host.reduce IntOp.andi x v reducesTo_S198x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S32x2048 .f32) (main_arg1 : FVec F S1024x1024 .f32) (main_arg2 : FVec F S2x32x65536 .f32) (main_arg3 : FVec F S198x128 .f32) (main_arg4 : FVec F S128 .f32) (main_arg5 : FVec F S198x64 .f32) (main_arg6 : FVec F S64 .f32) (main_arg7 : FVec F S384x128 .f32) (main_arg8 : FVec F S128 .f32) (main_arg9 : FVec F S384x64 .f32) (main_arg10 : FVec F S64 .f32) : IVec S_ 1 :=
  let main_v0 : FVec F S32x2048 .f32 := Host.absf main_arg0
  let main_cst : FVec F S_ .f32 := constant S_ .f32 0x7F800000#32
  let main_v1 : FVec F S32x2048 .f32 := broadcastInDim S32x2048 ![] bcast_S_S32x2048 main_cst
  let main_v2 : IVec S32x2048 1 := cmpf .olt main_v0 main_v1
  let main_c : IVec S_ 1 := constantI S_ 1 1#1
  let main_v3 : IVec S_ 1 := (fun x v => Host.reduce IntOp.andi x v reducesTo_S32x2048_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S2x32x65536 .f32 := Host.absf main_arg2
  let main_cst_2 : FVec F S_ .f32 := constant S_ .f32 0x7F800000#32
  let main_v10 : FVec F S2x32x65536 .f32 := broadcastInDim S2x32x65536 ![] bcast_S_S2x32x65536 main_cst_2
  let main_v11 : IVec S2x32x65536 1 := cmpf .olt main_v9 main_v10
  let main_c_3 : IVec S_ 1 := constantI S_ 1 1#1
  let main_v12 : IVec S_ 1 := (fun x v => Host.reduce IntOp.andi x v reducesTo_S2x32x65536_S_d0_1_2 h_S_) main_v11 main_c_3
  let main_v13 : IVec S_ 1 := andi main_v8 main_v12
  let main_v14 : FVec F S198x128 .f32 := Host.absf main_arg3
  let main_cst_4 : FVec F S_ .f32 := constant S_ .f32 0x7F800000#32
  let main_v15 : FVec F S198x128 .f32 := broadcastInDim S198x128 ![] bcast_S_S198x128 main_cst_4
  let main_v16 : IVec S198x128 1 := cmpf .olt main_v14 main_v15
  fn_part1 (F := F) main_arg4 main_arg5 main_arg6 main_arg7 main_arg8 main_arg9 main_arg10 main_v13 main_v16
-- ==== Kernel.lean ====
abbrev S32x2048 : Shape := ⟨2, ![32, 2048]⟩
abbrev S1024x1024 : Shape := ⟨2, ![1024, 1024]⟩
abbrev S2x32x65536 : Shape := ⟨3, ![2, 32, 65536]⟩
abbrev S198x128 : Shape := ⟨2, ![198, 128]⟩
abbrev S128 : Shape := ⟨1, ![128]⟩
abbrev S198x64 : Shape := ⟨2, ![198, 64]⟩
abbrev S64 : Shape := ⟨1, ![64]⟩
abbrev S384x128 : Shape := ⟨2, ![384, 128]⟩
abbrev S384x64 : Shape := ⟨2, ![384, 64]⟩
abbrev S32x1024x2 : Shape := ⟨3, ![32, 1024, 2]⟩
abbrev S1024x32x2 : Shape := ⟨3, ![1024, 32, 2]⟩
abbrev S_ : Shape := ⟨0, ![]⟩
abbrev S1024x32x64 : Shape := ⟨3, ![1024, 32, 64]⟩
abbrev S2x32x1024x64 : Shape := ⟨4, ![2, 32, 1024, 64]⟩
abbrev S1024x4096 : Shape := ⟨2, ![1024, 4096]⟩
abbrev S128x32x64 : Shape := ⟨3, ![128, 32, 64]⟩
abbrev S2x32x128x64 : Shape := ⟨4, ![2, 32, 128, 64]⟩
abbrev S128x4096 : Shape := ⟨2, ![128, 4096]⟩
abbrev S1x32x128x64 : Shape := ⟨4, ![1, 32, 128, 64]⟩
abbrev S32x128x64 : Shape := ⟨3, ![32, 128, 64]⟩
abbrev S128x32x128 : Shape := ⟨3, ![128, 32, 128]⟩
abbrev S3x64x64 : Shape := ⟨3, ![3, 64, 64]⟩
abbrev S66x3x128 : Shape := ⟨3, ![66, 3, 128]⟩
abbrev S3x66x128 : Shape := ⟨3, ![3, 66, 128]⟩
abbrev S3x2x128 : Shape := ⟨3, ![3, 2, 128]⟩
abbrev S3x64x128 : Shape := ⟨3, ![3, 64, 128]⟩
abbrev S3x62x128 : Shape := ⟨3, ![3, 62, 128]⟩
abbrev S3x128x128 : Shape := ⟨3, ![3, 128, 128]⟩
abbrev S66x3x64 : Shape := ⟨3, ![66, 3, 64]⟩
abbrev S3x66x64 : Shape := ⟨3, ![3, 66, 64]⟩
abbrev S3x2x64 : Shape := ⟨3, ![3, 2, 64]⟩
abbrev S3x62x64 : Shape := ⟨3, ![3, 62, 64]⟩
abbrev S3x128x64 : Shape := ⟨3, ![3, 128, 64]⟩
abbrev S128x3x128 : Shape := ⟨3, ![128, 3, 128]⟩
abbrev S3x0x128 : Shape := ⟨3, ![3, 0, 128]⟩
abbrev S128x3x64 : Shape := ⟨3, ![128, 3, 64]⟩
abbrev S3x0x64 : Shape := ⟨3, ![3, 0, 64]⟩
abbrev S1x128 : Shape := ⟨2, ![1, 128]⟩
abbrev S1x64 : Shape := ⟨2, ![1, 64]⟩
abbrev S256x1024 : Shape := ⟨2, ![256, 1024]⟩
abbrev S256x4096 : Shape := ⟨2, ![256, 4096]⟩
abbrev S8192x128 : Shape := ⟨2, ![8192, 128]⟩
abbrev S1x128x128 : Shape := ⟨3, ![1, 128, 128]⟩
abbrev S128x128 : Shape := ⟨2, ![128, 128]⟩
abbrev S8192x64 : Shape := ⟨2, ![8192, 64]⟩
abbrev S32x65536 : Shape := ⟨2, ![32, 65536]⟩
abbrev S32x16384 : Shape := ⟨2, ![32, 16384]⟩
abbrev S1x128x64 : Shape := ⟨3, ![1, 128, 64]⟩
abbrev S128x64 : Shape := ⟨2, ![128, 64]⟩
abbrev S128x2x32x64 : Shape := ⟨4, ![128, 2, 32, 64]⟩
abbrev S128x1x32x64 : Shape := ⟨4, ![128, 1, 32, 64]⟩
abbrev S32x128x128 : Shape := ⟨3, ![32, 128, 128]⟩
abbrev S1x32x65536 : Shape := ⟨3, ![1, 32, 65536]⟩

abbrev nBuf : Space → Nat
  | .hbm => 84
  | .vmem => 98
  | .smem => 0
  | _ => 0

abbrev bufTy : (tb : Table) → Fin (tcTables nBuf tb) → BufTy
  | .hbm, ⟨0, _⟩ => ⟨S32x2048, .f32⟩
  | .hbm, ⟨1, _⟩ => ⟨S1024x1024, .f32⟩
  | .hbm, ⟨2, _⟩ => ⟨S2x32x65536, .f32⟩
  | .hbm, ⟨3, _⟩ => ⟨S198x128, .f32⟩
  | .hbm, ⟨4, _⟩ => ⟨S128, .f32⟩
  | .hbm, ⟨5, _⟩ => ⟨S198x64, .f32⟩
  | .hbm, ⟨6, _⟩ => ⟨S64, .f32⟩
  | .hbm, ⟨7, _⟩ => ⟨S384x128, .f32⟩
  | .hbm, ⟨8, _⟩ => ⟨S128, .f32⟩
  | .hbm, ⟨9, _⟩ => ⟨S384x64, .f32⟩
  | .hbm, ⟨10, _⟩ => ⟨S64, .f32⟩
  | .hbm, ⟨11, _⟩ => ⟨S1024x1024, .bf16⟩
  | .hbm, ⟨12, _⟩ => ⟨S32x1024x2, .f32⟩
  | .hbm, ⟨13, _⟩ => ⟨S1024x32x2, .f32⟩
  | .hbm, ⟨14, _⟩ => ⟨S1024x32x2, .bf16⟩
  | .hbm, ⟨15, _⟩ => ⟨S_, .i32⟩
  | .hbm, ⟨16, _⟩ => ⟨S_, .bf16⟩
  | .hbm, ⟨17, _⟩ => ⟨S1024x32x64, .bf16⟩
  | .hbm, ⟨18, _⟩ => ⟨S2x32x1024x64, .f32⟩
  | .hbm, ⟨19, _⟩ => ⟨S1024x4096, .bf16⟩
  | .hbm, ⟨20, _⟩ => ⟨S1024x4096, .bf16⟩
  | .hbm, ⟨21, _⟩ => ⟨S_, .f32⟩
  | .hbm, ⟨22, _⟩ => ⟨S3x64x64, .f32⟩
  | .hbm, ⟨23, _⟩ => ⟨S66x3x128, .f32⟩
  | .hbm, ⟨24, _⟩ => ⟨S3x66x128, .f32⟩
  | .hbm, ⟨25, _⟩ => ⟨S3x2x128, .f32⟩
  | .hbm, ⟨26, _⟩ => ⟨S3x64x128, .f32⟩
  | .hbm, ⟨27, _⟩ => ⟨S_, .f32⟩
  | .hbm, ⟨28, _⟩ => ⟨S3x62x128, .f32⟩
  | .hbm, ⟨29, _⟩ => ⟨S3x64x128, .f32⟩
  | .hbm, ⟨30, _⟩ => ⟨S3x128x128, .f32⟩
  | .hbm, ⟨31, _⟩ => ⟨S3x128x128, .bf16⟩
  | .hbm, ⟨32, _⟩ => ⟨S66x3x64, .f32⟩
  | .hbm, ⟨33, _⟩ => ⟨S3x66x64, .f32⟩
  | .hbm, ⟨34, _⟩ => ⟨S3x2x64, .f32⟩
  | .hbm, ⟨35, _⟩ => ⟨S3x64x64, .f32⟩
  | .hbm, ⟨36, _⟩ => ⟨S_, .f32⟩
  | .hbm, ⟨37, _⟩ => ⟨S3x62x64, .f32⟩
  | .hbm, ⟨38, _⟩ => ⟨S3x64x64, .f32⟩
  | .hbm, ⟨39, _⟩ => ⟨S3x128x64, .f32⟩
  | .hbm, ⟨40, _⟩ => ⟨S3x128x64, .bf16⟩
  | .hbm, ⟨41, _⟩ => ⟨S3x128x64, .f32⟩
  | .hbm, ⟨42, _⟩ => ⟨S3x128x64, .bf16⟩
  | .hbm, ⟨43, _⟩ => ⟨S128x3x128, .f32⟩
  | .hbm, ⟨44, _⟩ => ⟨S3x128x128, .f32⟩
  | .hbm, ⟨45, _⟩ => ⟨S3x64x128, .f32⟩
  | .hbm, ⟨46, _⟩ => ⟨S3x64x128, .f32⟩
  | .hbm, ⟨47, _⟩ => ⟨S_, .f32⟩
  | .hbm, ⟨48, _⟩ => ⟨S3x0x128, .f32⟩
  | .hbm, ⟨49, _⟩ => ⟨S3x64x128, .f32⟩
  | .hbm, ⟨50, _⟩ => ⟨S3x128x128, .f32⟩
  | .hbm, ⟨51, _⟩ => ⟨S3x128x128, .bf16⟩
  | .hbm, ⟨52, _⟩ => ⟨S128x3x64, .f32⟩
  | .hbm, ⟨53, _⟩ => ⟨S3x128x64, .f32⟩
  | .hbm, ⟨54, _⟩ => ⟨S3x64x64, .f32⟩
  | .hbm, ⟨55, _⟩ => ⟨S3x64x64, .f32⟩
  | .hbm, ⟨56, _⟩ => ⟨S_, .f32⟩
  | .hbm, ⟨57, _⟩ => ⟨S3x0x64, .f32⟩
  | .hbm, ⟨58, _⟩ => ⟨S3x64x64, .f32⟩
  | .hbm, ⟨59, _⟩ => ⟨S3x128x64, .f32⟩
  | .hbm, ⟨60, _⟩ => ⟨S3x128x64, .bf16⟩
  | .hbm, ⟨61, _⟩ => ⟨S3x128x64, .f32⟩
  | .hbm, ⟨62, _⟩ => ⟨S3x128x64, .bf16⟩
  | .hbm, ⟨63, _⟩ => ⟨S1x128, .f32⟩
  | .hbm, ⟨64, _⟩ => ⟨S1x64, .f32⟩
  | .hbm, ⟨65, _⟩ => ⟨S1x128, .f32⟩
  | .hbm, ⟨66, _⟩ => ⟨S1x64, .f32⟩
  | .hbm, ⟨67, _⟩ => ⟨S1024x4096, .bf16⟩
  | .hbm, ⟨68, _⟩ => ⟨S1024x4096, .bf16⟩
  | .hbm, ⟨69, _⟩ => ⟨S1024x4096, .bf16⟩
  | .hbm, ⟨70, _⟩ => ⟨S1024x4096, .bf16⟩
  | .hbm, ⟨71, _⟩ => ⟨S1024x4096, .bf16⟩
  | .hbm, ⟨72, _⟩ => ⟨S1024x4096, .bf16⟩
  | .hbm, ⟨73, _⟩ => ⟨S32x65536, .f32⟩
  | .hbm, ⟨74, _⟩ => ⟨S1024x4096, .bf16⟩
  | .hbm, ⟨75, _⟩ => ⟨S1024x4096, .bf16⟩
  | .hbm, ⟨76, _⟩ => ⟨S1024x4096, .bf16⟩
  | .hbm, ⟨77, _⟩ => ⟨S1024x4096, .bf16⟩
  | .hbm, ⟨78, _⟩ => ⟨S1024x4096, .bf16⟩
  | .hbm, ⟨79, _⟩ => ⟨S1024x4096, .bf16⟩
  | .hbm, ⟨80, _⟩ => ⟨S32x65536, .f32⟩
  | .hbm, ⟨81, _⟩ => ⟨S1x32x65536, .f32⟩
  | .hbm, ⟨82, _⟩ => ⟨S1x32x65536, .f32⟩
  | .hbm, ⟨83, _⟩ => ⟨S2x32x65536, .f32⟩
  | .local _ .vmem, ⟨0, _⟩ => ⟨S128x32x64, .bf16⟩
  | .local _ .vmem, ⟨1, _⟩ => ⟨S128x32x64, .bf16⟩
  | .local _ .vmem, ⟨2, _⟩ => ⟨S2x32x128x64, .f32⟩
  | .local _ .vmem, ⟨3, _⟩ => ⟨S2x32x128x64, .f32⟩
  | .local _ .vmem, ⟨4, _⟩ => ⟨S128x4096, .bf16⟩
  | .local _ .vmem, ⟨5, _⟩ => ⟨S128x4096, .bf16⟩
  | .local _ .vmem, ⟨6, _⟩ => ⟨S128x4096, .bf16⟩
  | .local _ .vmem, ⟨7, _⟩ => ⟨S128x4096, .bf16⟩
  | .local _ .vmem, ⟨8, _⟩ => ⟨S256x1024, .bf16⟩
  | .local _ .vmem, ⟨9, _⟩ => ⟨S256x1024, .bf16⟩
  | .local _ .vmem, ⟨10, _⟩ => ⟨S1024x4096, .bf16⟩
  | .local _ .vmem, ⟨11, _⟩ => ⟨S256x4096, .bf16⟩
  | .local _ .vmem, ⟨12, _⟩ => ⟨S256x4096, .bf16⟩
  | .local _ .vmem, ⟨13, _⟩ => ⟨S256x1024, .bf16⟩
  | .local _ .vmem, ⟨14, _⟩ => ⟨S256x1024, .bf16⟩
  | .local _ .vmem, ⟨15, _⟩ => ⟨S256x4096, .bf16⟩
  | .local _ .vmem, ⟨16, _⟩ => ⟨S256x4096, .bf16⟩
  | .local _ .vmem, ⟨17, _⟩ => ⟨S1024x4096, .bf16⟩
  | .local _ .vmem, ⟨18, _⟩ => ⟨S3x128x128, .bf16⟩
  | .local _ .vmem, ⟨19, _⟩ => ⟨S1x128, .f32⟩
  | .local _ .vmem, ⟨20, _⟩ => ⟨S256x4096, .bf16⟩
  | .local _ .vmem, ⟨21, _⟩ => ⟨S256x4096, .bf16⟩
  | .local _ .vmem, ⟨22, _⟩ => ⟨S256x4096, .bf16⟩
  | .local _ .vmem, ⟨23, _⟩ => ⟨S256x4096, .bf16⟩
  | .local _ .vmem, ⟨24, _⟩ => ⟨S256x4096, .bf16⟩
  | .local _ .vmem, ⟨25, _⟩ => ⟨S256x4096, .bf16⟩
  | .local _ .vmem, ⟨26, _⟩ => ⟨S256x1024, .bf16⟩
  | .local _ .vmem, ⟨27, _⟩ => ⟨S256x1024, .bf16⟩
  | .local _ .vmem, ⟨28, _⟩ => ⟨S1024x4096, .bf16⟩
  | .local _ .vmem, ⟨29, _⟩ => ⟨S256x4096, .bf16⟩
  | .local _ .vmem, ⟨30, _⟩ => ⟨S256x4096, .bf16⟩
  | .local _ .vmem, ⟨31, _⟩ => ⟨S256x1024, .bf16⟩
  | .local _ .vmem, ⟨32, _⟩ => ⟨S256x1024, .bf16⟩
  | .local _ .vmem, ⟨33, _⟩ => ⟨S256x4096, .bf16⟩
  | .local _ .vmem, ⟨34, _⟩ => ⟨S256x4096, .bf16⟩
  | .local _ .vmem, ⟨35, _⟩ => ⟨S256x4096, .bf16⟩
  | .local _ .vmem, ⟨36, _⟩ => ⟨S256x4096, .bf16⟩
  | .local _ .vmem, ⟨37, _⟩ => ⟨S256x4096, .bf16⟩
  | .local _ .vmem, ⟨38, _⟩ => ⟨S256x4096, .bf16⟩
  | .local _ .vmem, ⟨39, _⟩ => ⟨S256x4096, .bf16⟩
  | .local _ .vmem, ⟨40, _⟩ => ⟨S256x4096, .bf16⟩
  | .local _ .vmem, ⟨41, _⟩ => ⟨S1024x4096, .bf16⟩
  | .local _ .vmem, ⟨42, _⟩ => ⟨S256x4096, .bf16⟩
  | .local _ .vmem, ⟨43, _⟩ => ⟨S256x4096, .bf16⟩
  | .local _ .vmem, ⟨44, _⟩ => ⟨S256x4096, .bf16⟩
  | .local _ .vmem, ⟨45, _⟩ => ⟨S256x4096, .bf16⟩
  | .local _ .vmem, ⟨46, _⟩ => ⟨S3x128x64, .bf16⟩
  | .local _ .vmem, ⟨47, _⟩ => ⟨S3x128x64, .bf16⟩
  | .local _ .vmem, ⟨48, _⟩ => ⟨S1x64, .f32⟩
  | .local _ .vmem, ⟨49, _⟩ => ⟨S256x4096, .bf16⟩
  | .local _ .vmem, ⟨50, _⟩ => ⟨S256x4096, .bf16⟩
  | .local _ .vmem, ⟨51, _⟩ => ⟨S32x16384, .f32⟩
  | .local _ .vmem, ⟨52, _⟩ => ⟨S32x16384, .f32⟩
  | .local _ .vmem, ⟨53, _⟩ => ⟨S256x1024, .bf16⟩
  | .local _ .vmem, ⟨54, _⟩ => ⟨S256x1024, .bf16⟩
  | .local _ .vmem, ⟨55, _⟩ => ⟨S1024x4096, .bf16⟩
  | .local _ .vmem, ⟨56, _⟩ => ⟨S256x4096, .bf16⟩
  | .local _ .vmem, ⟨57, _⟩ => ⟨S256x4096, .bf16⟩
  | .local _ .vmem, ⟨58, _⟩ => ⟨S256x1024, .bf16⟩
  | .local _ .vmem, ⟨59, _⟩ => ⟨S256x1024, .bf16⟩
  | .local _ .vmem, ⟨60, _⟩ => ⟨S256x4096, .bf16⟩
  | .local _ .vmem, ⟨61, _⟩ => ⟨S256x4096, .bf16⟩
  | .local _ .vmem, ⟨62, _⟩ => ⟨S1024x4096, .bf16⟩
  | .local _ .vmem, ⟨63, _⟩ => ⟨S3x128x128, .bf16⟩
  | .local _ .vmem, ⟨64, _⟩ => ⟨S1x128, .f32⟩
  | .local _ .vmem, ⟨65, _⟩ => ⟨S256x4096, .bf16⟩
  | .local _ .vmem, ⟨66, _⟩ => ⟨S256x4096, .bf16⟩
  | .local _ .vmem, ⟨67, _⟩ => ⟨S256x4096, .bf16⟩
  | .local _ .vmem, ⟨68, _⟩ => ⟨S256x4096, .bf16⟩
  | .local _ .vmem, ⟨69, _⟩ => ⟨S256x4096, .bf16⟩
  | .local _ .vmem, ⟨70, _⟩ => ⟨S256x4096, .bf16⟩
  | .local _ .vmem, ⟨71, _⟩ => ⟨S256x1024, .bf16⟩
  | .local _ .vmem, ⟨72, _⟩ => ⟨S256x1024, .bf16⟩
  | .local _ .vmem, ⟨73, _⟩ => ⟨S1024x4096, .bf16⟩
  | .local _ .vmem, ⟨74, _⟩ => ⟨S256x4096, .bf16⟩
  | .local _ .vmem, ⟨75, _⟩ => ⟨S256x4096, .bf16⟩
  | .local _ .vmem, ⟨76, _⟩ => ⟨S256x1024, .bf16⟩
  | .local _ .vmem, ⟨77, _⟩ => ⟨S256x1024, .bf16⟩
  | .local _ .vmem, ⟨78, _⟩ => ⟨S256x4096, .bf16⟩
  | .local _ .vmem, ⟨79, _⟩ => ⟨S256x4096, .bf16⟩
  | .local _ .vmem, ⟨80, _⟩ => ⟨S256x4096, .bf16⟩
  | .local _ .vmem, ⟨81, _⟩ => ⟨S256x4096, .bf16⟩
  | .local _ .vmem, ⟨82, _⟩ => ⟨S256x4096, .bf16⟩
  | .local _ .vmem, ⟨83, _⟩ => ⟨S256x4096, .bf16⟩
  | .local _ .vmem, ⟨84, _⟩ => ⟨S256x4096, .bf16⟩
  | .local _ .vmem, ⟨85, _⟩ => ⟨S256x4096, .bf16⟩
  | .local _ .vmem, ⟨86, _⟩ => ⟨S1024x4096, .bf16⟩
  | .local _ .vmem, ⟨87, _⟩ => ⟨S256x4096, .bf16⟩
  | .local _ .vmem, ⟨88, _⟩ => ⟨S256x4096, .bf16⟩
  | .local _ .vmem, ⟨89, _⟩ => ⟨S256x4096, .bf16⟩
  | .local _ .vmem, ⟨90, _⟩ => ⟨S256x4096, .bf16⟩
  | .local _ .vmem, ⟨91, _⟩ => ⟨S3x128x64, .bf16⟩
  | .local _ .vmem, ⟨92, _⟩ => ⟨S3x128x64, .bf16⟩
  | .local _ .vmem, ⟨93, _⟩ => ⟨S1x64, .f32⟩
  | .local _ .vmem, ⟨94, _⟩ => ⟨S256x4096, .bf16⟩
  | .local _ .vmem, ⟨95, _⟩ => ⟨S256x4096, .bf16⟩
  | .local _ .vmem, ⟨96, _⟩ => ⟨S32x16384, .f32⟩
  | .local _ .vmem, ⟨97, _⟩ => ⟨S32x16384, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | _, _ => false

abbrev semScoped : Fin 0 → Bool
  | ⟨_, h⟩ => absurd h (Nat.not_lt_zero _)

abbrev dmaSemScoped : Fin 98 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | _ => false

abbrev sig : RefSig :=
  ofTc nBuf bufTy 0 98 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_3 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49_0 : Ref sig .tc := ⟨.hbm, 68, rfl⟩
abbrev main_v49_1 : Ref sig .tc := ⟨.hbm, 69, rfl⟩
abbrev main_v49_2 : Ref sig .tc := ⟨.hbm, 70, rfl⟩
abbrev main_v50 : Ref sig .tc := ⟨.hbm, 71, rfl⟩
abbrev main_v51_0 : Ref sig .tc := ⟨.hbm, 72, rfl⟩
abbrev main_v51_1 : Ref sig .tc := ⟨.hbm, 73, rfl⟩
abbrev main_v52 : Ref sig .tc := ⟨.hbm, 74, rfl⟩
abbrev main_v53_0 : Ref sig .tc := ⟨.hbm, 75, rfl⟩
abbrev main_v53_1 : Ref sig .tc := ⟨.hbm, 76, rfl⟩
abbrev main_v53_2 : Ref sig .tc := ⟨.hbm, 77, rfl⟩
abbrev main_v54 : Ref sig .tc := ⟨.hbm, 78, rfl⟩
abbrev main_v55_0 : Ref sig .tc := ⟨.hbm, 79, rfl⟩
abbrev main_v55_1 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc2_stg6_0 : Ref sig .tc := ⟨.vmem, 22, rfl⟩
abbrev cc2_stg6_1 : Ref sig .tc := ⟨.vmem, 23, rfl⟩
abbrev cc2_stg7_0 : Ref sig .tc := ⟨.vmem, 24, rfl⟩
abbrev cc2_stg7_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg3_1 : Ref sig .tc := ⟨.vmem, 38, rfl⟩
abbrev cc4_stg4_0 : Ref sig .tc := ⟨.vmem, 39, rfl⟩
abbrev cc4_stg4_1 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg6_1 : Ref sig .tc := ⟨.vmem, 43, rfl⟩
abbrev cc4_stg7_0 : Ref sig .tc := ⟨.vmem, 44, rfl⟩
abbrev cc4_stg7_1 : Ref sig .tc := ⟨.vmem, 45, rfl⟩
abbrev cc4_stg8_0 : Ref sig .tc := ⟨.vmem, 46, rfl⟩
abbrev cc4_stg9_0 : Ref sig .tc := ⟨.vmem, 47, rfl⟩
abbrev cc4_stg10_0 : Ref sig .tc := ⟨.vmem, 48, rfl⟩
abbrev cc4_stg11_0 : Ref sig .tc := ⟨.vmem, 49, rfl⟩
abbrev cc4_stg11_1 : Ref sig .tc := ⟨.vmem, 50, rfl⟩
abbrev cc4_stg12_0 : Ref sig .tc := ⟨.vmem, 51, rfl⟩
abbrev cc4_stg12_1 : Ref sig .tc := ⟨.vmem, 52, rfl⟩
abbrev cc5_stg0_0 : Ref sig .tc := ⟨.vmem, 53, rfl⟩
abbrev cc5_stg0_1 : Ref sig .tc := ⟨.vmem, 54, rfl⟩
abbrev cc5_stg1_0 : Ref sig .tc := ⟨.vmem, 55, rfl⟩
abbrev cc5_stg2_0 : Ref sig .tc := ⟨.vmem, 56, rfl⟩
abbrev cc5_stg2_1 : Ref sig .tc := ⟨.vmem, 57, rfl⟩
abbrev cc6_stg0_0 : Ref sig .tc := ⟨.vmem, 58, rfl⟩
abbrev cc6_stg0_1 : Ref sig .tc := ⟨.vmem, 59, rfl⟩
abbrev cc6_stg1_0 : Ref sig .tc := ⟨.vmem, 60, rfl⟩
abbrev cc6_stg1_1 : Ref sig .tc := ⟨.vmem, 61, rfl⟩
abbrev cc6_stg2_0 : Ref sig .tc := ⟨.vmem, 62, rfl⟩
abbrev cc6_stg3_0 : Ref sig .tc := ⟨.vmem, 63, rfl⟩
abbrev cc6_stg4_0 : Ref sig .tc := ⟨.vmem, 64, rfl⟩
abbrev cc6_stg5_0 : Ref sig .tc := ⟨.vmem, 65, rfl⟩
abbrev cc6_stg5_1 : Ref sig .tc := ⟨.vmem, 66, rfl⟩
abbrev cc6_stg6_0 : Ref sig .tc := ⟨.vmem, 67, rfl⟩
abbrev cc6_stg6_1 : Ref sig .tc := ⟨.vmem, 68, rfl⟩
abbrev cc6_stg7_0 : Ref sig .tc := ⟨.vmem, 69, rfl⟩
abbrev cc6_stg7_1 : Ref sig .tc := ⟨.vmem, 70, rfl⟩
abbrev cc7_stg0_0 : Ref sig .tc := ⟨.vmem, 71, rfl⟩
abbrev cc7_stg0_1 : Ref sig .tc := ⟨.vmem, 72, rfl⟩
abbrev cc7_stg1_0 : Ref sig .tc := ⟨.vmem, 73, rfl⟩
abbrev cc7_stg2_0 : Ref sig .tc := ⟨.vmem, 74, rfl⟩
abbrev cc7_stg2_1 : Ref sig .tc := ⟨.vmem, 75, rfl⟩
abbrev cc8_stg0_0 : Ref sig .tc := ⟨.vmem, 76, rfl⟩
abbrev cc8_stg0_1 : Ref sig .tc := ⟨.vmem, 77, rfl⟩
abbrev cc8_stg1_0 : Ref sig .tc := ⟨.vmem, 78, rfl⟩
abbrev cc8_stg1_1 : Ref sig .tc := ⟨.vmem, 79, rfl⟩
abbrev cc8_stg2_0 : Ref sig .tc := ⟨.vmem, 80, rfl⟩
abbrev cc8_stg2_1 : Ref sig .tc := ⟨.vmem, 81, rfl⟩
abbrev cc8_stg3_0 : Ref sig .tc := ⟨.vmem, 82, rfl⟩
abbrev cc8_stg3_1 : Ref sig .tc := ⟨.vmem, 83, rfl⟩
abbrev cc8_stg4_0 : Ref sig .tc := ⟨.vmem, 84, rfl⟩
abbrev cc8_stg4_1 : Ref sig .tc := ⟨.vmem, 85, rfl⟩
abbrev cc8_stg5_0 : Ref sig .tc := ⟨.vmem, 86, rfl⟩
abbrev cc8_stg6_0 : Ref sig .tc := ⟨.vmem, 87, rfl⟩
abbrev cc8_stg6_1 : Ref sig .tc := ⟨.vmem, 88, rfl⟩
abbrev cc8_stg7_0 : Ref sig .tc := ⟨.vmem, 89, rfl⟩
abbrev cc8_stg7_1 : Ref sig .tc := ⟨.vmem, 90, rfl⟩
abbrev cc8_stg8_0 : Ref sig .tc := ⟨.vmem, 91, rfl⟩
abbrev cc8_stg9_0 : Ref sig .tc := ⟨.vmem, 92, rfl⟩
abbrev cc8_stg10_0 : Ref sig .tc := ⟨.vmem, 93, rfl⟩
abbrev cc8_stg11_0 : Ref sig .tc := ⟨.vmem, 94, rfl⟩
abbrev cc8_stg11_1 : Ref sig .tc := ⟨.vmem, 95, rfl⟩
abbrev cc8_stg12_0 : Ref sig .tc := ⟨.vmem, 96, rfl⟩
abbrev cc8_stg12_1 : Ref sig .tc := ⟨.vmem, 97, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21
abbrev cc2_sem6_0 : DmaSem sig := 22
abbrev cc2_sem6_1 : DmaSem sig := 23
abbrev cc2_sem7_0 : DmaSem sig := 24
abbrev cc2_sem7_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem2_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem2_1 : DmaSem sig := 36
abbrev cc4_sem3_0 : DmaSem sig := 37
abbrev cc4_sem3_1 : DmaSem sig := 38
abbrev cc4_sem4_0 : DmaSem sig := 39
abbrev cc4_sem4_1 : DmaSem sig := 40
abbrev cc4_sem5_0 : DmaSem sig := 41
abbrev cc4_sem6_0 : DmaSem sig := 42
abbrev cc4_sem6_1 : DmaSem sig := 43
abbrev cc4_sem7_0 : DmaSem sig := 44
abbrev cc4_sem7_1 : DmaSem sig := 45
abbrev cc4_sem8_0 : DmaSem sig := 46
abbrev cc4_sem9_0 : DmaSem sig := 47
abbrev cc4_sem10_0 : DmaSem sig := 48
abbrev cc4_sem11_0 : DmaSem sig := 49
abbrev cc4_sem11_1 : DmaSem sig := 50
abbrev cc4_sem12_0 : DmaSem sig := 51
abbrev cc4_sem12_1 : DmaSem sig := 52
abbrev cc5_sem0_0 : DmaSem sig := 53
abbrev cc5_sem0_1 : DmaSem sig := 54
abbrev cc5_sem1_0 : DmaSem sig := 55
abbrev cc5_sem2_0 : DmaSem sig := 56
abbrev cc5_sem2_1 : DmaSem sig := 57
abbrev cc6_sem0_0 : DmaSem sig := 58
abbrev cc6_sem0_1 : DmaSem sig := 59
abbrev cc6_sem1_0 : DmaSem sig := 60
abbrev cc6_sem1_1 : DmaSem sig := 61
abbrev cc6_sem2_0 : DmaSem sig := 62
abbrev cc6_sem3_0 : DmaSem sig := 63
abbrev cc6_sem4_0 : DmaSem sig := 64
abbrev cc6_sem5_0 : DmaSem sig := 65
abbrev cc6_sem5_1 : DmaSem sig := 66
abbrev cc6_sem6_0 : DmaSem sig := 67
abbrev cc6_sem6_1 : DmaSem sig := 68
abbrev cc6_sem7_0 : DmaSem sig := 69
abbrev cc6_sem7_1 : DmaSem sig := 70
abbrev cc7_sem0_0 : DmaSem sig := 71
abbrev cc7_sem0_1 : DmaSem sig := 72
abbrev cc7_sem1_0 : DmaSem sig := 73
abbrev cc7_sem2_0 : DmaSem sig := 74
abbrev cc7_sem2_1 : DmaSem sig := 75
abbrev cc8_sem0_0 : DmaSem sig := 76
abbrev cc8_sem0_1 : DmaSem sig := 77
abbrev cc8_sem1_0 : DmaSem sig := 78
abbrev cc8_sem1_1 : DmaSem sig := 79
abbrev cc8_sem2_0 : DmaSem sig := 80
abbrev cc8_sem2_1 : DmaSem sig := 81
abbrev cc8_sem3_0 : DmaSem sig := 82
abbrev cc8_sem3_1 : DmaSem sig := 83
abbrev cc8_sem4_0 : DmaSem sig := 84
abbrev cc8_sem4_1 : DmaSem sig := 85
abbrev cc8_sem5_0 : DmaSem sig := 86
abbrev cc8_sem6_0 : DmaSem sig := 87
abbrev cc8_sem6_1 : DmaSem sig := 88
abbrev cc8_sem7_0 : DmaSem sig := 89
abbrev cc8_sem7_1 : DmaSem sig := 90
abbrev cc8_sem8_0 : DmaSem sig := 91
abbrev cc8_sem9_0 : DmaSem sig := 92
abbrev cc8_sem10_0 : DmaSem sig := 93
abbrev cc8_sem11_0 : DmaSem sig := 94
abbrev cc8_sem11_1 : DmaSem sig := 95
abbrev cc8_sem12_0 : DmaSem sig := 96
abbrev cc8_sem12_1 : DmaSem sig := 97

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x32x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x32x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def k2_off1 (i : grid2.Coords) : Fin 2 → Nat :=
  let arg0 : BitVec 32 := BitVec.ofNat 32 (i 0).val
  let c256_i32 : BitVec 32 := 256#32
  let v4 : BitVec 32 := Scalar.muli arg0 c256_i32
  let v5 : Index := Scalar.indexCast v4
  let c0_3 : Index := 0#32
  ![v5.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x4096 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S3x128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x4096 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x4096 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x4096 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x4096 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x4096 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![4], ![false]⟩

def k4_off1 (i : grid4.Coords) : Fin 2 → Nat :=
  let arg0 : BitVec 32 := BitVec.ofNat 32 (i 0).val
  let c256_i32 : BitVec 32 := 256#32
  let v4 : BitVec 32 := Scalar.muli arg0 c256_i32
  let v5 : Index := Scalar.indexCast v4
  let c0_3 : Index := 0#32
  ![v5.toNat, 0]
def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_9 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_12 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S256x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x4096 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x4096 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x4096 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S256x4096 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1024x4096 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S256x4096 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S256x4096 .bf16 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 1 → Memref sig .tc .vmem S3x128x64 .bf16 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S3x128x64 .bf16 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x64 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 2 → Memref sig .tc .vmem S256x4096 .bf16 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

abbrev stage4_12 : Fin 2 → Memref sig .tc .vmem S32x16384 .f32 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1024x4096 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S256x4096 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![4], ![false]⟩

def k6_off1 (i : grid6.Coords) : Fin 2 → Nat :=
  let arg0 : BitVec 32 := BitVec.ofNat 32 (i 0).val
  let c256_i32 : BitVec 32 := 256#32
  let v4 : BitVec 32 := Scalar.muli arg0 c256_i32
  let v5 : Index := Scalar.indexCast v4
  let c0_3 : Index := 0#32
  ![v5.toNat, 0]
def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S256x4096 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1024x4096 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S3x128x128 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S256x4096 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S256x4096 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S256x4096 .bf16 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![4], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S256x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1024x4096 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S256x4096 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![4], ![false]⟩

def k8_off1 (i : grid8.Coords) : Fin 2 → Nat :=
  let arg0 : BitVec 32 := BitVec.ofNat 32 (i 0).val
  let c256_i32 : BitVec 32 := 256#32
  let v4 : BitVec 32 := Scalar.muli arg0 c256_i32
  let v5 : Index := Scalar.indexCast v4
  let c0_3 : Index := 0#32
  ![v5.toNat, 0]
def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_8 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc8_transform_9 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc8_transform_10 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_11 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_12 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage8_0 : Fin 2 → Memref sig .tc .vmem S256x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S256x4096 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S256x4096 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S256x4096 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S256x4096 .bf16 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 1 → Memref sig .tc .vmem S1024x4096 .bf16 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S256x4096 .bf16 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 2 → Memref sig .tc .vmem S256x4096 .bf16 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev stage8_8 : Fin 1 → Memref sig .tc .vmem S3x128x64 .bf16 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S3x128x64 .bf16 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev stage8_10 : Fin 1 → Memref sig .tc .vmem S1x64 .f32 := fun | 0 => Memref.whole cc8_stg10_0 | ⟨_ + 1, h⟩ => absurd h (Nat.not_lt.2 (Nat.le_add_left _ _))
abbrev sem8_10 : Fin 1 → DmaSem sig := fun | 0 => cc8_sem10_0 | ⟨_ + 1, h⟩ => absurd h (Nat.not_lt.2 (Nat.le_add_left _ _))
abbrev reads8_10 : Fin grid8.rank → Bool := ![false]

abbrev stage8_11 : Fin 2 → Memref sig .tc .vmem S256x4096 .bf16 := fun | 0 => Memref.whole cc8_stg11_0 | 1 => Memref.whole cc8_stg11_1 | ⟨_ + 2, h⟩ => absurd h (Nat.not_lt.2 (Nat.le_add_left _ _))
abbrev sem8_11 : Fin 2 → DmaSem sig := fun | 0 => cc8_sem11_0 | 1 => cc8_sem11_1 | ⟨_ + 2, h⟩ => absurd h (Nat.not_lt.2 (Nat.le_add_left _ _))
abbrev reads8_11 : Fin grid8.rank → Bool := ![true]

abbrev stage8_12 : Fin 2 → Memref sig .tc .vmem S32x16384 .f32 := fun | 0 => Memref.whole cc8_stg12_0 | 1 => Memref.whole cc8_stg12_1 | ⟨_ + 2, h⟩ => absurd h (Nat.not_lt.2 (Nat.le_add_left _ _))
abbrev sem8_12 : Fin 2 → DmaSem sig := fun | 0 => cc8_sem12_0 | 1 => cc8_sem12_1 | ⟨_ + 2, h⟩ => absurd h (Nat.not_lt.2 (Nat.le_add_left _ _))
abbrev reads8_12 : Fin grid8.rank → Bool := ![true]

class Facts₀ : Prop where
  bitsLt_bf16_f32 : FTy.bits .bf16 < FTy.bits .f32
  shapeCasts_S32x2048_S32x1024x2 : S32x2048.ShapeCasts S32x1024x2
  transposes_S32x1024x2_S1024x32x2_1_0_2 : S32x1024x2.Transposes [1, 0, 2] S1024x32x2
  pads_S1024x32x2_S1024x32x64_000_000_0620 : S1024x32x2.Pads (![0, 0, 0] : Fin 3 → Nat) ![0, 0, 62] ![0, 0, 0] S1024x32x64
  h_S_ : 0 < S_.numel
  shapeCasts_S2x32x65536_S2x32x1024x64 : S2x32x65536.ShapeCasts S2x32x1024x64
  inb_S128x32x64_S128x32x64_0_0_0 : ∀ a, (![0, 0, 0] : Fin 3 → Nat) a + S128x32x64.size a ≤ S128x32x64.size a
  h_S128x32x64 : 0 < S128x32x64.numel
  shapeCasts_S128x32x64_S128x32x64 : S128x32x64.ShapeCasts S128x32x64
  inb_S2x32x128x64_S1x32x128x64_0_0_0_0 : ∀ a, (![0, 0, 0, 0] : Fin 4 → Nat) a + S1x32x128x64.size a ≤ S2x32x128x64.size a
  h_S1x32x128x64 : 0 < S1x32x128x64.numel
  shapeCasts_S1x32x128x64_S32x128x64 : S1x32x128x64.ShapeCasts S32x128x64
  transposes_S32x128x64_p1_0_2_S128x32x64 : S32x128x64.Transposes [1, 0, 2] S128x32x64
  inb_S2x32x128x64_S1x32x128x64_1_0_0_0 : ∀ a, (![1, 0, 0, 0] : Fin 4 → Nat) a + S1x32x128x64.size a ≤ S2x32x128x64.size a
  concatenates_S128x32x64_S128x32x64_S128x32x128_d2 : Shape.Concatenates [S128x32x64, S128x32x64] S128x32x128 2
  shapeCasts_S128x32x128_S128x4096 : S128x32x128.ShapeCasts S128x4096
  inb_S128x4096_S128x4096_0_0 : ∀ a, (![0, 0] : Fin 2 → Nat) a + S128x4096.size a ≤ S128x4096.size a
  h_S128x4096 : 0 < S128x4096.numel
  packedbf16_S128x4096_S128x4096_0_0 : (Rect.unit (s := S128x4096) ![0, 0] S128x4096.size inb_S128x4096_S128x4096_0_0).PackedRows (EltTy.packing .bf16)
  bcast_S_S3x64x64 : S_.BroadcastsInDim S3x64x64 (![] : Fin 0 → Fin S3x64x64.rank)
  shapeCasts_S198x128_S66x3x128 : S198x128.ShapeCasts S66x3x128
  transposes_S66x3x128_S3x66x128_1_0_2 : S66x3x128.Transposes [1, 0, 2] S3x66x128
  slices_S3x66x128_S3x2x128_0_0_0 : S3x66x128.Slices ![0, 0, 0] S3x2x128
  slices_S3x66x128_S3x64x128_0_2_0 : S3x66x128.Slices ![0, 2, 0] S3x64x128
  bcast_S_S3x62x128 : S_.BroadcastsInDim S3x62x128 (![] : Fin 0 → Fin S3x62x128.rank)
  concatenates_S3x2x128_S3x62x128_S3x64x128_d1 : Shape.Concatenates [S3x2x128, S3x62x128] S3x64x128 1
  concatenates_S3x64x128_S3x64x128_S3x128x128_d1 : Shape.Concatenates [S3x64x128, S3x64x128] S3x128x128 1
  shapeCasts_S198x64_S66x3x64 : S198x64.ShapeCasts S66x3x64
  transposes_S66x3x64_S3x66x64_1_0_2 : S66x3x64.Transposes [1, 0, 2] S3x66x64
  slices_S3x66x64_S3x2x64_0_0_0 : S3x66x64.Slices ![0, 0, 0] S3x2x64
  slices_S3x66x64_S3x64x64_0_2_0 : S3x66x64.Slices ![0, 2, 0] S3x64x64
  bcast_S_S3x62x64 : S_.BroadcastsInDim S3x62x64 (![] : Fin 0 → Fin S3x62x64.rank)
  concatenates_S3x2x64_S3x62x64_S3x64x64_d1 : Shape.Concatenates [S3x2x64, S3x62x64] S3x64x64 1
  concatenates_S3x64x64_S3x64x64_S3x128x64_d1 : Shape.Concatenates [S3x64x64, S3x64x64] S3x128x64 1
  shapeCasts_S384x128_S128x3x128 : S384x128.ShapeCasts S128x3x128
  transposes_S128x3x128_S3x128x128_1_0_2 : S128x3x128.Transposes [1, 0, 2] S3x128x128
  slices_S3x128x128_S3x64x128_0_0_0 : S3x128x128.Slices ![0, 0, 0] S3x64x128
  slices_S3x128x128_S3x64x128_0_64_0 : S3x128x128.Slices ![0, 64, 0] S3x64x128
  bcast_S_S3x0x128 : S_.BroadcastsInDim S3x0x128 (![] : Fin 0 → Fin S3x0x128.rank)
  concatenates_S3x64x128_S3x0x128_S3x64x128_d1 : Shape.Concatenates [S3x64x128, S3x0x128] S3x64x128 1
  shapeCasts_S384x64_S128x3x64 : S384x64.ShapeCasts S128x3x64
  transposes_S128x3x64_S3x128x64_1_0_2 : S128x3x64.Transposes [1, 0, 2] S3x128x64
  slices_S3x128x64_S3x64x64_0_0_0 : S3x128x64.Slices ![0, 0, 0] S3x64x64
  slices_S3x128x64_S3x64x64_0_64_0 : S3x128x64.Slices ![0, 64, 0] S3x64x64
  bcast_S_S3x0x64 : S_.BroadcastsInDim S3x0x64 (![] : Fin 0 → Fin S3x0x64.rank)
  concatenates_S3x64x64_S3x0x64_S3x64x64_d1 : Shape.Concatenates [S3x64x64, S3x0x64] S3x64x64 1
  shapeCasts_S128_S1x128 : S128.ShapeCasts S1x128
  shapeCasts_S64_S1x64 : S64.ShapeCasts S1x64
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  packedbf16_S256x4096_S256x4096_0_0 : (Rect.unit (s := S256x4096) ![0, 0] S256x4096.size inb_S256x4096_S256x4096_0_0).PackedRows (EltTy.packing .bf16)
  shapeCasts_S256x4096_S256x4096 : S256x4096.ShapeCasts S256x4096
  shapeCasts_S256x4096_S8192x128 : S256x4096.ShapeCasts S8192x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128x128_S1x128x128_1_0_0 : ∀ a, (![1, 0, 0] : Fin 3 → Nat) a + S1x128x128.size a ≤ S3x128x128.size a
  inb_S3x128x128_S1x128x128_2_0_0 : ∀ a, (![2, 0, 0] : Fin 3 → Nat) a + S1x128x128.size a ≤ S3x128x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  slices_S8192x128_o0_0_S8192x64 : S8192x128.Slices ![0, 0] S8192x64
  slices_S8192x128_o0_64_S8192x64 : S8192x128.Slices ![0, 64] S8192x64
  concatenates_S8192x64_S8192x64_S8192x128_d1 : Shape.Concatenates [S8192x64, S8192x64] S8192x128 1
  shapeCasts_S8192x128_S256x4096 : S8192x128.ShapeCasts S256x4096
  inb_S3x128x64_S1x128x64_0_0_0 : ∀ a, (![0, 0, 0] : Fin 3 → Nat) a + S1x128x64.size a ≤ S3x128x64.size a
  h_S1x128x64 : 0 < S1x128x64.numel
  shapeCasts_S1x128x64_S128x64 : S1x128x64.ShapeCasts S128x64
  inb_S3x128x64_S1x128x64_1_0_0 : ∀ a, (![1, 0, 0] : Fin 3 → Nat) a + S1x128x64.size a ≤ S3x128x64.size a
  inb_S3x128x64_S1x128x64_2_0_0 : ∀ a, (![2, 0, 0] : Fin 3 → Nat) a + S1x128x64.size a ≤ S3x128x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  shapeCasts_S8192x64_S128x2x32x64 : S8192x64.ShapeCasts S128x2x32x64
  slices_S128x2x32x64_o0_0_0_0_S128x1x32x64 : S128x2x32x64.Slices ![0, 0, 0, 0] S128x1x32x64
  shapeCasts_S128x1x32x64_S128x32x64 : S128x1x32x64.ShapeCasts S128x32x64
  slices_S128x2x32x64_o0_1_0_0_S128x1x32x64 : S128x2x32x64.Slices ![0, 1, 0, 0] S128x1x32x64
  transposes_S128x32x128_p1_0_2_S32x128x128 : S128x32x128.Transposes [1, 0, 2] S32x128x128
  shapeCasts_S32x128x128_S32x16384 : S32x128x128.ShapeCasts S32x16384
  inb_S32x16384_S32x16384_0_0 : ∀ a, (![0, 0] : Fin 2 → Nat) a + S32x16384.size a ≤ S32x16384.size a
  h_S32x16384 : 0 < S32x16384.numel
  bcast_S32x65536_S1x32x65536_1_2 : S32x65536.BroadcastsInDim S1x32x65536 (![1, 2] : Fin 2 → Fin S1x32x65536.rank)
  concatenates_S1x32x65536_S1x32x65536_S2x32x65536_d0 : Shape.Concatenates [S1x32x65536, S1x32x65536] S2x32x65536 0
  dot_S256x1024_S1024x4096_S256x4096_1_0_0_1_n_n_wf : DotDims.WF S256x1024 S1024x4096 S256x4096 [1] [0] [0] [1] [] []
  dot_S8192x128_S128x128_S8192x128_1_0_0_1_n_n_wf : DotDims.WF S8192x128 S128x128 S8192x128 [1] [0] [0] [1] [] []
  dot_S8192x128_S128x64_S8192x64_1_0_0_1_n_n_wf : DotDims.WF S8192x128 S128x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32x64.size a ≤ S1024x32x64.size a
  hwx0_0 : ∀ i : grid0.Coords, EltTy.bits .bf16 = 32 ∨ (Rect.block (s := S1024x32x64) S128x32x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x32x128x64.size a ≤ S2x32x1024x64.size a
  hwx0_1 : ∀ i : grid0.Coords, EltTy.bits .f32 = 32 ∨ (Rect.block (s := S2x32x1024x64) S2x32x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S1024x4096.size a
  hwx0_2 : ∀ i : grid0.Coords, EltTy.bits .bf16 = 32 ∨ (Rect.block (s := S1024x4096) S128x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S1024x4096.size a
  hwx0_3 : ∀ i : grid0.Coords, EltTy.bits .bf16 = 32 ∨ (Rect.block (s := S1024x4096) S128x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S1024x1024.size a
  hwx1_0 : ∀ i : grid1.Coords, EltTy.bits .bf16 = 32 ∨ (Rect.block (s := S1024x1024) S256x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S1024x4096.size a
  hwx1_1 : ∀ i : grid1.Coords, EltTy.bits .bf16 = 32 ∨ (Rect.block (s := S1024x4096) S1024x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S1024x4096.size a
  hwx1_2 : ∀ i : grid1.Coords, EltTy.bits .bf16 = 32 ∨ (Rect.block (s := S1024x4096) S256x4096.size (cc1_transform_2 i) (hinb1_2 i)).WholeWords (EltTy.packing .bf16)
  hrank2 : 0 < grid2.rank
  k2_off1_inb : ∀ i : grid2.Coords, ∀ a, (k2_off1 i) a + S256x4096.size a ≤ S1024x4096.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S1024x1024.size a
  hwx2_0 : ∀ i : grid2.Coords, EltTy.bits .bf16 = 32 ∨ (Rect.block (s := S1024x1024) S256x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x4096.size a ≤ S1024x4096.size a
  hwx2_1 : ∀ i : grid2.Coords, EltTy.bits .bf16 = 32 ∨ (Rect.block (s := S1024x4096) S256x4096.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x4096.size a ≤ S1024x4096.size a
  hwx2_2 : ∀ i : grid2.Coords, EltTy.bits .bf16 = 32 ∨ (Rect.block (s := S1024x4096) S1024x4096.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x128x128.size a ≤ S3x128x128.size a
  hwx2_3 : ∀ i : grid2.Coords, EltTy.bits .bf16 = 32 ∨ (Rect.block (s := S3x128x128) S3x128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x4096.size a ≤ S1024x4096.size a
  hwx2_5 : ∀ i : grid2.Coords, EltTy.bits .bf16 = 32 ∨ (Rect.block (s := S1024x4096) S256x4096.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S256x4096.size a ≤ S1024x4096.size a
  hwx2_6 : ∀ i : grid2.Coords, EltTy.bits .bf16 = 32 ∨ (Rect.block (s := S1024x4096) S256x4096.size (cc2_transform_6 i) (hinb2_6 i)).WholeWords (EltTy.packing .bf16)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S256x4096.size a ≤ S1024x4096.size a
  hwx2_7 : ∀ i : grid2.Coords, EltTy.bits .bf16 = 32 ∨ (Rect.block (s := S1024x4096) S256x4096.size (cc2_transform_7 i) (hinb2_7 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x1024.size a ≤ S1024x1024.size a
  hwx3_0 : ∀ i : grid3.Coords, EltTy.bits .bf16 = 32 ∨ (Rect.block (s := S1024x1024) S256x1024.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x4096.size a ≤ S1024x4096.size a
  hwx3_1 : ∀ i : grid3.Coords, EltTy.bits .bf16 = 32 ∨ (Rect.block (s := S1024x4096) S1024x4096.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x4096.size a ≤ S1024x4096.size a
  hwx3_2 : ∀ i : grid3.Coords, EltTy.bits .bf16 = 32 ∨ (Rect.block (s := S1024x4096) S256x4096.size (cc3_transform_2 i) (hinb3_2 i)).WholeWords (EltTy.packing .bf16)
  hrank4 : 0 < grid4.rank
  k4_off1_inb : ∀ i : grid4.Coords, ∀ a, (k4_off1 i) a + S256x4096.size a ≤ S1024x4096.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x1024.size a ≤ S1024x1024.size a
  hwx4_0 : ∀ i : grid4.Coords, EltTy.bits .bf16 = 32 ∨ (Rect.block (s := S1024x1024) S256x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S256x4096.size a ≤ S1024x4096.size a
  hwx4_1 : ∀ i : grid4.Coords, EltTy.bits .bf16 = 32 ∨ (Rect.block (s := S1024x4096) S256x4096.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S256x4096.size a ≤ S1024x4096.size a
  hwx4_2 : ∀ i : grid4.Coords, EltTy.bits .bf16 = 32 ∨ (Rect.block (s := S1024x4096) S256x4096.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S256x4096.size a ≤ S1024x4096.size a
  hwx4_3 : ∀ i : grid4.Coords, EltTy.bits .bf16 = 32 ∨ (Rect.block (s := S1024x4096) S256x4096.size (cc4_transform_3 i) (hinb4_3 i)).WholeWords (EltTy.packing .bf16)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S256x4096.size a ≤ S1024x4096.size a
  hwx4_4 : ∀ i : grid4.Coords, EltTy.bits .bf16 = 32 ∨ (Rect.block (s := S1024x4096) S256x4096.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1024x4096.size a ≤ S1024x4096.size a
  hwx4_5 : ∀ i : grid4.Coords, EltTy.bits .bf16 = 32 ∨ (Rect.block (s := S1024x4096) S1024x4096.size (cc4_transform_5 i) (hinb4_5 i)).WholeWords (EltTy.packing .bf16)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S256x4096.size a ≤ S1024x4096.size a
  hwx4_6 : ∀ i : grid4.Coords, EltTy.bits .bf16 = 32 ∨ (Rect.block (s := S1024x4096) S256x4096.size (cc4_transform_6 i) (hinb4_6 i)).WholeWords (EltTy.packing .bf16)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S256x4096.size a ≤ S1024x4096.size a
  hwx4_7 : ∀ i : grid4.Coords, EltTy.bits .bf16 = 32 ∨ (Rect.block (s := S1024x4096) S256x4096.size (cc4_transform_7 i) (hinb4_7 i)).WholeWords (EltTy.packing .bf16)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S3x128x64.size a ≤ S3x128x64.size a
  hwx4_8 : ∀ i : grid4.Coords, EltTy.bits .bf16 = 32 ∨ (Rect.block (s := S3x128x64) S3x128x64.size (cc4_transform_8 i) (hinb4_8 i)).WholeWords (EltTy.packing .bf16)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S3x128x64.size a ≤ S3x128x64.size a
  hwx4_9 : ∀ i : grid4.Coords, EltTy.bits .bf16 = 32 ∨ (Rect.block (s := S3x128x64) S3x128x64.size (cc4_transform_9 i) (hinb4_9 i)).WholeWords (EltTy.packing .bf16)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x64.size a ≤ S1x64.size a
  hwx4_10 : ∀ i : grid4.Coords, EltTy.bits .f32 = 32 ∨ (Rect.block (s := S1x64) S1x64.size (cc4_transform_10 i) (hinb4_10 i)).WholeWords (EltTy.packing .f32)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S256x4096.size a ≤ S1024x4096.size a
  hwx4_11 : ∀ i : grid4.Coords, EltTy.bits .bf16 = 32 ∨ (Rect.block (s := S1024x4096) S256x4096.size (cc4_transform_11 i) (hinb4_11 i)).WholeWords (EltTy.packing .bf16)
  hstage4_12 : ∀ j, (stage4_12 j).IsWhole
  nbuf4_12 : grid4.bufCount reads4_12 false = 2
  hreads4_12 : ∀ i i' : grid4.Coords, (∀ a, reads4_12 a = true → i a = i' a) → cc4_transform_12 i = cc4_transform_12 i'
  hinb4_12 : ∀ (i : grid4.Coords) a, (cc4_transform_12 i a + 1) * S32x16384.size a ≤ S32x65536.size a
  hwx4_12 : ∀ i : grid4.Coords, EltTy.bits .f32 = 32 ∨ (Rect.block (s := S32x65536) S32x16384.size (cc4_transform_12 i) (hinb4_12 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x1024.size a ≤ S1024x1024.size a
  hwx5_0 : ∀ i : grid5.Coords, EltTy.bits .bf16 = 32 ∨ (Rect.block (s := S1024x1024) S256x1024.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1024x4096.size a ≤ S1024x4096.size a
  hwx5_1 : ∀ i : grid5.Coords, EltTy.bits .bf16 = 32 ∨ (Rect.block (s := S1024x4096) S1024x4096.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S256x4096.size a ≤ S1024x4096.size a
  hwx5_2 : ∀ i : grid5.Coords, EltTy.bits .bf16 = 32 ∨ (Rect.block (s := S1024x4096) S256x4096.size (cc5_transform_2 i) (hinb5_2 i)).WholeWords (EltTy.packing .bf16)
  hrank6 : 0 < grid6.rank
  k6_off1_inb : ∀ i : grid6.Coords, ∀ a, (k6_off1 i) a + S256x4096.size a ≤ S1024x4096.size a
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S256x1024.size a ≤ S1024x1024.size a
  hwx6_0 : ∀ i : grid6.Coords, EltTy.bits .bf16 = 32 ∨ (Rect.block (s := S1024x1024) S256x1024.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S256x4096.size a ≤ S1024x4096.size a
  hwx6_1 : ∀ i : grid6.Coords, EltTy.bits .bf16 = 32 ∨ (Rect.block (s := S1024x4096) S256x4096.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1024x4096.size a ≤ S1024x4096.size a
  hwx6_2 : ∀ i : grid6.Coords, EltTy.bits .bf16 = 32 ∨ (Rect.block (s := S1024x4096) S1024x4096.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S3x128x128.size a ≤ S3x128x128.size a
  hwx6_3 : ∀ i : grid6.Coords, EltTy.bits .bf16 = 32 ∨ (Rect.block (s := S3x128x128) S3x128x128.size (cc6_transform_3 i) (hinb6_3 i)).WholeWords (EltTy.packing .bf16)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S256x4096.size a ≤ S1024x4096.size a
  hwx6_5 : ∀ i : grid6.Coords, EltTy.bits .bf16 = 32 ∨ (Rect.block (s := S1024x4096) S256x4096.size (cc6_transform_5 i) (hinb6_5 i)).WholeWords (EltTy.packing .bf16)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S256x4096.size a ≤ S1024x4096.size a
  hwx6_6 : ∀ i : grid6.Coords, EltTy.bits .bf16 = 32 ∨ (Rect.block (s := S1024x4096) S256x4096.size (cc6_transform_6 i) (hinb6_6 i)).WholeWords (EltTy.packing .bf16)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S256x4096.size a ≤ S1024x4096.size a
  hwx6_7 : ∀ i : grid6.Coords, EltTy.bits .bf16 = 32 ∨ (Rect.block (s := S1024x4096) S256x4096.size (cc6_transform_7 i) (hinb6_7 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S256x1024.size a ≤ S1024x1024.size a
  hwx7_0 : ∀ i : grid7.Coords, EltTy.bits .bf16 = 32 ∨ (Rect.block (s := S1024x1024) S256x1024.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1024x4096.size a ≤ S1024x4096.size a
  hwx7_1 : ∀ i : grid7.Coords, EltTy.bits .bf16 = 32 ∨ (Rect.block (s := S1024x4096) S1024x4096.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S256x4096.size a ≤ S1024x4096.size a
  hwx7_2 : ∀ i : grid7.Coords, EltTy.bits .bf16 = 32 ∨ (Rect.block (s := S1024x4096) S256x4096.size (cc7_transform_2 i) (hinb7_2 i)).WholeWords (EltTy.packing .bf16)
  hrank8 : 0 < grid8.rank
  k8_off1_inb : ∀ i : grid8.Coords, ∀ a, (k8_off1 i) a + S256x4096.size a ≤ S1024x4096.size a
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S256x1024.size a ≤ S1024x1024.size a
  hwx8_0 : ∀ i : grid8.Coords, EltTy.bits .bf16 = 32 ∨ (Rect.block (s := S1024x1024) S256x1024.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S256x4096.size a ≤ S1024x4096.size a
  hwx8_1 : ∀ i : grid8.Coords, EltTy.bits .bf16 = 32 ∨ (Rect.block (s := S1024x4096) S256x4096.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S256x4096.size a ≤ S1024x4096.size a
  hwx8_2 : ∀ i : grid8.Coords, EltTy.bits .bf16 = 32 ∨ (Rect.block (s := S1024x4096) S256x4096.size (cc8_transform_2 i) (hinb8_2 i)).WholeWords (EltTy.packing .bf16)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S256x4096.size a ≤ S1024x4096.size a
  hwx8_3 : ∀ i : grid8.Coords, EltTy.bits .bf16 = 32 ∨ (Rect.block (s := S1024x4096) S256x4096.size (cc8_transform_3 i) (hinb8_3 i)).WholeWords (EltTy.packing .bf16)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S256x4096.size a ≤ S1024x4096.size a
  hwx8_4 : ∀ i : grid8.Coords, EltTy.bits .bf16 = 32 ∨ (Rect.block (s := S1024x4096) S256x4096.size (cc8_transform_4 i) (hinb8_4 i)).WholeWords (EltTy.packing .bf16)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1024x4096.size a ≤ S1024x4096.size a
  hwx8_5 : ∀ i : grid8.Coords, EltTy.bits .bf16 = 32 ∨ (Rect.block (s := S1024x4096) S1024x4096.size (cc8_transform_5 i) (hinb8_5 i)).WholeWords (EltTy.packing .bf16)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S256x4096.size a ≤ S1024x4096.size a
  hwx8_6 : ∀ i : grid8.Coords, EltTy.bits .bf16 = 32 ∨ (Rect.block (s := S1024x4096) S256x4096.size (cc8_transform_6 i) (hinb8_6 i)).WholeWords (EltTy.packing .bf16)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S256x4096.size a ≤ S1024x4096.size a
  hwx8_7 : ∀ i : grid8.Coords, EltTy.bits .bf16 = 32 ∨ (Rect.block (s := S1024x4096) S256x4096.size (cc8_transform_7 i) (hinb8_7 i)).WholeWords (EltTy.packing .bf16)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S3x128x64.size a ≤ S3x128x64.size a
  hwx8_8 : ∀ i : grid8.Coords, EltTy.bits .bf16 = 32 ∨ (Rect.block (s := S3x128x64) S3x128x64.size (cc8_transform_8 i) (hinb8_8 i)).WholeWords (EltTy.packing .bf16)
  hstage8_9 : ∀ j, (stage8_9 j).IsWhole
  nbuf8_9 : grid8.bufCount reads8_9 true = 1
  hreads8_9 : ∀ i i' : grid8.Coords, (∀ a, reads8_9 a = true → i a = i' a) → cc8_transform_9 i = cc8_transform_9 i'
  hinb8_9 : ∀ (i : grid8.Coords) a, (cc8_transform_9 i a + 1) * S3x128x64.size a ≤ S3x128x64.size a
  hwx8_9 : ∀ i : grid8.Coords, EltTy.bits .bf16 = 32 ∨ (Rect.block (s := S3x128x64) S3x128x64.size (cc8_transform_9 i) (hinb8_9 i)).WholeWords (EltTy.packing .bf16)
  hstage8_10 : ∀ j, (stage8_10 j).IsWhole
  nbuf8_10 : grid8.bufCount reads8_10 true = 1
  hreads8_10 : ∀ i i' : grid8.Coords, (∀ a, reads8_10 a = true → i a = i' a) → cc8_transform_10 i = cc8_transform_10 i'
  hinb8_10 : ∀ (i : grid8.Coords) a, (cc8_transform_10 i a + 1) * S1x64.size a ≤ S1x64.size a
  hwx8_10 : ∀ i : grid8.Coords, EltTy.bits .f32 = 32 ∨ (Rect.block (s := S1x64) S1x64.size (cc8_transform_10 i) (hinb8_10 i)).WholeWords (EltTy.packing .f32)
  hstage8_11 : ∀ j, (stage8_11 j).IsWhole
  nbuf8_11 : grid8.bufCount reads8_11 false = 2
  hreads8_11 : ∀ i i' : grid8.Coords, (∀ a, reads8_11 a = true → i a = i' a) → cc8_transform_11 i = cc8_transform_11 i'
  hinb8_11 : ∀ (i : grid8.Coords) a, (cc8_transform_11 i a + 1) * S256x4096.size a ≤ S1024x4096.size a
  hwx8_11 : ∀ i : grid8.Coords, EltTy.bits .bf16 = 32 ∨ (Rect.block (s := S1024x4096) S256x4096.size (cc8_transform_11 i) (hinb8_11 i)).WholeWords (EltTy.packing .bf16)
  hstage8_12 : ∀ j, (stage8_12 j).IsWhole
  nbuf8_12 : grid8.bufCount reads8_12 false = 2
  hreads8_12 : ∀ i i' : grid8.Coords, (∀ a, reads8_12 a = true → i a = i' a) → cc8_transform_12 i = cc8_transform_12 i'
  hinb8_12 : ∀ (i : grid8.Coords) a, (cc8_transform_12 i a + 1) * S32x16384.size a ≤ S32x65536.size a
  hwx8_12 : ∀ i : grid8.Coords, EltTy.bits .f32 = 32 ∨ (Rect.block (s := S32x65536) S32x16384.size (cc8_transform_12 i) (hinb8_12 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf

abbrev win0_0 : Pipeline.Window sig grid0 :=
  Pipeline.Window.ofSpec (Memref.whole main_v4) S128x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2x32x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6_0) S128x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_1) S128x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_0) S1024x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S256x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6_0) S256x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1024x4096.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S3x128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49_0) S256x4096.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v49_1) S256x4096.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v49_2) S256x4096.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v0) S256x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49_1) S1024x4096.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S256x4096.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v0) S256x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v6_0) S256x4096.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v48) S256x4096.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v49_0) S256x4096.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v49_1) S256x4096.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v50) S1024x4096.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v49_2) S256x4096.size cc4_transform_6 reads4_6 false false 2 stage4_6 sem4_6
    hrank4 hreads4_6 hinb4_6 nbuf4_6 (Memref.isWhole_whole _) hwx4_6 hstage4_6

abbrev win4_7 : Pipeline.Window sig grid4 :=
  Pipeline.Window.ofSpec (Memref.whole main_v6_1) S256x4096.size cc4_transform_7 reads4_7 false false 2 stage4_7 sem4_7
    hrank4 hreads4_7 hinb4_7 nbuf4_7 (Memref.isWhole_whole _) hwx4_7 hstage4_7

abbrev win4_8 : Pipeline.Window sig grid4 :=
  Pipeline.Window.ofSpec (Memref.whole main_v23) S3x128x64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v25) S3x128x64.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v45) S1x64.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v51_0) S256x4096.size cc4_transform_11 reads4_11 true false 2 stage4_11 sem4_11
    hrank4 hreads4_11 hinb4_11 nbuf4_11 (Memref.isWhole_whole _) hwx4_11 hstage4_11

abbrev win4_12 : Pipeline.Window sig grid4 :=
  Pipeline.Window.ofSpec (Memref.whole main_v51_1) S32x16384.size cc4_transform_12 reads4_12 true false 2 stage4_12 sem4_12
    hrank4 hreads4_12 hinb4_12 nbuf4_12 (Memref.isWhole_whole _) hwx4_12 hstage4_12

abbrev win4 : Fin 13 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | ⟨_ + 13, h⟩ => absurd h (Nat.not_lt.2 (Nat.le_add_left _ _))
abbrev spec4 : Fin 13 → Pipeline.WinSpec sig grid4.rank := fun w => (win4 w).toWinSpec

abbrev win5_0 : Pipeline.Window sig grid5 :=
  Pipeline.Window.ofSpec (Memref.whole main_v0) S256x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v51_0) S1024x4096.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v52) S256x4096.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v0) S256x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v51_0) S256x4096.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v52) S1024x4096.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v33) S3x128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v46) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v53_0) S256x4096.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v53_1) S256x4096.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v53_2) S256x4096.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v0) S256x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v53_1) S1024x4096.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v54) S256x4096.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v0) S256x1024.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v51_0) S256x4096.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v52) S256x4096.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v53_0) S256x4096.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v53_1) S256x4096.size cc8_transform_4 reads8_4 false false 2 stage8_4 sem8_4
    hrank8 hreads8_4 hinb8_4 nbuf8_4 (Memref.isWhole_whole _) hwx8_4 hstage8_4

abbrev win8_5 : Pipeline.Window sig grid8 :=
  Pipeline.Window.ofSpec (Memref.whole main_v54) S1024x4096.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v53_2) S256x4096.size cc8_transform_6 reads8_6 false false 2 stage8_6 sem8_6
    hrank8 hreads8_6 hinb8_6 nbuf8_6 (Memref.isWhole_whole _) hwx8_6 hstage8_6

abbrev win8_7 : Pipeline.Window sig grid8 :=
  Pipeline.Window.ofSpec (Memref.whole main_v6_1) S256x4096.size cc8_transform_7 reads8_7 false false 2 stage8_7 sem8_7
    hrank8 hreads8_7 hinb8_7 nbuf8_7 (Memref.isWhole_whole _) hwx8_7 hstage8_7

abbrev win8_8 : Pipeline.Window sig grid8 :=
  Pipeline.Window.ofSpec (Memref.whole main_v41) S3x128x64.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v43) S3x128x64.size cc8_transform_9 reads8_9 false true 1 stage8_9 sem8_9
    hrank8 hreads8_9 hinb8_9 nbuf8_9 (Memref.isWhole_whole _) hwx8_9 hstage8_9

abbrev win8_10 : Pipeline.Window sig grid8 :=
  Pipeline.Window.ofSpec (Memref.whole main_v47) S1x64.size cc8_transform_10 reads8_10 false true 1 stage8_10 sem8_10
    hrank8 hreads8_10 hinb8_10 nbuf8_10 (Memref.isWhole_whole _) hwx8_10 hstage8_10

abbrev win8_11 : Pipeline.Window sig grid8 :=
  Pipeline.Window.ofSpec (Memref.whole main_v55_0) S256x4096.size cc8_transform_11 reads8_11 true false 2 stage8_11 sem8_11
    hrank8 hreads8_11 hinb8_11 nbuf8_11 (Memref.isWhole_whole _) hwx8_11 hstage8_11

abbrev win8_12 : Pipeline.Window sig grid8 :=
  Pipeline.Window.ofSpec (Memref.whole main_v55_1) S32x16384.size cc8_transform_12 reads8_12 true false 2 stage8_12 sem8_12
    hrank8 hreads8_12 hinb8_12 nbuf8_12 (Memref.isWhole_whole _) hwx8_12 hstage8_12

abbrev win8 : Fin 13 → Pipeline.Window sig grid8 := fun | 0 => win8_0 | 1 => win8_1 | 2 => win8_2 | 3 => win8_3 | 4 => win8_4 | 5 => win8_5 | 6 => win8_6 | 7 => win8_7 | 8 => win8_8 | 9 => win8_9 | 10 => win8_10 | 11 => win8_11 | 12 => win8_12 | ⟨_ + 13, h⟩ => absurd h (Nat.not_lt.2 (Nat.le_add_left _ _))
abbrev spec8 : Fin 13 → Pipeline.WinSpec sig grid8.rank := fun w => (win8 w).toWinSpec

class Facts : Prop extends Facts₀ where

variable [Facts]
-- ==== ReferenceIdeal.lean ====
abbrev S32x2048 : Shape := ⟨2, ![32, 2048]⟩
abbrev S1024x1024 : Shape := ⟨2, ![1024, 1024]⟩
abbrev S2x32x65536 : Shape := ⟨3, ![2, 32, 65536]⟩
abbrev S198x128 : Shape := ⟨2, ![198, 128]⟩
abbrev S128 : Shape := ⟨1, ![128]⟩
abbrev S198x64 : Shape := ⟨2, ![198, 64]⟩
abbrev S64 : Shape := ⟨1, ![64]⟩
abbrev S384x128 : Shape := ⟨2, ![384, 128]⟩
abbrev S384x64 : Shape := ⟨2, ![384, 64]⟩
abbrev S1x32x65536 : Shape := ⟨3, ![1, 32, 65536]⟩
abbrev S32x65536 : Shape := ⟨2, ![32, 65536]⟩
abbrev S32x1024x2 : Shape := ⟨3, ![32, 1024, 2]⟩
abbrev S32x1024x64 : Shape := ⟨3, ![32, 1024, 64]⟩
abbrev S32x1024x66 : Shape := ⟨3, ![32, 1024, 66]⟩
abbrev S1024x66x32 : Shape := ⟨3, ![1024, 66, 32]⟩
abbrev S1024x2112 : Shape := ⟨2, ![1024, 2112]⟩
abbrev S_ : Shape := ⟨0, ![]⟩
abbrev S1x1024x2112 : Shape := ⟨3, ![1, 1024, 2112]⟩
abbrev S3x1024x2112 : Shape := ⟨3, ![3, 1024, 2112]⟩
abbrev S3x1024x66x32 : Shape := ⟨4, ![3, 1024, 66, 32]⟩
abbrev S32x1024x66x3 : Shape := ⟨4, ![32, 1024, 66, 3]⟩
abbrev S32768x198 : Shape := ⟨2, ![32768, 198]⟩
abbrev S32768x128 : Shape := ⟨2, ![32768, 128]⟩
abbrev S1x128 : Shape := ⟨2, ![1, 128]⟩
abbrev S32x1024x128 : Shape := ⟨3, ![32, 1024, 128]⟩
abbrev S32768x64 : Shape := ⟨2, ![32768, 64]⟩
abbrev S1x64 : Shape := ⟨2, ![1, 64]⟩
abbrev S1024x128x32 : Shape := ⟨3, ![1024, 128, 32]⟩
abbrev S1024x4096 : Shape := ⟨2, ![1024, 4096]⟩
abbrev S1x1024x4096 : Shape := ⟨3, ![1, 1024, 4096]⟩
abbrev S3x1024x4096 : Shape := ⟨3, ![3, 1024, 4096]⟩
abbrev S3x1024x128x32 : Shape := ⟨4, ![3, 1024, 128, 32]⟩
abbrev S32x1024x128x3 : Shape := ⟨4, ![32, 1024, 128, 3]⟩
abbrev S32768x384 : Shape := ⟨2, ![32768, 384]⟩

abbrev nBuf : Space → Nat
  | .hbm => 152
  | .vmem => 0
  | .smem => 0
  | _ => 0

abbrev hbmTy0_0 (i : Nat) : BufTy := match i % 128 with
  | 0 => ⟨S32x2048, .f32⟩
  | 1 => ⟨S1024x1024, .f32⟩
  | 2 => ⟨S2x32x65536, .f32⟩
  | 3 => ⟨S198x128, .f32⟩
  | 4 => ⟨S128, .f32⟩
  | 5 => ⟨S198x64, .f32⟩
  | 6 => ⟨S64, .f32⟩
  | 7 => ⟨S384x128, .f32⟩
  | 8 => ⟨S128, .f32⟩
  | 9 => ⟨S384x64, .f32⟩
  | 10 => ⟨S64, .f32⟩
  | 11 => ⟨S1x32x65536, .f32⟩
  | 12 => ⟨S32x65536, .f32⟩
  | 13 => ⟨S32x1024x2, .f32⟩
  | 14 => ⟨S32x1024x64, .f32⟩
  | 15 => ⟨S32x1024x66, .f32⟩
  | 16 => ⟨S1024x66x32, .f32⟩
  | 17 => ⟨S1024x2112, .f32⟩
  | 18 => ⟨S1024x2112, .f32⟩
  | 19 => ⟨S1024x2112, .f32⟩
  | 20 => ⟨S_, .f32⟩
  | 21 => ⟨S1024x2112, .f32⟩
  | 22 => ⟨S1024x2112, .f32⟩
  | 23 => ⟨S1024x2112, .f32⟩
  | 24 => ⟨S1x1024x2112, .f32⟩
  | 25 => ⟨S1x1024x2112, .f32⟩
  | 26 => ⟨S1x1024x2112, .f32⟩
  | 27 => ⟨S3x1024x2112, .f32⟩
  | 28 => ⟨S3x1024x66x32, .f32⟩
  | 29 => ⟨S32x1024x66x3, .f32⟩
  | 30 => ⟨S32768x198, .f32⟩
  | 31 => ⟨S32768x128, .f32⟩
  | 32 => ⟨S1x128, .f32⟩
  | 33 => ⟨S32768x128, .f32⟩
  | 34 => ⟨S32768x128, .f32⟩
  | 35 => ⟨S32x1024x128, .f32⟩
  | 36 => ⟨S32x1024x128, .f32⟩
  | 37 => ⟨S32x1024x128, .f32⟩
  | 38 => ⟨S_, .f32⟩
  | 39 => ⟨S32x1024x128, .f32⟩
  | 40 => ⟨S32x1024x128, .f32⟩
  | 41 => ⟨S_, .f32⟩
  | 42 => ⟨S32x1024x128, .f32⟩
  | 43 => ⟨S32x1024x128, .f32⟩
  | 44 => ⟨S32x1024x64, .f32⟩
  | 45 => ⟨S32x65536, .f32⟩
  | 46 => ⟨S32x1024x64, .f32⟩
  | 47 => ⟨S32x65536, .f32⟩
  | 48 => ⟨S32x65536, .f32⟩
  | 49 => ⟨S32x1024x2, .f32⟩
  | 50 => ⟨S32x1024x64, .f32⟩
  | 51 => ⟨S32x1024x66, .f32⟩
  | 52 => ⟨S1024x66x32, .f32⟩
  | 53 => ⟨S1024x2112, .f32⟩
  | 54 => ⟨S1024x2112, .f32⟩
  | 55 => ⟨S1024x2112, .f32⟩
  | 56 => ⟨S_, .f32⟩
  | 57 => ⟨S1024x2112, .f32⟩
  | 58 => ⟨S1024x2112, .f32⟩
  | 59 => ⟨S1024x2112, .f32⟩
  | 60 => ⟨S1x1024x2112, .f32⟩
  | 61 => ⟨S1x1024x2112, .f32⟩
  | 62 => ⟨S1x1024x2112, .f32⟩
  | 63 => ⟨S3x1024x2112, .f32⟩
  | 64 => ⟨S3x1024x66x32, .f32⟩
  | 65 => ⟨S32x1024x66x3, .f32⟩
  | 66 => ⟨S32768x198, .f32⟩
  | 67 => ⟨S32768x64, .f32⟩
  | 68 => ⟨S1x64, .f32⟩
  | 69 => ⟨S32768x64, .f32⟩
  | 70 => ⟨S32768x64, .f32⟩
  | 71 => ⟨S32x1024x64, .f32⟩
  | 72 => ⟨S32x65536, .f32⟩
  | 73 => ⟨S32x65536, .f32⟩
  | 74 => ⟨S32x65536, .f32⟩
  | 75 => ⟨S_, .f32⟩
  | 76 => ⟨S32x65536, .f32⟩
  | 77 => ⟨S32x65536, .f32⟩
  | 78 => ⟨S32x65536, .f32⟩
  | 79 => ⟨S32x65536, .f32⟩
  | 80 => ⟨S1x32x65536, .f32⟩
  | 81 => ⟨S32x65536, .f32⟩
  | 82 => ⟨S32x1024x64, .f32⟩
  | 83 => ⟨S32x1024x64, .f32⟩
  | 84 => ⟨S32x1024x128, .f32⟩
  | 85 => ⟨S1024x128x32, .f32⟩
  | 86 => ⟨S1024x4096, .f32⟩
  | 87 => ⟨S1024x4096, .f32⟩
  | 88 => ⟨S1024x4096, .f32⟩
  | 89 => ⟨S_, .f32⟩
  | 90 => ⟨S1024x4096, .f32⟩
  | 91 => ⟨S1024x4096, .f32⟩
  | 92 => ⟨S1024x4096, .f32⟩
  | 93 => ⟨S1x1024x4096, .f32⟩
  | 94 => ⟨S1x1024x4096, .f32⟩
  | 95 => ⟨S1x1024x4096, .f32⟩
  | 96 => ⟨S3x1024x4096, .f32⟩
  | 97 => ⟨S3x1024x128x32, .f32⟩
  | 98 => ⟨S32x1024x128x3, .f32⟩
  | 99 => ⟨S32768x384, .f32⟩
  | 100 => ⟨S32768x128, .f32⟩
  | 101 => ⟨S1x128, .f32⟩
  | 102 => ⟨S32768x128, .f32⟩
  | 103 => ⟨S32768x128, .f32⟩
  | 104 => ⟨S32x1024x128, .f32⟩
  | 105 => ⟨S32x1024x128, .f32⟩
  | 106 => ⟨S32x1024x128, .f32⟩
  | 107 => ⟨S_, .f32⟩
  | 108 => ⟨S32x1024x128, .f32⟩
  | 109 => ⟨S32x1024x128, .f32⟩
  | 110 => ⟨S_, .f32⟩
  | 111 => ⟨S32x1024x128, .f32⟩
  | 112 => ⟨S32x1024x128, .f32⟩
  | 113 => ⟨S32x1024x64, .f32⟩
  | 114 => ⟨S32x65536, .f32⟩
  | 115 => ⟨S32x1024x64, .f32⟩
  | 116 => ⟨S32x65536, .f32⟩
  | 117 => ⟨S32x65536, .f32⟩
  | 118 => ⟨S32x1024x64, .f32⟩
  | 119 => ⟨S32x1024x64, .f32⟩
  | 120 => ⟨S32x1024x128, .f32⟩
  | 121 => ⟨S1024x128x32, .f32⟩
  | 122 => ⟨S1024x4096, .f32⟩
  | 123 => ⟨S1024x4096, .f32⟩
  | 124 => ⟨S1024x4096, .f32⟩
  | 125 => ⟨S_, .f32⟩
  | 126 => ⟨S1024x4096, .f32⟩
  | 127 => ⟨S1024x4096, .f32⟩
  | _ => ⟨S32x2048, .f32⟩

abbrev hbmTy0_1 (i : Nat) : BufTy := match i % 128 with
  | 0 => ⟨S1024x4096, .f32⟩
  | 1 => ⟨S1x1024x4096, .f32⟩
  | 2 => ⟨S1x1024x4096, .f32⟩
  | 3 => ⟨S1x1024x4096, .f32⟩
  | 4 => ⟨S3x1024x4096, .f32⟩
  | 5 => ⟨S3x1024x128x32, .f32⟩
  | 6 => ⟨S32x1024x128x3, .f32⟩
  | 7 => ⟨S32768x384, .f32⟩
  | 8 => ⟨S32768x64, .f32⟩
  | 9 => ⟨S1x64, .f32⟩
  | 10 => ⟨S32768x64, .f32⟩
  | 11 => ⟨S32768x64, .f32⟩
  | 12 => ⟨S32x1024x64, .f32⟩
  | 13 => ⟨S32x65536, .f32⟩
  | 14 => ⟨S32x65536, .f32⟩
  | 15 => ⟨S32x65536, .f32⟩
  | 16 => ⟨S_, .f32⟩
  | 17 => ⟨S32x65536, .f32⟩
  | 18 => ⟨S32x65536, .f32⟩
  | 19 => ⟨S32x65536, .f32⟩
  | 20 => ⟨S32x65536, .f32⟩
  | 21 => ⟨S1x32x65536, .f32⟩
  | 22 => ⟨S1x32x65536, .f32⟩
  | 23 => ⟨S2x32x65536, .f32⟩
  | _ => ⟨S32x2048, .f32⟩

abbrev hbmTy (i : Nat) : BufTy := match i / 128 with
  | 0 => hbmTy0_0 i
  | 1 => hbmTy0_1 i
  | _ => ⟨S32x2048, .f32⟩

abbrev bufTy : (tb : Table) → Fin (tcTables nBuf tb) → BufTy
  | .hbm, ⟨i, _⟩ => hbmTy i
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_0 : Ref sig .tc := ⟨.hbm, 38, rfl⟩
abbrev main_v26 : Ref sig .tc := ⟨.hbm, 39, rfl⟩
abbrev main_v27 : Ref sig .tc := ⟨.hbm, 40, rfl⟩
abbrev main_cst_1 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_2 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_3 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_4 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_cst_5 : Ref sig .tc := ⟨.hbm, 107, rfl⟩
abbrev main_v90 : Ref sig .tc := ⟨.hbm, 108, rfl⟩
abbrev main_v91 : Ref sig .tc := ⟨.hbm, 109, rfl⟩
abbrev main_cst_6 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_cst_7 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_cst_8 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩

abbrev nD : Nat := 1
abbrev τ : Topo := Topo.v7x

variable {F : FTy → Type} [FloatOps F]

class Facts₀ : Prop where
  slices_S2x32x65536_S1x32x65536_0_0_0 : S2x32x65536.Slices ![0, 0, 0] S1x32x65536
  shapeCasts_S1x32x65536_S32x65536 : S1x32x65536.ShapeCasts S32x65536
  shapeCasts_S32x2048_S32x1024x2 : S32x2048.ShapeCasts S32x1024x2
  shapeCasts_S32x65536_S32x1024x64 : S32x65536.ShapeCasts S32x1024x64
  concatenates_S32x1024x2_S32x1024x64_S32x1024x66_d2 : Shape.Concatenates [S32x1024x2, S32x1024x64] S32x1024x66 2
  transposes_S32x1024x66_S1024x66x32_1_2_0 : S32x1024x66.Transposes [1, 2, 0] S1024x66x32
  shapeCasts_S1024x66x32_S1024x2112 : S1024x66x32.ShapeCasts S1024x2112
  bcast_S_S1024x2112 : S_.BroadcastsInDim S1024x2112 (![] : Fin 0 → Fin S1024x2112.rank)
  bcast_S1024x2112_S1x1024x2112_1_2 : S1024x2112.BroadcastsInDim S1x1024x2112 (![1, 2] : Fin 2 → Fin S1x1024x2112.rank)
  concatenates_S1x1024x2112_S1x1024x2112_S1x1024x2112_S3x1024x2112_d0 : Shape.Concatenates [S1x1024x2112, S1x1024x2112, S1x1024x2112] S3x1024x2112 0
  shapeCasts_S3x1024x2112_S3x1024x66x32 : S3x1024x2112.ShapeCasts S3x1024x66x32
  transposes_S3x1024x66x32_S32x1024x66x3_3_1_2_0 : S3x1024x66x32.Transposes [3, 1, 2, 0] S32x1024x66x3
  shapeCasts_S32x1024x66x3_S32768x198 : S32x1024x66x3.ShapeCasts S32768x198
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  shapeCasts_S32768x128_S32x1024x128 : S32768x128.ShapeCasts S32x1024x128
  bcast_S_S32x1024x128 : S_.BroadcastsInDim S32x1024x128 (![] : Fin 0 → Fin S32x1024x128.rank)
  slices_S32x1024x128_S32x1024x64_0_0_0 : S32x1024x128.Slices ![0, 0, 0] S32x1024x64
  shapeCasts_S32x1024x64_S32x65536 : S32x1024x64.ShapeCasts S32x65536
  slices_S32x1024x128_S32x1024x64_0_0_64 : S32x1024x128.Slices ![0, 0, 64] S32x1024x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  shapeCasts_S32768x64_S32x1024x64 : S32768x64.ShapeCasts S32x1024x64
  bcast_S_S32x65536 : S_.BroadcastsInDim S32x65536 (![] : Fin 0 → Fin S32x65536.rank)
  slices_S2x32x65536_S1x32x65536_1_0_0 : S2x32x65536.Slices ![1, 0, 0] S1x32x65536
  concatenates_S32x1024x64_S32x1024x64_S32x1024x128_d2 : Shape.Concatenates [S32x1024x64, S32x1024x64] S32x1024x128 2
  transposes_S32x1024x128_S1024x128x32_1_2_0 : S32x1024x128.Transposes [1, 2, 0] S1024x128x32
  shapeCasts_S1024x128x32_S1024x4096 : S1024x128x32.ShapeCasts S1024x4096
  bcast_S_S1024x4096 : S_.BroadcastsInDim S1024x4096 (![] : Fin 0 → Fin S1024x4096.rank)
  bcast_S1024x4096_S1x1024x4096_1_2 : S1024x4096.BroadcastsInDim S1x1024x4096 (![1, 2] : Fin 2 → Fin S1x1024x4096.rank)
  concatenates_S1x1024x4096_S1x1024x4096_S1x1024x4096_S3x1024x4096_d0 : Shape.Concatenates [S1x1024x4096, S1x1024x4096, S1x1024x4096] S3x1024x4096 0
  shapeCasts_S3x1024x4096_S3x1024x128x32 : S3x1024x4096.ShapeCasts S3x1024x128x32
  transposes_S3x1024x128x32_S32x1024x128x3_3_1_2_0 : S3x1024x128x32.Transposes [3, 1, 2, 0] S32x1024x128x3
  shapeCasts_S32x1024x128x3_S32768x384 : S32x1024x128x3.ShapeCasts S32768x384
  bcast_S32x65536_S1x32x65536_1_2 : S32x65536.BroadcastsInDim S1x32x65536 (![1, 2] : Fin 2 → Fin S1x32x65536.rank)
  concatenates_S1x32x65536_S1x32x65536_S2x32x65536_d0 : Shape.Concatenates [S1x32x65536, S1x32x65536] S2x32x65536 0
  dot_S1024x1024_S1024x2112_S1024x2112_1_0_0_1_n_n_wf : DotDims.WF S1024x1024 S1024x2112 S1024x2112 [1] [0] [0] [1] [] []
  dot_S32768x198_S198x128_S32768x128_1_0_0_1_n_n_wf : DotDims.WF S32768x198 S198x128 S32768x128 [1] [0] [0] [1] [] []
  dot_S32768x198_S198x64_S32768x64_1_0_0_1_n_n_wf : DotDims.WF S32768x198 S198x64 S32768x64 [1] [0] [0] [1] [] []
  dot_S1024x1024_S1024x4096_S1024x4096_1_0_0_1_n_n_wf : DotDims.WF S1024x1024 S1024x4096 S1024x4096 [1] [0] [0] [1] [] []
  dot_S32768x384_S384x128_S32768x128_1_0_0_1_n_n_wf : DotDims.WF S32768x384 S384x128 S32768x128 [1] [0] [0] [1] [] []
  dot_S32768x384_S384x64_S32768x64_1_0_0_1_n_n_wf : DotDims.WF S32768x384 S384x64 S32768x64 [1] [0] [0] [1] [] []

variable [Facts₀]

def dot_S1024x1024_S1024x2112_S1024x2112_1_0_0_1_n_n : DotDims S1024x1024 S1024x2112 S1024x2112 where
  lhsContracting := [1]
  rhsContracting := [0]
  lhsNonContracting := [0]
  rhsNonContracting := [1]
  lhsBatch := []
  rhsBatch := []
  wf := dot_S1024x1024_S1024x2112_S1024x2112_1_0_0_1_n_n_wf
def dot_S32768x198_S198x128_S32768x128_1_0_0_1_n_n : DotDims S32768x198 S198x128 S32768x128 where
  lhsContracting := [1]
  rhsContracting := [0]
  lhsNonContracting := [0]
  rhsNonContracting := [1]
  lhsBatch := []
  rhsBatch := []
  wf := dot_S32768x198_S198x128_S32768x128_1_0_0_1_n_n_wf
def dot_S32768x198_S198x64_S32768x64_1_0_0_1_n_n : DotDims S32768x198 S198x64 S32768x64 where
  lhsContracting := [1]
  rhsContracting := [0]
  lhsNonContracting := [0]
  rhsNonContracting := [1]
  lhsBatch := []
  rhsBatch := []
  wf := dot_S32768x198_S198x64_S32768x64_1_0_0_1_n_n_wf
def dot_S1024x1024_S1024x4096_S1024x4096_1_0_0_1_n_n : DotDims S1024x1024 S1024x4096 S1024x4096 where
  lhsContracting := [1]
  rhsContracting := [0]
  lhsNonContracting := [0]
  rhsNonContracting := [1]
  lhsBatch := []
  rhsBatch := []
  wf := dot_S1024x1024_S1024x4096_S1024x4096_1_0_0_1_n_n_wf
def dot_S32768x384_S384x128_S32768x128_1_0_0_1_n_n : DotDims S32768x384 S384x128 S32768x128 where
  lhsContracting := [1]
  rhsContracting := [0]
  lhsNonContracting := [0]
  rhsNonContracting := [1]
  lhsBatch := []
  rhsBatch := []
  wf := dot_S32768x384_S384x128_S32768x128_1_0_0_1_n_n_wf
def dot_S32768x384_S384x64_S32768x64_1_0_0_1_n_n : DotDims S32768x384 S384x64 S32768x64 where
  lhsContracting := [1]
  rhsContracting := [0]
  lhsNonContracting := [0]
  rhsNonContracting := [1]
  lhsBatch := []
  rhsBatch := []
  wf := dot_S32768x384_S384x64_S32768x64_1_0_0_1_n_n_wf

class Facts : Prop extends Facts₀ where

variable [Facts]
-- ==== Proof.Spec.lean ====
import Idealize.ShloMosaic.PureOps.Ideal
import Idealize.ShloMosaic.Lib.ValueIdx

noncomputable section

namespace DCGRU

open Idealize.ShloMosaic

abbrev two : EReal := Ideal.ofBits .f32 0x40000000#32

abbrev one : EReal := Ideal.ofBits .f32 0x3F800000#32

def cheb (A : Fin 1024 → Fin 1024 → EReal) (z : Fin 1024 → EReal) : Fin 3 → Fin 1024 → EReal
  | ⟨0, _⟩ => z
  | ⟨1, _⟩ => fun n => ∑ m, A n m * z m
  | ⟨_ + 2, _⟩ => fun n => two * (∑ m, A n m * (∑ m', A m m' * z m')) - z n

theorem cheb_zero (A : Fin 1024 → Fin 1024 → EReal) (z : Fin 1024 → EReal) : cheb A z 0 = z := rfl
theorem cheb_one (A : Fin 1024 → Fin 1024 → EReal) (z : Fin 1024 → EReal) (n : Fin 1024) :
    cheb A z 1 n = ∑ m, A n m * z m := rfl
theorem cheb_two (A : Fin 1024 → Fin 1024 → EReal) (z : Fin 1024 → EReal) (n : Fin 1024) :
    cheb A z 2 n = two * (∑ m, A n m * (∑ m', A m m' * z m')) - z n := rfl

theorem cheb_two_eq (A : Fin 1024 → Fin 1024 → EReal) (z : Fin 1024 → EReal) (n : Fin 1024) :
    cheb A z 2 n = two * (∑ m, A n m * cheb A z 1 m) - z n := rfl

def gconv (A : Fin 1024 → Fin 1024 → EReal) {C O : Nat} (Z : Fin 1024 → Fin 32 → Fin C → EReal)
    (W : Fin C → Fin 3 → Fin O → EReal) (bias : Fin O → EReal) (n : Fin 1024) (b : Fin 32) (o : Fin O) : EReal :=
  (∑ p : Fin C × Fin 3, cheb A (fun m => Z m b p.1) p.2 n * W p.1 p.2 o) + bias o

def cat {cin : Nat} (X : Fin 1024 → Fin 32 → Fin cin → EReal) (H : Fin 1024 → Fin 32 → Fin 64 → EReal) :
    Fin 1024 → Fin 32 → Fin (cin + 64) → EReal :=
  fun n b c => if h : c.val < cin then X n b ⟨c.val, h⟩ else H n b ⟨c.val - cin, by omega⟩

section Cell
variable (A : Fin 1024 → Fin 1024 → EReal) {cin : Nat}
  (X : Fin 1024 → Fin 32 → Fin cin → EReal) (H : Fin 1024 → Fin 32 → Fin 64 → EReal)
  (Wg : Fin (cin + 64) → Fin 3 → Fin 128 → EReal) (bg : Fin 128 → EReal)
  (Wc : Fin (cin + 64) → Fin 3 → Fin 64 → EReal) (bc : Fin 64 → EReal)

def gates (n : Fin 1024) (b : Fin 32) (o : Fin 128) : EReal := Ideal.logistic (gconv A (cat X H) Wg bg n b o)

def rgate (n : Fin 1024) (b : Fin 32) (j : Fin 64) : EReal := gates A X H Wg bg n b ⟨j.val, by omega⟩

def ugate (n : Fin 1024) (b : Fin 32) (j : Fin 64) : EReal := gates A X H Wg bg n b ⟨64 + j.val, by omega⟩

def cand (n : Fin 1024) (b : Fin 32) (j : Fin 64) : EReal :=
  Ideal.tanh (gconv A (cat X (fun n b j => rgate A X H Wg bg n b j * H n b j)) Wc bc n b j)

def cell (n : Fin 1024) (b : Fin 32) (j : Fin 64) : EReal :=
  ugate A X H Wg bg n b j * H n b j + (one - ugate A X H Wg bg n b j) * cand A X H Wg bg Wc bc n b j

end Cell

section Encoder
open ValueIdx
variable (inputs : (⟨2, ![32, 2048]⟩ : Shape).Idx → EReal) (adj : (⟨2, ![1024, 1024]⟩ : Shape).Idx → EReal)
  (hidden : (⟨3, ![2, 32, 65536]⟩ : Shape).Idx → EReal)
  (wg0 : (⟨2, ![198, 128]⟩ : Shape).Idx → EReal) (bg0 : (⟨1, ![128]⟩ : Shape).Idx → EReal)
  (wc0 : (⟨2, ![198, 64]⟩ : Shape).Idx → EReal) (bc0 : (⟨1, ![64]⟩ : Shape).Idx → EReal)
  (wg1 : (⟨2, ![384, 128]⟩ : Shape).Idx → EReal) (bg1 : (⟨1, ![128]⟩ : Shape).Idx → EReal)
  (wc1 : (⟨2, ![384, 64]⟩ : Shape).Idx → EReal) (bc1 : (⟨1, ![64]⟩ : Shape).Idx → EReal)

def Adj (n m : Fin 1024) : EReal := adj (ix2 n m)

def X0 (n : Fin 1024) (b : Fin 32) (c : Fin 2) : EReal := inputs (ix2 b ⟨n.val * 2 + c.val, by omega⟩)

def Hid (l : Fin 2) (n : Fin 1024) (b : Fin 32) (j : Fin 64) : EReal := hidden (ix3 l b ⟨n.val * 64 + j.val, by omega⟩)

def Wt {C O : Nat} (w : (⟨2, ![C * 3, O]⟩ : Shape).Idx → EReal) (c : Fin C) (k : Fin 3) (o : Fin O) : EReal :=
  w (ix2 ⟨c.val * 3 + k.val, by have := c.isLt; have := k.isLt; omega⟩ o)

def Bs {O : Nat} (v : (⟨1, ![O]⟩ : Shape).Idx → EReal) (o : Fin O) : EReal := v (ix1 o)

def h1 : Fin 1024 → Fin 32 → Fin 64 → EReal :=
  cell (Adj adj) (cin := 2) (X0 inputs) (Hid hidden 0) (Wt (C := 66) wg0) (Bs bg0) (Wt (C := 66) wc0) (Bs bc0)

def h2 : Fin 1024 → Fin 32 → Fin 64 → EReal :=
  cell (Adj adj) (cin := 64) (h1 inputs adj hidden wg0 bg0 wc0 bc0) (Hid hidden 1) (Wt (C := 128) wg1) (Bs bg1)
    (Wt (C := 128) wc1) (Bs bc1)

def out0 (i : (⟨2, ![32, 65536]⟩ : Shape).Idx) : EReal :=
  h2 inputs adj hidden wg0 bg0 wc0 bc0 wg1 bg1 wc1 bc1 ⟨(i 1).val / 64, by have h : (i 1).val < 65536 := (i 1).isLt; omega⟩ (i 0)
    ⟨(i 1).val % 64, Nat.mod_lt _ (by decide)⟩

def out1 (i : (⟨3, ![2, 32, 65536]⟩ : Shape).Idx) : EReal :=
  if (i 0).val = 0 then
    h1 inputs adj hidden wg0 bg0 wc0 bc0 ⟨(i 2).val / 64, by have h : (i 2).val < 65536 := (i 2).isLt; omega⟩ (i 1)
      ⟨(i 2).val % 64, Nat.mod_lt _ (by decide)⟩
  else
    h2 inputs adj hidden wg0 bg0 wc0 bc0 wg1 bg1 wc1 bc1 ⟨(i 2).val / 64, by have h : (i 2).val < 65536 := (i 2).isLt; omega⟩ (i 1)
      ⟨(i 2).val % 64, Nat.mod_lt _ (by decide)⟩

end Encoder

end DCGRU

end
-- ==== Proof.KLayout.lean ====
import proofs.«153073_g19885698580639_cont_8to1_2033_13_alg».proof.Proof.Spec

noncomputable section

namespace DCGRU.KL

open Idealize.ShloMosaic ValueIdx

abbrev SY : Shape := ⟨2, ![1024, 4096]⟩

abbrev SA : Shape := ⟨2, ![1024, 1024]⟩

abbrev SX : Shape := ⟨3, ![1024, 32, 64]⟩

abbrev SH : Shape := ⟨4, ![2, 32, 1024, 64]⟩

abbrev SWg : Shape := ⟨3, ![3, 128, 128]⟩

abbrev SWc : Shape := ⟨3, ![3, 128, 64]⟩

abbrev SBg : Shape := ⟨2, ![1, 128]⟩

abbrev SBc : Shape := ⟨2, ![1, 64]⟩

abbrev SO : Shape := ⟨2, ![32, 65536]⟩

def qb (q : Fin 4096) : Fin 32 := ⟨q.val / 128, by have := q.isLt; omega⟩

def qc (q : Fin 4096) : Fin 128 := ⟨q.val % 128, Nat.mod_lt _ (by decide)⟩

def col (b : Fin 32) (ch : Fin 128) : Fin 4096 := ⟨b.val * 128 + ch.val, by have := b.isLt; have := ch.isLt; omega⟩

def lo (j : Fin 64) : Fin 128 := ⟨j.val, by have := j.isLt; omega⟩

def hi (j : Fin 64) : Fin 128 := ⟨64 + j.val, by have := j.isLt; omega⟩

theorem col_qb_qc (q : Fin 4096) : col (qb q) (qc q) = q := by
  apply Fin.ext; show q.val / 128 * 128 + q.val % 128 = q.val; omega
theorem qb_col (b : Fin 32) (ch : Fin 128) : qb (col b ch) = b := by
  apply Fin.ext; show (b.val * 128 + ch.val) / 128 = b.val; have := ch.isLt; omega
theorem qc_col (b : Fin 32) (ch : Fin 128) : qc (col b ch) = ch := by
  apply Fin.ext; show (b.val * 128 + ch.val) % 128 = ch.val; have := ch.isLt; omega

abbrev zbf : EReal := Ideal.ofBits .bf16 0x0000#16

def prepY (x : SX.Idx → EReal) (hs : SH.Idx → EReal) : SY.Idx → EReal := fun i =>
  if h : (i 1).val % 128 < 64 then x (ix3 (i 0) (qb (i 1)) ⟨(i 1).val % 128, h⟩)
  else hs (ix4 0 (qb (i 1)) (i 0) ⟨(i 1).val % 128 - 64, by have := Nat.mod_lt (i 1).val (show 0 < 128 by decide); omega⟩)

def prepH (hs : SH.Idx → EReal) : SY.Idx → EReal := fun i =>
  if (i 1).val % 128 < 64 then zbf
  else hs (ix4 1 (qb (i 1)) (i 0) ⟨(i 1).val % 128 - 64, by have := Nat.mod_lt (i 1).val (show 0 < 128 by decide); omega⟩)

def mm (a : SA.Idx → EReal) (y : SY.Idx → EReal) : SY.Idx → EReal := fun i =>
  ∑ m : Fin 1024, a (ix2 (i 0) m) * y (ix2 m (i 1))

def cheb2 (a : SA.Idx → EReal) (y0 y1 : SY.Idx → EReal) : SY.Idx → EReal := fun i =>
  two * (∑ m : Fin 1024, a (ix2 (i 0) m) * y1 (ix2 m (i 1))) - y0 i

def dotW {O : Nat} (y : SY.Idx → EReal) (w : (⟨3, ![3, 128, O]⟩ : Shape).Idx → EReal) (k : Fin 3) (n : Fin 1024) (b : Fin 32)
    (o : Fin O) : EReal :=
  ∑ c : Fin 128, y (ix2 n (col b c)) * w (ix3 k c o)

def gateG (a : SA.Idx → EReal) (y0 y1 : SY.Idx → EReal) (wg : SWg.Idx → EReal) (bg : SBg.Idx → EReal) : SY.Idx → EReal := fun i =>
  Ideal.logistic
    (((dotW y0 wg 0 (i 0) (qb (i 1)) (qc (i 1)) + dotW y1 wg 1 (i 0) (qb (i 1)) (qc (i 1)))
        + dotW (cheb2 a y0 y1) wg 2 (i 0) (qb (i 1)) (qc (i 1)))
      + bg (ix2 0 (qc (i 1))))

def gateS0 (a : SA.Idx → EReal) (y0 y1 : SY.Idx → EReal) (wg : SWg.Idx → EReal) (bg : SBg.Idx → EReal) : SY.Idx → EReal := fun i =>
  if h : (i 1).val % 128 < 64 then
    gateG a y0 y1 wg bg (ix2 (i 0) (col (qb (i 1)) (lo ⟨(i 1).val % 128, h⟩)))
      * y0 (ix2 (i 0) (col (qb (i 1)) (hi ⟨(i 1).val % 128, h⟩)))
  else zbf

def candHn (a : SA.Idx → EReal) (y0 y1 y2 s0 s1 g : SY.Idx → EReal) (wcx wcs : SWc.Idx → EReal) (bc : SBc.Idx → EReal)
    (n : Fin 1024) (b : Fin 32) (j : Fin 64) : EReal :=
  g (ix2 n (col b (hi j))) * y0 (ix2 n (col b (hi j)))
    + (one - g (ix2 n (col b (hi j))))
      * Ideal.tanh
          (((((((dotW y0 wcx 0 n b j + dotW y1 wcx 1 n b j) + dotW y2 wcx 2 n b j) + dotW s0 wcs 0 n b j)
              + dotW s1 wcs 1 n b j) + dotW (cheb2 a s0 s1) wcs 2 n b j)
            + bc (ix2 0 j)))

def candY (a : SA.Idx → EReal) (y0 y1 y2 s0 s1 g h1p : SY.Idx → EReal) (wcx wcs : SWc.Idx → EReal) (bc : SBc.Idx → EReal) :
    SY.Idx → EReal := fun i =>
  if h : (i 1).val % 128 < 64 then candHn a y0 y1 y2 s0 s1 g wcx wcs bc (i 0) (qb (i 1)) ⟨(i 1).val % 128, h⟩
  else h1p i

def candOut (a : SA.Idx → EReal) (y0 y1 y2 s0 s1 g : SY.Idx → EReal) (wcx wcs : SWc.Idx → EReal) (bc : SBc.Idx → EReal) :
    SO.Idx → EReal := fun i =>
  candHn a y0 y1 y2 s0 s1 g wcx wcs bc ⟨(i 1).val / 64, by have h : (i 1).val < 65536 := (i 1).isLt; omega⟩ (i 0)
    ⟨(i 1).val % 64, Nat.mod_lt _ (by decide)⟩

end DCGRU.KL

end
-- ==== Proof.Reg0AuxPay.lean ====
import proofs.«153073_g19885698580639_cont_8to1_2033_13_alg».proof.Proof.Gen.KernelIdeal.Skeleton
import proofs.«153073_g19885698580639_cont_8to1_2033_13_alg».proof.Proof.KLayout
import Idealize.ShloMosaic.Lib.Pipeline.Value

noncomputable section

namespace Cert.KernelIdeal.Val.Prep

open Idealize.ShloMosaic Idealize.ShloMosaic.TcCoe Idealize.SL.Sem
open Cert.KernelIdeal Cert.KernelIdeal.Gen
open DCGRU DCGRU.KL ValueIdx

def loCh (q : Fin 4096) (h : q.val % 128 < 64) : Fin 64 := ⟨q.val % 128, h⟩

def hiCh (q : Fin 4096) (h : ¬ q.val % 128 < 64) : Fin 64 :=
  ⟨q.val % 128 - 64, by have := Nat.mod_lt q.val (show 0 < 128 by decide); omega⟩

theorem slabT_apply (v : Vec Ideal S1x32x128x64 .f32) (r : Fin 128) (b : Fin 32) (j : Fin 64) :
    transpose S128x32x64 [1, 0, 2] (shapeCast S32x128x64 v shapeCasts_S1x32x128x64_S32x128x64)
        transposes_S32x128x64_p1_0_2_S128x32x64 (ix3 r b j)
      = v (ix4 0 b r j) := by
  refine (transpose_apply _ _ _ (ix3 r b j) (ix3 b r j) fun a => ?_).trans ?_
  · match a with
    | ⟨0, _⟩ => rfl
    | ⟨1, _⟩ => rfl
    | ⟨2, _⟩ => rfl
  refine shapeCast_apply _ _ (ix3 b r j) (ix4 0 b r j) ?_
  rw [Shape.rowMajor_val_four, Shape.rowMajor_val_three]
  show ((0 * 32 + b.val) * 128 + r.val) * 64 + j.val = (b.val * 128 + r.val) * 64 + j.val
  omega

theorem cell_cast (w : FVec Ideal S128x32x128 .bf16) (r : Fin 128) (q : Fin 4096) :
    shapeCast S128x4096 w shapeCasts_S128x32x128_S128x4096 (ix2 r q) = w (ix3 r (qb q) (qc q)) := by
  refine shapeCast_apply _ _ (ix2 r q) (ix3 r (qb q) (qc q)) ?_
  rw [Shape.rowMajor_val_three, Shape.rowMajor_val_two]
  show (r.val * 32 + q.val / 128) * 128 + q.val % 128 = r.val * 4096 + q.val
  omega

theorem cell_lo (A B : FVec Ideal S128x32x64 .bf16) (r : Fin 128) (q : Fin 4096) (h : q.val % 128 < 64) :
    shapeCast S128x4096 (concatenate S128x32x128 2 [⟨S128x32x64, A⟩, ⟨S128x32x64, B⟩] concatenates_S128x32x64_S128x32x64_S128x32x128_d2)
        shapeCasts_S128x32x128_S128x4096 (ix2 r q) = A (ix3 r (qb q) (loCh q h)) :=
  (cell_cast _ r q).trans <|
    concatenate_pair_apply_left (s₁ := S128x32x64) (s₂ := S128x32x64) 2 _ _ _ (ix3 r (qb q) (qc q)) rfl (ix3 r (qb q) (loCh q h))
      fun a => match a with | ⟨0, _⟩ => rfl | ⟨1, _⟩ => rfl | ⟨2, _⟩ => rfl

theorem cell_hi (A B : FVec Ideal S128x32x64 .bf16) (r : Fin 128) (q : Fin 4096) (h : ¬ q.val % 128 < 64) :
    shapeCast S128x4096 (concatenate S128x32x128 2 [⟨S128x32x64, A⟩, ⟨S128x32x64, B⟩] concatenates_S128x32x64_S128x32x64_S128x32x128_d2)
        shapeCasts_S128x32x128_S128x4096 (ix2 r q) = B (ix3 r (qb q) (hiCh q h)) :=
  (cell_cast _ r q).trans <|
    concatenate_pair_apply_right (s₁ := S128x32x64) (s₂ := S128x32x64) 2 _ _ _ (ix3 r (qb q) (qc q)) rfl rfl (ix3 r (qb q) (hiCh q h))
      (fun a => match a with | ⟨0, _⟩ => fun _ => rfl | ⟨1, _⟩ => fun _ => rfl | ⟨2, _⟩ => fun hne => absurd rfl hne)
      (by show q.val % 128 - 64 + 64 = q.val % 128; omega)

def nodeOf (t : Nat) (ht : t < 8) (r : Fin 128) : Fin 1024 := ⟨t * 128 + r.val, by have := r.isLt; omega⟩

theorem slab_apply (x1 : Vec Ideal S2x32x128x64 .f32) (l : Fin 2) {off : Fin 4 → Nat} (inb) (ho : off = ![l.val, 0, 0, 0])
    (b : Fin 32) (r : Fin 128) (j : Fin 64) :
    View.ld x1 (Rect.unit (s := S2x32x128x64) off S1x32x128x64.size inb) (ix4 0 b r j) = x1 (ix4 l b r j) := by
  subst ho
  refine congrArg x1 (funext fun a => Fin.ext ?_)
  match a with
  | ⟨0, _⟩ => show l.val + 1 * 0 = l.val; omega
  | ⟨1, _⟩ => show 0 + 1 * b.val = b.val; omega
  | ⟨2, _⟩ => show 0 + 1 * r.val = r.val; omega
  | ⟨3, _⟩ => show 0 + 1 * j.val = j.val; omega

theorem blocks (x0 : Vec Ideal S128x32x64 .bf16) (x1 : Vec Ideal S2x32x128x64 .f32)
    (X : SX.Idx → EReal) (H : SH.Idx → EReal) (t : Nat) (ht : t < 8)
    (hx : ∀ (r : Fin 128) (b : Fin 32) (j : Fin 64), x0 (ix3 r b j) = X (ix3 (nodeOf t ht r) b j))
    (hh : ∀ (l : Fin 2) (b : Fin 32) (r : Fin 128) (j : Fin 64), x1 (ix4 l b r j) = H (ix4 l b (nodeOf t ht r) j))
    {I : Fin 2 → Nat} (hI : I 0 = t ∧ I 1 = 0) (j : S128x4096.Idx) (i : SY.Idx)
    (hi : ∀ a, (i a : Nat) = I a * S128x4096.size a + j a) :
    k0_pay1 (F := Ideal) x0 (View.ld x1 (Rect.unit (s := S2x32x128x64) ![0, 0, 0, 0] S1x32x128x64.size inb_S2x32x128x64_S1x32x128x64_0_0_0_0)) j = prepY X H i
      ∧ k0_pay2 (F := Ideal) (View.ld x1 (Rect.unit (s := S2x32x128x64) ![1, 0, 0, 0] S1x32x128x64.size inb_S2x32x128x64_S1x32x128x64_1_0_0_0)) j = prepH H i := by
  obtain ⟨r, q, rfl⟩ : ∃ (r : Fin 128) (q : Fin 4096), j = ix2 r q := ⟨j 0, j 1, eq_ix2 j⟩
  have h0 : (i 0).val = I 0 * 128 + r.val := hi 0
  have h1 : (i 1).val = I 1 * 4096 + q.val := hi 1
  obtain rfl : i = ix2 (nodeOf t ht r) q :=
    (eq_ix2 i).trans (by rw [show i 0 = nodeOf t ht r from Fin.ext (by show _ = t * 128 + r.val; omega),
      show i 1 = q from Fin.ext (by omega)]; rfl)
  unfold prepY prepH k0_pay1 k0_pay2
  constructor <;> split <;> rename_i h
  · exact ((cell_lo _ _ r q h).trans (congrFun (shapeCast_self _ _) _)).trans (hx r (qb q) (loCh q h))
  · exact (((cell_hi _ _ r q h).trans (slabT_apply _ r (qb q) (hiCh q h))).trans
      (slab_apply x1 0 _ rfl (qb q) r (hiCh q h))).trans (hh 0 (qb q) r (hiCh q h))
  · exact cell_lo _ _ r q h
  · exact (((cell_hi _ _ r q h).trans (slabT_apply _ r (qb q) (hiCh q h))).trans
      (slab_apply x1 1 _ rfl (qb q) r (hiCh q h))).trans (hh 1 (qb q) r (hiCh q h))

end Cert.KernelIdeal.Val.Prep

end
-- ==== Proof.Reg1AuxDot.lean ====
import proofs.«153073_g19885698580639_cont_8to1_2033_13_alg».proof.Proof.Gen.KernelIdeal.Skeleton
import proofs.«153073_g19885698580639_cont_8to1_2033_13_alg».proof.Proof.KLayout
import Idealize.ShloMosaic.Lib.Pipeline.Value
import Idealize.ShloMosaic.PureOps.Ideal.Laws

noncomputable section

namespace Cert.KernelIdeal.Val

open Idealize.ShloMosaic
open Cert.KernelIdeal Cert.KernelIdeal.Gen
open DCGRU DCGRU.KL ValueIdx

theorem zero_offsets2 : (![0, 0] : Fin 2 → Nat) = fun _ => 0 := funext fun a => by fin_cases a <;> rfl

theorem rows_cover {N R C : Nat} (B : Nat) {I : Fin N → Fin 2 → Nat} (hI : ∀ t, I t 0 = t.val ∧ I t 1 = 0)
    (hR : R ≤ N * B) (i : (⟨2, ![R, C]⟩ : Shape).Idx) :
    ∃ t : Fin N, ∀ a : Fin 2, I t a * ![B, C] a ≤ (i a).val ∧ (i a).val < I t a * ![B, C] a + ![B, C] a := by
  have h0 := idx2_lt0 i
  have h1 := idx2_lt1 i
  have hB : 0 < B := Nat.pos_of_ne_zero fun h => by subst h; omega
  have ht : (i 0).val / B < N := (Nat.div_lt_iff_lt_mul hB).2 (Nat.lt_of_lt_of_le h0 hR)
  obtain ⟨e0, e1⟩ := hI ⟨(i 0).val / B, ht⟩
  refine ⟨⟨(i 0).val / B, ht⟩, fun a => ?_⟩
  match a with
  | ⟨0, _⟩ =>
    show I _ 0 * B ≤ (i 0).val ∧ (i 0).val < I _ 0 * B + B
    rw [e0]
    exact ⟨Nat.div_mul_le_self _ _, Nat.lt_div_mul_add hB⟩
  | ⟨1, _⟩ =>
    show I _ 1 * C ≤ (i 1).val ∧ (i 1).val < I _ 1 * C + C
    rw [e1]
    omega

theorem matmul_zero_at (l : FVec Ideal S256x1024 .bf16) (r : FVec Ideal S1024x4096 .bf16) (p : Fin 256) (q : Fin 4096) :
    matmul dot_S256x1024_S1024x4096_S256x4096_1_0_0_1_n_n none l r (constant (F := Ideal) S256x4096 .f32 0x00000000#32) (ix2 p q)
      = ∑ k : Fin 1024, l (ix2 p k) * r (ix2 k q) := by
  simp only [matmul]
  rw [Ideal.matmul_constant_zero_apply, ← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  rw [(Shape.idx_ext₂ rfl ((DotDims.lhsIdx_val_of_single _ rfl _ _).trans hk) :
      dot_S256x1024_S1024x4096_S256x4096_1_0_0_1_n_n.lhsIdx (ix2 p q) _ = ix2 p k),
    (Shape.idx_ext₂ ((DotDims.rhsIdx_val_of_single _ rfl _ _).trans hk) rfl :
      dot_S256x1024_S1024x4096_S256x4096_1_0_0_1_n_n.rhsIdx (ix2 p q) _ = ix2 k q)]

theorem diffusion_block (a : SA.Idx → EReal) (y : SY.Idx → EReal) {t : Nat} {I0 I1 I2 : Fin 2 → Nat}
    (hI : (I2 0 = t ∧ I2 1 = 0) ∧ I0 0 = t ∧ I0 1 = 0 ∧ I1 0 = 0 ∧ I1 1 = 0)
    {e0 : S256x1024.Idx → SA.Idx} {e1 : S1024x4096.Idx → SY.Idx} {e2 : S256x4096.Idx → SY.Idx}
    (h0 : ∀ j a, (e0 j a : Nat) = I0 a * S256x1024.size a + j a)
    (h1 : ∀ j a, (e1 j a : Nat) = I1 a * S1024x4096.size a + j a)
    (h2 : ∀ j a, (e2 j a : Nat) = I2 a * S256x4096.size a + j a)
    (i0 i1 i2) (j : S256x4096.Idx) :
    View.canon [(⟨Rect.unit ![0, 0] S256x4096.size i2, k1_pay1 (F := Ideal)
        (View.ld (fun i => a (e0 i)) (Rect.unit ![0, 0] S256x1024.size i0))
        (View.ld (fun i => y (e1 i)) (Rect.unit ![0, 0] S1024x4096.size i1))⟩ : View.Piece (Elt Ideal) S256x4096 .bf16)] j
      = mm a y (e2 j) := by
  obtain ⟨⟨c0, c1⟩, a0, a1, b0, b1⟩ := hI
  rw [View.canon_unit_zero zero_offsets2, View.ld_unit_zero zero_offsets2, View.ld_unit_zero zero_offsets2]
  unfold k1_pay1
  obtain ⟨p, q, rfl⟩ : ∃ (p : Fin 256) (q : Fin 4096), j = ix2 p q := ⟨j 0, j 1, eq_ix2 j⟩
  rw [truncf_apply, shapeCast_self, shapeCast_self, matmul_zero_at]
  refine Finset.sum_congr rfl fun k _ => ?_
  have p0 : (e0 (ix2 p k) 0 : Nat) = I0 0 * 256 + p.val := h0 _ 0
  have p1 : (e0 (ix2 p k) 1 : Nat) = I0 1 * 1024 + k.val := h0 _ 1
  have q0 : (e1 (ix2 k q) 0 : Nat) = I1 0 * 1024 + k.val := h1 _ 0
  have q1 : (e1 (ix2 k q) 1 : Nat) = I1 1 * 4096 + q.val := h1 _ 1
  have r0 : (e2 (ix2 p q) 0 : Nat) = I2 0 * 256 + p.val := h2 _ 0
  have r1 : (e2 (ix2 p q) 1 : Nat) = I2 1 * 4096 + q.val := h2 _ 1
  rw [(Shape.idx_ext₂ (by show _ = (e2 _ 0).val; omega) (by show _ = k.val; omega) :
      e0 (ix2 p k) = ix2 (e2 (ix2 p q) 0) k),
    (Shape.idx_ext₂ (by show _ = k.val; omega) (by show _ = (e2 _ 1).val; omega) :
      e1 (ix2 k q) = ix2 k (e2 (ix2 p q) 1))]
  rfl

end Cert.KernelIdeal.Val

end
-- ==== Proof.Reg0.lean ====
import proofs.«153073_g19885698580639_cont_8to1_2033_13_alg».proof.Proof.Gen.KernelIdeal.Frame
import proofs.«153073_g19885698580639_cont_8to1_2033_13_alg».proof.Proof.Reg0AuxPay
import proofs.«153073_g19885698580639_cont_8to1_2033_13_alg».proof.Proof.Reg1AuxDot

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen
open DCGRU DCGRU.KL ValueIdx

variable (V : (c : Dev nD) → (b : Ref sig .tc) → Buf (Elt Ideal) ((c : Thread nD τ).loc b))

namespace Prep

theorem zeros3 : (![0, 0, 0] : Fin 3 → Nat) = fun _ => 0 :=
  funext fun a => match a with | ⟨0, _⟩ => rfl | ⟨1, _⟩ => rfl | ⟨2, _⟩ => rfl

theorem idx_facts0 : ∀ t : Fin cfg0.N,
    (win0_2.index t (0 : Fin 2) = t.val ∧ win0_2.index t (1 : Fin 2) = 0)
    ∧ (win0_3.index t (0 : Fin 2) = t.val ∧ win0_3.index t (1 : Fin 2) = 0)
    ∧ win0_0.index t (0 : Fin 3) = t.val ∧ win0_0.index t (1 : Fin 3) = 0 ∧ win0_0.index t (2 : Fin 3) = 0
    ∧ win0_1.index t (0 : Fin 4) = 0 ∧ win0_1.index t (1 : Fin 4) = 0 ∧ win0_1.index t (2 : Fin 4) = t.val
    ∧ win0_1.index t (3 : Fin 4) = 0 :=
  (by decide +kernel : ∀ t : Fin grid0.N, _)

theorem pt_lt (t : Fin cfg0.N) : t.val < 8 := Nat.lt_of_lt_of_eq t.isLt N_0

theorem featBlock_apply (c : Dev nD) (t : Fin cfg0.N) (r : Fin 128) (b : Fin 32) (j : Fin 64) :
    (iblk0 V c 0 t : Vec Ideal S128x32x64 .bf16) (ix3 r b j)
      = (V c main_v4 : SX.Idx → EReal) (ix3 (nodeOf t.val (pt_lt t) r) b j) := by
  obtain ⟨-, -, e0, e1, e2, -⟩ := idx_facts0 t
  show V c main_v4 (((cfg0.win 0).blk t).view.emb (ix3 r b j)) = V c main_v4 _
  refine congrArg (V c main_v4) (funext fun a => Fin.ext ?_)
  match a with
  | ⟨0, _⟩ => show win0_0.index t (0 : Fin 3) * 128 + 1 * r.val = t.val * 128 + r.val; omega
  | ⟨1, _⟩ => show win0_0.index t (1 : Fin 3) * 32 + 1 * b.val = b.val; omega
  | ⟨2, _⟩ => show win0_0.index t (2 : Fin 3) * 64 + 1 * j.val = j.val; omega

theorem hidBlock_apply (c : Dev nD) (t : Fin cfg0.N) (l : Fin 2) (b : Fin 32) (r : Fin 128) (j : Fin 64) :
    (iblk0 V c 1 t : Vec Ideal S2x32x128x64 .f32) (ix4 l b r j)
      = (V c main_v5 : SH.Idx → EReal) (ix4 l b (nodeOf t.val (pt_lt t) r) j) := by
  obtain ⟨-, -, -, -, -, e0, e1, e2, e3⟩ := idx_facts0 t
  show V c main_v5 (((cfg0.win 1).blk t).view.emb (ix4 l b r j)) = V c main_v5 _
  refine congrArg (V c main_v5) (funext fun a => Fin.ext ?_)
  match a with
  | ⟨0, _⟩ => show win0_1.index t (0 : Fin 4) * 2 + 1 * l.val = l.val; omega
  | ⟨1, _⟩ => show win0_1.index t (1 : Fin 4) * 32 + 1 * b.val = b.val; omega
  | ⟨2, _⟩ => show win0_1.index t (2 : Fin 4) * 128 + 1 * r.val = t.val * 128 + r.val; omega
  | ⟨3, _⟩ => show win0_1.index t (3 : Fin 4) * 64 + 1 * j.val = j.val; omega

end Prep

open Prep

theorem reg0_y0 (c : Dev nD) :
    (dat0 (F := Ideal) V c).arrAt 2 cfg0.N = prepY (V c main_v4) (V c main_v5) :=
  (dat0 (F := Ideal) V c).arrAt_eq_of_cover 2 _
    (fun t _ => by
      rw [Dat.flushed, after0_2]
      unfold out0_2
      rw [View.canon_unit_zero zero_offsets2]
      simp only [View.ld_unit_zero (S := S128x32x64) zeros3]
      exact funext fun j => (blocks (iblk0 V c 0 t) (iblk0 V c 1 t) (V c main_v4) (V c main_v5) t.val (pt_lt t)
        (featBlock_apply V c t) (hidBlock_apply V c t) (idx_facts0 t).1 j _ (Window.rect_emb_val win0_2 t j)).1)
    fun i => (rows_cover 128 (I := win0_2.index) (fun t => (idx_facts0 t).1) (by decide) i).imp fun t h =>
      ⟨flush0_2 t, (Finset.ext_iff.1 (View.set_slice_whole _ _) i).2 (Rect.mem_set_unit.2 h)⟩

theorem reg0_h1p (c : Dev nD) :
    (dat0 (F := Ideal) V c).arrAt 3 cfg0.N = prepH (V c main_v5) :=
  (dat0 (F := Ideal) V c).arrAt_eq_of_cover 3 _
    (fun t _ => by
      rw [Dat.flushed, after0_3]
      unfold out0_3
      rw [View.canon_unit_zero zero_offsets2]
      exact funext fun j => (blocks (iblk0 V c 0 t) (iblk0 V c 1 t) (V c main_v4) (V c main_v5) t.val (pt_lt t)
        (featBlock_apply V c t) (hidBlock_apply V c t) (idx_facts0 t).2.1 j _ (Window.rect_emb_val win0_3 t j)).2)
    fun i => (rows_cover 128 (I := win0_3.index) (fun t => (idx_facts0 t).2.1) (by decide) i).imp fun t h =>
      ⟨flush0_3 t, (Finset.ext_iff.1 (View.set_slice_whole _ _) i).2 (Rect.mem_set_unit.2 h)⟩

end Cert.KernelIdeal.Val

end
-- ==== Proof.Reg1.lean ====
import proofs.«153073_g19885698580639_cont_8to1_2033_13_alg».proof.Proof.Gen.KernelIdeal.Frame
import proofs.«153073_g19885698580639_cont_8to1_2033_13_alg».proof.Proof.Reg1AuxDot

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen
open DCGRU DCGRU.KL ValueIdx

variable (V : (c : Dev nD) → (b : Ref sig .tc) → Buf (Elt Ideal) ((c : Thread nD τ).loc b))

theorem d_idx : ∀ t : Fin cfg1.N, (win1_2.index t (0 : Fin 2) = t.val ∧ win1_2.index t (1 : Fin 2) = 0)
    ∧ win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

theorem d_cover (i : S1024x4096.Idx) : ∃ t : Fin cfg1.N, (cfg1.win 2).flush t = true ∧ i ∈ ((cfg1.win 2).blk t).view.set :=
  (rows_cover 256 (I := win1_2.index) (fun t => (d_idx t).1) (by decide) i).imp fun t h =>
    ⟨flush1_2 t, (Finset.ext_iff.1 (View.set_slice_whole _ _) i).2 (Rect.mem_set_unit.2 h)⟩

theorem d_flushed (a : SA.Idx → EReal) (y : SY.Idx → EReal) (t : Fin cfg1.N) :
    out1_2 (F := Ideal) (fun i => a (((cfg1.win 0).blk t).view.emb i)) (fun i => y (((cfg1.win 1).blk t).view.emb i))
      = fun j => mm a y (((cfg1.win 2).blk t).view.emb j) :=
  funext fun j => diffusion_block a y (d_idx t)
    (Window.rect_emb_val win1_0 t) (Window.rect_emb_val win1_1 t) (Window.rect_emb_val win1_2 t) _ _ _ j

theorem reg1_out (c : Dev nD) :
    (dat1 (F := Ideal) V c).arrAt 2 cfg1.N = mm (V c main_v0) (V c main_v6_0) :=
  (dat1 (F := Ideal) V c).arrAt_eq_of_cover 2 _
    (fun t _ => by rw [Dat.flushed, after1_2]; exact d_flushed (V c main_v0) (V c main_v6_0) t) d_cover

theorem reg3_out (c : Dev nD) :
    (dat3 (F := Ideal) V c).arrAt 2 cfg3.N = mm (V c main_v0) (V c main_v49_1) :=
  (dat3 (F := Ideal) V c).arrAt_eq_of_cover 2 _
    (fun t _ => by rw [Dat.flushed, after3_2]; exact d_flushed (V c main_v0) (V c main_v49_1) t) d_cover

theorem reg5_out (c : Dev nD) :
    (dat5 (F := Ideal) V c).arrAt 2 cfg5.N = mm (V c main_v0) (V c main_v51_0) :=
  (dat5 (F := Ideal) V c).arrAt_eq_of_cover 2 _
    (fun t _ => by rw [Dat.flushed, after5_2]; exact d_flushed (V c main_v0) (V c main_v51_0) t) d_cover

theorem reg7_out (c : Dev nD) :
    (dat7 (F := Ideal) V c).arrAt 2 cfg7.N = mm (V c main_v0) (V c main_v53_1) :=
  (dat7 (F := Ideal) V c).arrAt_eq_of_cover 2 _
    (fun t _ => by rw [Dat.flushed, after7_2]; exact d_flushed (V c main_v0) (V c main_v53_1) t) d_cover

end Cert.KernelIdeal.Val

end
-- ==== Proof.Reg2AuxCells.lean ====
import proofs.«153073_g19885698580639_cont_8to1_2033_13_alg».proof.Proof.Gen.KernelIdeal
import proofs.«153073_g19885698580639_cont_8to1_2033_13_alg».proof.Proof.KLayout
import Idealize.ShloMosaic.Lib.Pipeline.Value
import Idealize.ShloMosaic.Lib.ValueIdx
import Idealize.ShloMosaic.PureOps.Ideal.Laws

set_option maxRecDepth 16384

noncomputable section

namespace Cert.KernelIdeal.Val.Gate

open Idealize.ShloMosaic Idealize.ShloMosaic.TcCoe Idealize.SL.Sem
open Cert.KernelIdeal Cert.KernelIdeal.Gen
open DCGRU DCGRU.KL ValueIdx

def cellRow (p : Fin 256) (b : Fin 32) : Fin 8192 := ⟨p.val * 32 + b.val, by have := p.isLt; have := b.isLt; omega⟩

theorem toCells_apply {α : Type} (v : S256x4096.Idx → α) (h : S256x4096.ShapeCasts S8192x128) (p : Fin 256) (b : Fin 32)
    (ch : Fin 128) : shapeCast S8192x128 v h (ix2 (cellRow p b) ch) = v (ix2 p (col b ch)) := by
  refine shapeCast_apply v h _ _ ?_
  rw [Shape.rowMajor_val_two, Shape.rowMajor_val_two]
  show p.val * 4096 + (b.val * 128 + ch.val) = (p.val * 32 + b.val) * 128 + ch.val
  omega

theorem ofCells_apply {α : Type} (v : S8192x128.Idx → α) (h : S8192x128.ShapeCasts S256x4096) (p : Fin 256) (q : Fin 4096) :
    shapeCast S256x4096 v h (ix2 p q) = v (ix2 (cellRow p (qb q)) (qc q)) := by
  refine shapeCast_apply v h _ _ ?_
  rw [Shape.rowMajor_val_two, Shape.rowMajor_val_two]
  show (p.val * 32 + q.val / 128) * 128 + q.val % 128 = p.val * 4096 + q.val
  omega

theorem slab_apply {α : Type} (v : S1x128x128.Idx → α) (h : S1x128x128.ShapeCasts S128x128) (c o : Fin 128) :
    shapeCast S128x128 v h (ix2 c o) = v (ix3 0 c o) := by
  refine shapeCast_apply v h _ _ ?_
  rw [Shape.rowMajor_val_two, Shape.rowMajor_val_three]
  show ((0 : Fin 1).val * 128 + c.val) * 128 + o.val = c.val * 128 + o.val
  simp

theorem dot2_apply {m k n : Nat} (D : DotDims ⟨2, ![m, k]⟩ ⟨2, ![k, n]⟩ ⟨2, ![m, n]⟩) (hr : D.contr.rank = 1)
    (hs : D.contr.size ⟨0, by omega⟩ = k)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (x : FVec Ideal ⟨2, ![m, k]⟩ .bf16) (y : FVec Ideal ⟨2, ![k, n]⟩ .bf16) (p : Fin m) (q : Fin n) :
    matmul D none x y (constant (F := Ideal) ⟨2, ![m, n]⟩ .f32 0x00000000#32) (ix2 p q) = ∑ c : Fin k, x (ix2 p c) * y (ix2 c q) := by
  simp only [matmul]
  rw [Ideal.matmul_constant_zero_apply, ← Equiv.sum_comp (ValueIdx.contrEquiv1 D k hr hs).symm]
  refine Finset.sum_congr rfl fun c _ => ?_
  have hc := ValueIdx.contrEquiv1_symm_val D k hr hs c
  have el : D.lhsIdx (ix2 p q) ((ValueIdx.contrEquiv1 D k hr hs).symm c) = ix2 p c := funext fun a => Fin.ext (by
    match a with
    | ⟨0, _⟩ => exact l0 _ _
    | ⟨1, _⟩ => exact (l1 _ _).trans hc)
  have er : D.rhsIdx (ix2 p q) ((ValueIdx.contrEquiv1 D k hr hs).symm c) = ix2 c q := funext fun a => Fin.ext (by
    match a with
    | ⟨0, _⟩ => exact (r0 _ _).trans hc
    | ⟨1, _⟩ => exact r1 _ _)
  rw [el, er]

theorem cellDot_apply (x : FVec Ideal S8192x128 .bf16) (w : FVec Ideal S128x128 .bf16) (r : Fin 8192) (o : Fin 128) :
    matmul dot_S8192x128_S128x128_S8192x128_1_0_0_1_n_n none x w (constant (F := Ideal) S8192x128 .f32 0x00000000#32) (ix2 r o)
      = ∑ c : Fin 128, x (ix2 r c) * w (ix2 c o) :=
  dot2_apply dot_S8192x128_S128x128_S8192x128_1_0_0_1_n_n rfl rfl
    (fun _ _ => rfl)
    (dot_S8192x128_S128x128_S8192x128_1_0_0_1_n_n.lhsIdx_val_of_single rfl)
    (dot_S8192x128_S128x128_S8192x128_1_0_0_1_n_n.rhsIdx_val_of_single rfl)
    (fun _ _ => rfl) x w r o

theorem halves_lo {α : Type} (x₁ x₂ : S8192x64.Idx → α) (h : Shape.Concatenates [S8192x64, S8192x64] S8192x128 1) (r : Fin 8192)
    (j : Fin 64) : concatenate S8192x128 1 [⟨S8192x64, x₁⟩, ⟨S8192x64, x₂⟩] h (ix2 r (lo j)) = x₁ (ix2 r j) :=
  concatenate_pair_apply_left 1 x₁ x₂ h (ix2 r (lo j)) rfl (ix2 r j) (fun b => by
    match b with
    | ⟨0, _⟩ => rfl
    | ⟨1, _⟩ => rfl)

theorem halves_hi {α : Type} (x₁ x₂ : S8192x64.Idx → α) (h : Shape.Concatenates [S8192x64, S8192x64] S8192x128 1) (r : Fin 8192)
    (j : Fin 64) : concatenate S8192x128 1 [⟨S8192x64, x₁⟩, ⟨S8192x64, x₂⟩] h (ix2 r (hi j)) = x₂ (ix2 r j) :=
  concatenate_pair_apply_right 1 x₁ x₂ h (ix2 r (hi j)) rfl rfl (ix2 r j) (fun b hb => by
    match b, hb with
    | ⟨0, _⟩, _ => rfl
    | ⟨1, _⟩, hb => exact absurd rfl hb) (by show j.val + 64 = 64 + j.val; omega)

theorem ld_rows {F : FTy → Type} (X : Vec F S1024x4096 .bf16) (off : Fin 2 → Nat)
    (inb : ∀ a, off a + S256x4096.size a ≤ S1024x4096.size a) (n0 : Nat) (hoff : off = ![n0, 0]) (p : Fin 256) (q : Fin 4096)
    (r : Fin 1024) (hr : r.val = n0 + p.val) :
    View.ld (Val := Elt F) X (Rect.unit (s := S1024x4096) off S256x4096.size inb) (ix2 p q) = X (ix2 r q) := by
  subst hoff
  refine congrArg X (funext fun a => Fin.ext ?_)
  match a with
  | ⟨0, _⟩ => show n0 + 1 * p.val = r.val; omega
  | ⟨1, _⟩ => show 0 + 1 * q.val = q.val; omega

theorem ld_slab {F : FTy → Type} (X : Vec F S3x128x128 .bf16) (off : Fin 3 → Nat)
    (inb : ∀ a, off a + S1x128x128.size a ≤ S3x128x128.size a) (k : Fin 3) (hoff : off = ![k.val, 0, 0]) (c o : Fin 128) :
    View.ld (Val := Elt F) X (Rect.unit (s := S3x128x128) off S1x128x128.size inb) (ix3 0 c o) = X (ix3 k c o) := by
  subst hoff
  refine congrArg X (funext fun a => Fin.ext ?_)
  match a with
  | ⟨0, _⟩ => show k.val + 1 * (0 : Fin 1).val = k.val; simp
  | ⟨1, _⟩ => show 0 + 1 * c.val = c.val; omega
  | ⟨2, _⟩ => show 0 + 1 * o.val = o.val; omega

end Cert.KernelIdeal.Val.Gate

end
-- ==== Proof.Reg2AuxPay.lean ====
import proofs.«153073_g19885698580639_cont_8to1_2033_13_alg».proof.Proof.Gen.KernelIdeal.Skeleton
import proofs.«153073_g19885698580639_cont_8to1_2033_13_alg».proof.Proof.Reg2AuxCells

set_option maxRecDepth 16384

noncomputable section

namespace Cert.KernelIdeal.Val.Gate2

open Idealize.ShloMosaic Idealize.ShloMosaic.TcCoe Idealize.SL.Sem
open Cert.KernelIdeal Cert.KernelIdeal.Gen Cert.KernelIdeal.Val.Gate
open DCGRU DCGRU.KL ValueIdx

theorem cells_pay_apply (v2 : Vec Ideal S256x4096 .bf16) (p : Fin 256) (b : Fin 32) (ch : Fin 128) :
    k2_pay6 (F := Ideal) v2 (ix2 (cellRow p b) ch) = v2 (ix2 p (col b ch)) := by
  unfold k2_pay6 k2_pay4
  refine (toCells_apply _ _ p b ch).trans ?_
  exact congrFun (shapeCast_self v2 _) _

theorem pre_pay_apply (v0 : Vec Ideal S256x1024 .bf16) (v2 v6 : Vec Ideal S256x4096 .bf16) (v8 : Vec Ideal S1024x4096 .bf16)
    (v20 v23 v27 : Vec Ideal S1x128x128 .bf16) (p : Fin 256) (b : Fin 32) (o : Fin 128) :
    k2_pay7 (F := Ideal) v0 v2 v6 v8 v20 v23 v27 (ix2 (cellRow p b) o)
      = ((∑ c : Fin 128, v2 (ix2 p (col b c)) * v20 (ix3 0 c o)) + (∑ c : Fin 128, v6 (ix2 p (col b c)) * v23 (ix3 0 c o)))
          + ∑ c : Fin 128, k2_pay5 (F := Ideal) v0 v2 v8 (ix2 p (col b c)) * v27 (ix3 0 c o) := by
  unfold k2_pay7
  refine congrArg₂ (· + ·) (congrArg₂ (· + ·) ?_ ?_) ?_
  · refine (cellDot_apply _ _ _ _).trans (Finset.sum_congr rfl fun c _ => ?_)
    exact congrArg₂ (· * ·) (cells_pay_apply v2 p b c) (slab_apply v20 _ c o)
  · refine (cellDot_apply _ _ _ _).trans (Finset.sum_congr rfl fun c _ => ?_)
    refine congrArg₂ (· * ·) ((toCells_apply _ _ p b c).trans ?_) (slab_apply v23 _ c o)
    exact congrFun (shapeCast_self v6 _) _
  · refine (cellDot_apply _ _ _ _).trans (Finset.sum_congr rfl fun c _ => ?_)
    exact congrArg₂ (· * ·) (toCells_apply _ _ p b c) (slab_apply v27 _ c o)

variable {F : FTy → Type}

abbrev slabLd_0 (x3 : Vec F S3x128x128 .bf16) : Vec F S1x128x128 .bf16 :=
  View.ld (Val := Elt F) x3 (Rect.unit (s := S3x128x128) ![0, 0, 0] S1x128x128.size inb_S3x128x128_S1x128x128_0_0_0)
abbrev slabLd_1 (x3 : Vec F S3x128x128 .bf16) : Vec F S1x128x128 .bf16 :=
  View.ld (Val := Elt F) x3 (Rect.unit (s := S3x128x128) ![1, 0, 0] S1x128x128.size inb_S3x128x128_S1x128x128_1_0_0)
abbrev slabLd_2 (x3 : Vec F S3x128x128 .bf16) : Vec F S1x128x128 .bf16 :=
  View.ld (Val := Elt F) x3 (Rect.unit (s := S3x128x128) ![2, 0, 0] S1x128x128.size inb_S3x128x128_S1x128x128_2_0_0)

abbrev pre [FloatOps F] (off : Fin 2 → Nat) (inb : ∀ a, off a + S256x4096.size a ≤ S1024x4096.size a)
    (x0 : Vec F S256x1024 .bf16) (x1 : Vec F S256x4096 .bf16) (x2 : Vec F S1024x4096 .bf16) (x3 : Vec F S3x128x128 .bf16) :
    FVec F S8192x128 .f32 :=
  k2_pay7 x0 x1 (View.ld (Val := Elt F) x2 (Rect.unit (s := S1024x4096) off S256x4096.size inb)) x2 (slabLd_0 x3) (slabLd_1 x3) (slabLd_2 x3)

theorem zero_off : (![0, 0] : Fin 2 → Nat) = fun _ => 0 := funext fun a => by fin_cases a <;> rfl

theorem funext_ix2 {n0 n1 : Nat} {α : Type} {f g : (⟨2, ![n0, n1]⟩ : Shape).Idx → α} (h : ∀ p q, f (ix2 p q) = g (ix2 p q)) : f = g :=
  funext fun j => by rw [eq_ix2 j]; exact h _ _

section Block

variable {A : SA.Idx → EReal} {Y0 Y1 : SY.Idx → EReal} {W : SWg.Idx → EReal} {B : SBg.Idx → EReal}
  {node : Fin 256 → Fin 1024} {n0 : Nat} {off : Fin 2 → Nat} {inb : ∀ a, off a + S256x4096.size a ≤ S1024x4096.size a}
  {x0 : Vec Ideal S256x1024 .bf16} {x1 : Vec Ideal S256x4096 .bf16} {x2 : Vec Ideal S1024x4096 .bf16}
  {x3 : Vec Ideal S3x128x128 .bf16} {x4 : Vec Ideal S1x128 .f32}
  {e0 : S256x1024.Idx → SA.Idx} {e1 : S256x4096.Idx → SY.Idx} {e2 : S1024x4096.Idx → SY.Idx} {e3 : S3x128x128.Idx → SWg.Idx}
  {e4 : S1x128.Idx → SBg.Idx}
  (he0 : ∀ p m, e0 (ix2 p m) = ix2 (node p) m) (he1 : ∀ p q, e1 (ix2 p q) = ix2 (node p) q) (he2 : ∀ y, e2 y = y)
  (he3 : ∀ y, e3 y = y) (he4 : ∀ y, e4 y = y)
  (h0 : x0 = fun y => A (e0 y)) (h1 : x1 = fun y => Y0 (e1 y)) (h2 : x2 = fun y => Y1 (e2 y)) (h3 : x3 = fun y => W (e3 y))
  (h4 : x4 = fun y => B (e4 y)) (hoff : off = ![n0, 0]) (hnode : ∀ p, (node p).val = n0 + p.val)
  (emb : S256x4096.Idx → SY.Idx) (hemb : ∀ p q, emb (ix2 p q) = ix2 (node p) q)

include he0 he1 he2 h0 h1 h2 in

theorem cheb_cell (p : Fin 256) (q : Fin 4096) :
    k2_pay5 (F := Ideal) x0 x1 x2 (ix2 p q) = cheb2 A Y0 Y1 (ix2 (node p) q) := by
  subst h0 h1 h2
  unfold k2_pay5 k2_pay4
  rw [shapeCast_self, shapeCast_self, shapeCast_self]
  refine congrArg₂ (· - ·) (congrArg (two * ·) ((dot2_apply dot_S256x1024_S1024x4096_S256x4096_1_0_0_1_n_n rfl rfl (fun _ _ => rfl)
      (dot_S256x1024_S1024x4096_S256x4096_1_0_0_1_n_n.lhsIdx_val_of_single rfl)
      (dot_S256x1024_S1024x4096_S256x4096_1_0_0_1_n_n.rhsIdx_val_of_single rfl) (fun _ _ => rfl) _ _ p q).trans
      (Finset.sum_congr rfl fun m _ => ?_)))
    (congrArg Y0 (he1 p q))
  exact congrArg₂ (· * ·) (congrArg A (he0 p m)) (congrArg Y1 (he2 _))

include he0 he1 he2 h0 h1 h2 hemb in

theorem cheb_block : k2_pay5 (F := Ideal) x0 x1 x2 = fun j => cheb2 A Y0 Y1 (emb j) :=
  funext_ix2 fun p q => (cheb_cell he0 he1 he2 h0 h1 h2 p q).trans (congrArg (cheb2 A Y0 Y1) (hemb p q)).symm

include he0 he1 he2 he3 he4 h0 h1 h2 h3 h4 hoff hnode

theorem gate_cell (p : Fin 256) (b : Fin 32) (o : Fin 128) :
    k2_pay1 (F := Ideal) (pre off inb x0 x1 x2 x3) x4 (ix2 (cellRow p b) o) = gateG A Y0 Y1 W B (ix2 (node p) (col b o)) := by
  have hc := cheb_cell he0 he1 he2 h0 h1 h2
  subst h0 h1 h2 h3 h4
  unfold k2_pay1
  show _ = Ideal.logistic
    (((dotW Y0 W 0 (node p) (qb (col b o)) (qc (col b o)) + dotW Y1 W 1 (node p) (qb (col b o)) (qc (col b o)))
        + dotW (cheb2 A Y0 Y1) W 2 (node p) (qb (col b o)) (qc (col b o)))
      + B (ix2 0 (qc (col b o))))
  rw [qb_col, qc_col]
  refine congrArg Ideal.logistic (congrArg₂ (· + ·) ((pre_pay_apply _ _ _ _ _ _ _ p b o).trans ?_)
    (((broadcastTo_apply _ _ (ix2 (cellRow p b) o) (ix2 0 o) fun a => by
      match a with
      | ⟨0, _⟩ => rfl
      | ⟨1, _⟩ => rfl).trans (congrFun (shapeCast_self _ _) _)).trans (congrArg B (he4 _))))
  refine congrArg₂ (· + ·) (congrArg₂ (· + ·) ?_ ?_) ?_
  · exact Finset.sum_congr rfl fun c _ => congrArg₂ (· * ·) (congrArg Y0 (he1 p (col b c)))
      ((ld_slab (F := Ideal) (fun y => W (e3 y)) _ _ 0 rfl c o).trans (congrArg W (he3 _)))
  · exact Finset.sum_congr rfl fun c _ => congrArg₂ (· * ·)
      ((ld_rows (F := Ideal) (fun y => Y1 (e2 y)) off inb n0 hoff p (col b c) (node p) (hnode p)).trans (congrArg Y1 (he2 _)))
      ((ld_slab (F := Ideal) (fun y => W (e3 y)) _ _ 1 rfl c o).trans (congrArg W (he3 _)))
  · exact Finset.sum_congr rfl fun c _ => congrArg₂ (· * ·) (hc p (col b c)) ((ld_slab (F := Ideal) (fun y => W (e3 y)) _ _ 2 rfl c o).trans (congrArg W (he3 _)))

include hemb

theorem gate_block : k2_pay3 (F := Ideal) (pre off inb x0 x1 x2 x3) x4 = fun j => gateG A Y0 Y1 W B (emb j) :=
  funext_ix2 fun p q => by
    refine ((ofCells_apply _ _ p q).trans
      ((gate_cell he0 he1 he2 he3 he4 h0 h1 h2 h3 h4 hoff hnode p (qb q) (qc q)).trans ?_)).trans
      (congrArg (gateG A Y0 Y1 W B) (hemb p q)).symm
    rw [col_qb_qc]

theorem reset_block :
    k2_pay2 (F := Ideal) (k2_pay6 (F := Ideal) x1) (pre off inb x0 x1 x2 x3) x4 = fun j => gateS0 A Y0 Y1 W B (emb j) :=
  funext_ix2 fun p q => by
    refine Eq.trans ?_ (congrArg (gateS0 A Y0 Y1 W B) (hemb p q)).symm
    unfold k2_pay2
    refine (ofCells_apply _ _ p q).trans ?_
    show _ = if h : q.val % 128 < 64 then
        gateG A Y0 Y1 W B (ix2 (node p) (col (qb q) (lo ⟨q.val % 128, h⟩)))
          * Y0 (ix2 (node p) (col (qb q) (hi ⟨q.val % 128, h⟩)))
      else zbf
    by_cases h : q.val % 128 < 64
    · rw [dif_pos h, show qc q = lo ⟨q.val % 128, h⟩ from Fin.ext rfl]
      refine (halves_lo _ _ _ (cellRow p (qb q)) ⟨q.val % 128, h⟩).trans ?_
      show extractStridedSlice S8192x64 ![0, 0] (k2_pay1 (F := Ideal) (pre off inb x0 x1 x2 x3) x4) slices_S8192x128_o0_0_S8192x64 (ix2 (cellRow p (qb q)) ⟨q.val % 128, h⟩)
          * extractStridedSlice S8192x64 ![0, 64] (k2_pay6 (F := Ideal) x1) slices_S8192x128_o0_64_S8192x64 (ix2 (cellRow p (qb q)) ⟨q.val % 128, h⟩) = _
      refine congrArg₂ (· * ·)
        ((extractStridedSlice_apply _ _ _ _ (ix2 (cellRow p (qb q)) (lo ⟨q.val % 128, h⟩)) fun a => ?_).trans
          (gate_cell he0 he1 he2 he3 he4 h0 h1 h2 h3 h4 hoff hnode p (qb q) (lo ⟨q.val % 128, h⟩)))
        ((extractStridedSlice_apply _ _ _ _ (ix2 (cellRow p (qb q)) (hi ⟨q.val % 128, h⟩)) fun a => ?_).trans
          ((cells_pay_apply x1 p (qb q) (hi ⟨q.val % 128, h⟩)).trans (h1 ▸ congrArg Y0 (he1 p _))))
      · match a with
        | ⟨0, _⟩ => exact (Nat.zero_add _).symm
        | ⟨1, _⟩ => exact (Nat.zero_add _).symm
      · match a with
        | ⟨0, _⟩ => exact (Nat.zero_add _).symm
        | ⟨1, _⟩ => rfl
    · have hlt : q.val % 128 - 64 < 64 := by have := Nat.mod_lt q.val (show 0 < 128 by decide); omega
      rw [dif_neg h, show qc q = hi ⟨q.val % 128 - 64, hlt⟩ from Fin.ext (by show q.val % 128 = 64 + (q.val % 128 - 64); omega)]
      exact halves_hi _ _ _ (cellRow p (qb q)) ⟨q.val % 128 - 64, hlt⟩

end Block

end Cert.KernelIdeal.Val.Gate2

end
-- ==== Proof.Reg2AuxGrid.lean ====
import proofs.«153073_g19885698580639_cont_8to1_2033_13_alg».proof.Proof.Gen.KernelIdeal.Launch
import proofs.«153073_g19885698580639_cont_8to1_2033_13_alg».proof.Proof.Gen.KernelIdeal.Points
import Idealize.ShloMosaic.Lib.Pipeline.Value
import Idealize.ShloMosaic.Lib.ValueIdx

noncomputable section

namespace Cert.KernelIdeal.Val.Gate

open Idealize.ShloMosaic Idealize.ShloMosaic.Pipeline ValueIdx

variable {sig : RefSig}

abbrev AtRow {G : Grid} (w : Window sig G) (t : Fin G.N) (k : Nat) : Prop :=
  ∀ a, w.index t a = if a.val = 0 then k else 0

def nodeOf (t : Nat) (h : t < 4) (p : Fin 256) : Fin 1024 := ⟨256 * t + p.val, by have := p.isLt; omega⟩

theorem eq_rows {n : Nat} {j : (⟨2, ![1024, n]⟩ : Shape).Idx} {i : Fin 2 → Nat} {t : Nat} (h : t < 4) {p : Fin 256} {q : Fin n}
    (e : ∀ a : Fin 2, i a = if a.val = 0 then t else 0)
    (h0 : (j 0).val = i 0 * 256 + 1 * p.val) (h1 : (j 1).val = i 1 * n + 1 * q.val) : j = ix2 (nodeOf t h p) q := by
  have e0 : i 0 = t := e 0
  have e1 : i 1 = 0 := e 1
  funext a; apply Fin.ext
  match a with
  | ⟨0, _⟩ => show (j 0).val = 256 * t + p.val; omega
  | ⟨1, _⟩ => show (j 1).val = q.val; rw [h1, e1]; omega

theorem eq_whole {s : Shape} {j y : s.Idx} {i : Fin s.rank → Nat} (e : ∀ a, i a = if a.val = 0 then 0 else 0)
    (h : ∀ a, (j a).val = i a * s.size a + 1 * (y a).val) : j = y :=
  funext fun a => Fin.ext (by rw [h a, e a]; split <;> omega)

theorem rows_mem {n : Nat} (j : (⟨2, ![1024, n]⟩ : Shape).Idx) {i : Fin 2 → Nat}
    (e : ∀ a : Fin 2, i a = if a.val = 0 then (j 0).val / 256 else 0) (a : Fin 2) :
    i a * (![256, n] a) ≤ (j a).val ∧ (j a).val < i a * (![256, n] a) + ![256, n] a := by
  have e0 : i 0 = (j 0).val / 256 := e 0
  have e1 : i 1 = 0 := e 1
  have h1 : (j 1).val < n := (j 1).isLt
  match a with
  | ⟨0, _⟩ => show i 0 * 256 ≤ (j 0).val ∧ (j 0).val < i 0 * 256 + 256; omega
  | ⟨1, _⟩ => show i 1 * n ≤ (j 1).val ∧ (j 1).val < i 1 * n + n; rw [e1]; omega

theorem mem_slice_unit {κ : Kind} (b : Ref sig κ) {off size : Fin b.ty.shape.rank → Nat} {inb} {i : b.ty.shape.Idx}
    (h : ∀ a, off a ≤ i a ∧ (i a : Nat) < off a + size a) : i ∈ ((View.whole b).slice (Rect.unit off size inb)).set := by
  rw [View.set_slice_whole, Rect.mem_set_unit]; exact h

end Cert.KernelIdeal.Val.Gate

namespace Cert.KernelIdeal.Val.Gate2

open Idealize.ShloMosaic Idealize.ShloMosaic.TcCoe Idealize.SL.Sem
open Idealize.ShloMosaic.Pipeline (Dat Cfg Window)
open Cert.KernelIdeal Cert.KernelIdeal.Gen Cert.KernelIdeal.Val.Gate
open ValueIdx

theorem idx_facts2 : ∀ t : Fin cfg2.N,
    AtRow win2_0 t t.val ∧ AtRow win2_1 t t.val ∧ AtRow win2_2 t 0 ∧ AtRow win2_3 t 0 ∧ AtRow win2_4 t 0
    ∧ AtRow win2_5 t t.val ∧ AtRow win2_6 t t.val ∧ AtRow win2_7 t t.val ∧ ((grid2.coords t) 0).val = t.val :=
  (by decide +kernel : ∀ t : Fin grid2.N, _)

abbrev node2 (t : Fin cfg2.N) : Fin 256 → Fin 1024 := nodeOf t.val (t.isLt.trans_eq N_2)

variable (t : Fin cfg2.N)

theorem emb2_0 (p : Fin 256) (q : Fin 1024) :
    ((cfg2.win 0).blk t).view.emb (ix2 p q) = ix2 (node2 t p) q := eq_rows _ (idx_facts2 t).1 rfl rfl
theorem emb2_1 (p : Fin 256) (q : Fin 4096) :
    ((cfg2.win 1).blk t).view.emb (ix2 p q) = ix2 (node2 t p) q := eq_rows _ (idx_facts2 t).2.1 rfl rfl
theorem emb2_5 (p : Fin 256) (q : Fin 4096) :
    ((cfg2.win 5).blk t).view.emb (ix2 p q) = ix2 (node2 t p) q := eq_rows _ (idx_facts2 t).2.2.2.2.2.1 rfl rfl
theorem emb2_6 (p : Fin 256) (q : Fin 4096) :
    ((cfg2.win 6).blk t).view.emb (ix2 p q) = ix2 (node2 t p) q := eq_rows _ (idx_facts2 t).2.2.2.2.2.2.1 rfl rfl
theorem emb2_7 (p : Fin 256) (q : Fin 4096) :
    ((cfg2.win 7).blk t).view.emb (ix2 p q) = ix2 (node2 t p) q := eq_rows _ (idx_facts2 t).2.2.2.2.2.2.2.1 rfl rfl
theorem emb2_2 (y : S1024x4096.Idx) : ((cfg2.win 2).blk t).view.emb y = y :=
  eq_whole (idx_facts2 t).2.2.1 fun _ => rfl
theorem emb2_3 (y : S3x128x128.Idx) : ((cfg2.win 3).blk t).view.emb y = y :=
  eq_whole (idx_facts2 t).2.2.2.1 fun _ => rfl
theorem emb2_4 (y : S1x128.Idx) : ((cfg2.win 4).blk t).view.emb y = y :=
  eq_whole (idx_facts2 t).2.2.2.2.1 fun _ => rfl

def pt2 (i : S1024x4096.Idx) : Fin cfg2.N :=
  ⟨(i 0).val / 256, by have hN : cfg2.N = 4 := N_2; have h : (i 0).val < 1024 := (i 0).isLt; omega⟩

theorem cover2_5 (i : S1024x4096.Idx) :
    ∃ t : Fin cfg2.N, (cfg2.win 5).flush t = true ∧ i ∈ ((cfg2.win 5).blk t).view.set :=
  ⟨pt2 i, flush2_5 _, mem_slice_unit main_v49_0 (rows_mem i (idx_facts2 (pt2 i)).2.2.2.2.2.1)⟩
theorem cover2_6 (i : S1024x4096.Idx) :
    ∃ t : Fin cfg2.N, (cfg2.win 6).flush t = true ∧ i ∈ ((cfg2.win 6).blk t).view.set :=
  ⟨pt2 i, flush2_6 _, mem_slice_unit main_v49_1 (rows_mem i (idx_facts2 (pt2 i)).2.2.2.2.2.2.1)⟩
theorem cover2_7 (i : S1024x4096.Idx) :
    ∃ t : Fin cfg2.N, (cfg2.win 7).flush t = true ∧ i ∈ ((cfg2.win 7).blk t).view.set :=
  ⟨pt2 i, flush2_7 _, mem_slice_unit main_v49_2 (rows_mem i (idx_facts2 (pt2 i)).2.2.2.2.2.2.2.1)⟩

theorem rowsOff2 : k2_off1 (grid2.coords t) = ![256 * t.val, 0] := by
  rw [k2_off1_eq, (idx_facts2 t).2.2.2.2.2.2.2.2]

end Cert.KernelIdeal.Val.Gate2

end
-- ==== Proof.Reg2AuxPiece.lean ====
import proofs.«153073_g19885698580639_cont_8to1_2033_13_alg».proof.Proof.Gen.KernelIdeal.Frame
import proofs.«153073_g19885698580639_cont_8to1_2033_13_alg».proof.Proof.Reg2AuxPay
import Idealize.ShloMosaic.Lib.Pipeline.Value
import Idealize.ShloMosaic.Lib.Tactic

set_option maxRecDepth 16384

noncomputable section

namespace Cert.KernelIdeal.Val.Gate2

open Idealize.ShloMosaic Idealize.ShloMosaic.TcCoe Idealize.ShloMosaic.Tactic Idealize.SL.Sem
open Cert.KernelIdeal Cert.KernelIdeal.Gen Cert.KernelIdeal.Val.Gate2

variable {F : FTy → Type} [FloatOps F] (V : (c : Dev nD) → (b : Ref sig .tc) → Buf (Elt F) ((c : Thread nD τ).loc b))

theorem flushed2 (c : Dev nD) (t : Fin cfg2.N) :
    (dat2 V c).flushed 5 t = k2_pay5 (iblk2 V c 0 t) (iblk2 V c 1 t) (iblk2 V c 2 t)
    ∧ (dat2 V c).flushed 6 t = k2_pay2 (k2_pay6 (iblk2 V c 1 t)) (pre (k2_off1 (grid2.coords t)) (k2_off1_inb _) (iblk2 V c 0 t) (iblk2 V c 1 t) (iblk2 V c 2 t) (iblk2 V c 3 t)) (iblk2 V c 4 t)
    ∧ (dat2 V c).flushed 7 t = k2_pay3 (pre (k2_off1 (grid2.coords t)) (k2_off1_inb _) (iblk2 V c 0 t) (iblk2 V c 1 t) (iblk2 V c 2 t) (iblk2 V c 3 t)) (iblk2 V c 4 t) := by
  show (dat2 V c).after 5 t = _ ∧ (dat2 V c).after 6 t = _ ∧ (dat2 V c).after 7 t = _
  rw [after2_5, after2_6, after2_7]
  unfold outsAt2 out2_A_5 out2_A_6 out2_A_7
  dsimp only
  rw [View.read_writes_eq_canon _ _ _ (fun _ => cover2_A_5 ..), View.read_writes_eq_canon _ _ _ (fun _ => cover2_A_6 ..),
    View.read_writes_eq_canon _ _ _ (fun _ => cover2_A_7 ..)]
  unfold kernelRun2_A
  dsimp only
  sl_unfold_words
  simp only [View.canon_unit_zero (S := S256x4096) zero_off, View.readAt_eq_ld, (hs2_0 t).read_unread, (hs2_1 t).read_unread,
    (hs2_2 t).read_unread, (hs2_3 t).read_unread, (hs2_4 t).read_unread, View.ld_unit_zero (S := S256x1024) zero_off,
    View.ld_unit_zero (S := S256x4096) zero_off, View.ld_unit_zero (S := S1024x4096) zero_off,
    View.ld_unit_zero (S := S1x128) zero_off, and_self]

end Cert.KernelIdeal.Val.Gate2

end
-- ==== Proof.Reg2.lean ====
import proofs.«153073_g19885698580639_cont_8to1_2033_13_alg».proof.Proof.Gen.KernelIdeal.Frame
import proofs.«153073_g19885698580639_cont_8to1_2033_13_alg».proof.Proof.Reg2AuxPay
import proofs.«153073_g19885698580639_cont_8to1_2033_13_alg».proof.Proof.Reg2AuxGrid
import proofs.«153073_g19885698580639_cont_8to1_2033_13_alg».proof.Proof.Reg2AuxPiece

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen Cert.KernelIdeal.Val.Gate Cert.KernelIdeal.Val.Gate2
open DCGRU DCGRU.KL ValueIdx

variable (V : (c : Dev nD) → (b : Ref sig .tc) → Buf (Elt Ideal) ((c : Thread nD τ).loc b))

theorem reg2_y2 (c : Dev nD) :
    (dat2 (F := Ideal) V c).arrAt 5 cfg2.N = cheb2 (V c main_v0) (V c main_v6_0) (V c main_v48) :=
  (dat2 (F := Ideal) V c).arrAt_eq_of_cover 5 _ (fun t _ => by
    rw [(flushed2 V c t).1]
    exact cheb_block (emb2_0 t) (emb2_1 t) (emb2_2 t) rfl rfl rfl _ (emb2_5 t)) cover2_5

theorem reg2_s0 (c : Dev nD) :
    (dat2 (F := Ideal) V c).arrAt 6 cfg2.N
      = gateS0 (V c main_v0) (V c main_v6_0) (V c main_v48) (V c main_v15) (V c main_v44) :=
  (dat2 (F := Ideal) V c).arrAt_eq_of_cover 6 _ (fun t _ => by
    rw [(flushed2 V c t).2.1]
    refine reset_block (emb2_0 t) (emb2_1 t) (emb2_2 t) (emb2_3 t) (emb2_4 t) ?_ ?_ ?_ ?_ ?_ (rowsOff2 t) (fun _ => rfl) _ (emb2_6 t) <;> rfl) cover2_6

theorem reg2_g (c : Dev nD) :
    (dat2 (F := Ideal) V c).arrAt 7 cfg2.N
      = gateG (V c main_v0) (V c main_v6_0) (V c main_v48) (V c main_v15) (V c main_v44) :=
  (dat2 (F := Ideal) V c).arrAt_eq_of_cover 7 _ (fun t _ => by
    rw [(flushed2 V c t).2.2]
    refine gate_block (emb2_0 t) (emb2_1 t) (emb2_2 t) (emb2_3 t) (emb2_4 t) ?_ ?_ ?_ ?_ ?_ (rowsOff2 t) (fun _ => rfl) _ (emb2_7 t) <;> rfl) cover2_7

end Cert.KernelIdeal.Val

end
-- ==== Proof.Reg4AuxPayC.lean ====
import proofs.«153073_g19885698580639_cont_8to1_2033_13_alg».proof.Proof.Gen.KernelIdeal.Skeleton
import proofs.«153073_g19885698580639_cont_8to1_2033_13_alg».proof.Proof.KLayout
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

namespace Cert.KernelIdeal.Val.Cand4c

open Idealize.ShloMosaic
open Cert.KernelIdeal Cert.KernelIdeal.Gen
open DCGRU DCGRU.KL ValueIdx

abbrev row (n : Fin 256) (b : Fin 32) : Fin 8192 := ⟨32 * n.val + b.val, by have := n.isLt; have := b.isLt; omega⟩

theorem cast_rows {α : Type} (v : S256x4096.Idx → α) (h : S256x4096.ShapeCasts S8192x128) (n : Fin 256) (b : Fin 32)
    (c : Fin 128) : shapeCast S8192x128 v h (ix2 (row n b) c) = v (ix2 n (col b c)) := by
  refine shapeCast_apply v h _ _ ?_
  rw [Shape.rowMajor_val_two, Shape.rowMajor_val_two]
  show n.val * 4096 + (b.val * 128 + c.val) = (32 * n.val + b.val) * 128 + c.val
  omega

theorem cast_block {α : Type} (v : S8192x128.Idx → α) (h : S8192x128.ShapeCasts S256x4096) (n : Fin 256) (b : Fin 32)
    (c : Fin 128) : shapeCast S256x4096 v h (ix2 n (col b c)) = v (ix2 (row n b) c) := by
  refine shapeCast_apply v h _ _ ?_
  rw [Shape.rowMajor_val_two, Shape.rowMajor_val_two]
  show (32 * n.val + b.val) * 128 + c.val = n.val * 4096 + (b.val * 128 + c.val)
  omega

theorem hi_slice {α : Type} (v : S8192x128.Idx → α) (h : S8192x128.Slices ![0, 64] S8192x64) (r : Fin 8192) (j : Fin 64) :
    extractStridedSlice S8192x64 ![0, 64] v h (ix2 r j) = v (ix2 r (hi j)) := by
  refine extractStridedSlice_apply ![0, 64] v h (ix2 r j) (ix2 r (hi j)) fun a => ?_
  match a with
  | ⟨0, _⟩ => exact (Nat.zero_add _).symm
  | ⟨1, _⟩ => rfl

theorem bias_row {α : Type} (v : S1x64.Idx → α) (h : S1x64.Broadcasts S8192x64) (r : Fin 8192) (j : Fin 64) :
    broadcastTo S8192x64 v h (ix2 r j) = v (ix2 0 j) := by
  refine broadcastTo_apply v h (ix2 r j) (ix2 0 j) fun a => ?_
  match a with
  | ⟨0, _⟩ => rfl
  | ⟨1, _⟩ => rfl

theorem mm_at {m k n : Nat} {φ₁ φ₂ : FTy} (x : FVec Ideal ⟨2, ![m, k]⟩ φ₁) (y : FVec Ideal ⟨2, ![k, n]⟩ φ₂) (a : Fin m)
    (b : Fin n) :
    FloatOps.matmul (DotDims.plain m k n) none x y (constant (F := Ideal) ⟨2, ![m, n]⟩ .f32 0x00000000#32) (ix2 a b)
      = ∑ c : Fin k, x (ix2 a c) * y (ix2 c b) :=
  (Ideal.matmul_constant_zero_apply _ none x y _).trans
    ((Ideal.dotGeneral_apply _ none _ x y _).symm.trans (StackMember.dotGeneral_plain_apply none x y a b))

theorem diffuse_at (x : FVec Ideal S256x1024 .bf16) (y : FVec Ideal S1024x4096 .bf16) (p : Fin 256) (q : Fin 4096) :
    matmul dot_S256x1024_S1024x4096_S256x4096_1_0_0_1_n_n none x y (constant (F := Ideal) S256x4096 .f32 0x00000000#32) (ix2 p q)
      = ∑ m : Fin 1024, x (ix2 p m) * y (ix2 m q) :=
  mm_at x y p q

theorem rowDot_slab (x : FVec Ideal S8192x128 .bf16) (w : FVec Ideal S1x128x64 .bf16) (h : S1x128x64.ShapeCasts S128x64)
    (r : Fin 8192) (j : Fin 64) :
    matmul dot_S8192x128_S128x64_S8192x64_1_0_0_1_n_n none x (shapeCast S128x64 w h)
        (constant (F := Ideal) S8192x64 .f32 0x00000000#32) (ix2 r j)
      = ∑ c : Fin 128, x (ix2 r c) * w (ix3 0 c j) :=
  (mm_at x (shapeCast S128x64 w h) r j).trans
    (Finset.sum_congr rfl fun c _ => congrArg (x (ix2 r c) * ·) (shapeCast_1ab_ab_apply w h c j))

theorem tanh_at {s : Shape} {φ : FTy} (x : FVec Ideal s φ) (i : s.Idx) : tanh x i = Ideal.tanh (x i) := rfl

theorem k4_pay8_at (v0 : Vec Ideal S256x1024 .bf16) (v2 : Vec Ideal S256x4096 .bf16) (v8 : Vec Ideal S1024x4096 .bf16)
    (n : Fin 256) (b : Fin 32) (c : Fin 128) :
    k4_pay8 (F := Ideal) v0 v2 v8 (ix2 (row n b) c)
      = two * (∑ m : Fin 1024, v0 (ix2 n m) * v8 (ix2 m (col b c))) - v2 (ix2 n (col b c)) := by
  unfold k4_pay8 k4_pay3
  refine (cast_rows _ _ n b c).trans ?_
  simp only [truncf_apply, subf_apply, mulf_apply, broadcast_apply, extf_apply, shapeCast_self, Ideal.ofBits_def]
  rw [diffuse_at]

theorem k4_pay9_at (v15 v18 : Vec Ideal S256x4096 .bf16) (v28 v31 : Vec Ideal S1x128x64 .bf16)
    (n : Fin 256) (b : Fin 32) (j : Fin 64) :
    k4_pay9 (F := Ideal) v15 v18 v28 v31 (ix2 (row n b) j)
      = (∑ c : Fin 128, v15 (ix2 n (col b c)) * v28 (ix3 0 c j))
        + (∑ c : Fin 128, v18 (ix2 n (col b c)) * v31 (ix3 0 c j)) := by
  unfold k4_pay9 k4_pay4
  simp only [addf_apply, shapeCast_self]
  rw [rowDot_slab, rowDot_slab]
  simp only [cast_rows]

theorem k4_pay10_at (v17 v23 v24 v25 v27 : FVec Ideal S8192x128 .bf16) (v34 : FVec Ideal S8192x64 .f32)
    (v35 v39 v43 v47 : Vec Ideal S1x128x64 .bf16) (v51 : Vec Ideal S1x64 .f32) (v56 : Vec Ideal S256x4096 .bf16)
    (n : Fin 256) (b : Fin 32) (j : Fin 64) :
    k4_pay10 (F := Ideal) v17 v23 v24 v25 v27 v34 v35 v39 v43 v47 v51 v56 (ix2 (row n b) j)
      = v56 (ix2 n (col b (hi j))) * v17 (ix2 (row n b) (hi j))
        + (one - v56 (ix2 n (col b (hi j))))
          * Ideal.tanh
              (((((v34 (ix2 (row n b) j)
                    + ∑ c : Fin 128, v23 (ix2 (row n b) c) * v35 (ix3 0 c j))
                  + ∑ c : Fin 128, v24 (ix2 (row n b) c) * v39 (ix3 0 c j))
                + ∑ c : Fin 128, v25 (ix2 (row n b) c) * v43 (ix3 0 c j))
              + ∑ c : Fin 128, v27 (ix2 (row n b) c) * v47 (ix3 0 c j))
            + v51 (ix2 0 j)) := by
  unfold k4_pay10
  simp only [addf_apply, mulf_apply, subf_apply, broadcast_apply, extf_apply, tanh_at, shapeCast_self, Ideal.ofBits_def]
  rw [rowDot_slab, rowDot_slab, rowDot_slab, rowDot_slab, hi_slice, hi_slice, cast_rows, bias_row]

theorem cat_lo {α : Type} (x1 x2 : S8192x64.Idx → α) (h : Shape.Concatenates [S8192x64, S8192x64] S8192x128 1)
    (r : Fin 8192) (j : Fin 64) :
    concatenate S8192x128 1 [⟨S8192x64, x1⟩, ⟨S8192x64, x2⟩] h (ix2 r (lo j)) = x1 (ix2 r j) := by
  refine concatenate_pair_apply_left 1 x1 x2 h (ix2 r (lo j)) rfl (ix2 r j) fun a => ?_
  match a with
  | ⟨0, _⟩ => rfl
  | ⟨1, _⟩ => rfl

theorem cat_hi {α : Type} (x1 x2 : S8192x64.Idx → α) (h : Shape.Concatenates [S8192x64, S8192x64] S8192x128 1)
    (r : Fin 8192) (j : Fin 64) :
    concatenate S8192x128 1 [⟨S8192x64, x1⟩, ⟨S8192x64, x2⟩] h (ix2 r (hi j)) = x2 (ix2 r j) := by
  refine concatenate_pair_apply_right 1 x1 x2 h (ix2 r (hi j)) rfl rfl (ix2 r j) (fun a ha => ?_) ?_
  · match a with
    | ⟨0, _⟩ => rfl
    | ⟨1, _⟩ => exact absurd rfl ha
  · show j.val + 64 = 64 + j.val
    omega

theorem k4_pay1_lo (v70 : FVec Ideal S8192x128 .bf16) (v71 : FVec Ideal S8192x64 .bf16) (n : Fin 256) (b : Fin 32)
    (j : Fin 64) : k4_pay1 (F := Ideal) v70 v71 (ix2 n (col b (lo j))) = v71 (ix2 (row n b) j) :=
  (cast_block _ _ n b (lo j)).trans (cat_lo _ _ _ _ j)

theorem k4_pay1_hi (v70 : FVec Ideal S8192x128 .bf16) (v71 : FVec Ideal S8192x64 .bf16) (n : Fin 256) (b : Fin 32)
    (j : Fin 64) : k4_pay1 (F := Ideal) v70 v71 (ix2 n (col b (hi j))) = v70 (ix2 (row n b) (hi j)) :=
  (cast_block _ _ n b (hi j)).trans ((cat_hi _ _ _ _ j).trans (hi_slice v70 _ _ j))

theorem cast_pairs {α : Type} (v : S8192x64.Idx → α) (h : S8192x64.ShapeCasts S128x2x32x64) (p : Fin 128) (s : Fin 2)
    (b : Fin 32) (j : Fin 64) :
    shapeCast S128x2x32x64 v h (ix4 p s b j)
      = v (ix2 ⟨32 * (2 * p.val + s.val) + b.val, by have := p.isLt; have := s.isLt; have := b.isLt; omega⟩ j) := by
  refine shapeCast_apply v h _ _ ?_
  rw [Shape.rowMajor_val_two, Shape.rowMajor_val_four]
  show (32 * (2 * p.val + s.val) + b.val) * 64 + j.val = ((p.val * 2 + s.val) * 32 + b.val) * 64 + j.val
  omega

theorem pick_node {α : Type} (o : Nat) (v : S128x2x32x64.Idx → α) (h1 : S128x2x32x64.Slices ![0, o, 0, 0] S128x1x32x64)
    (h2 : S128x1x32x64.ShapeCasts S128x32x64) (s : Fin 2) (hs : s.val = o) (p : Fin 128) (b : Fin 32) (j : Fin 64) :
    shapeCast S128x32x64 (extractStridedSlice S128x1x32x64 ![0, o, 0, 0] v h1) h2 (ix3 p b j) = v (ix4 p s b j) := by
  refine (shapeCast_apply _ h2 (ix3 p b j) (ix4 p (0 : Fin 1) b j) ?_).trans ?_
  · rw [Shape.rowMajor_val_four, Shape.rowMajor_val_three]
    show ((p.val * 1 + 0) * 32 + b.val) * 64 + j.val = (p.val * 32 + b.val) * 64 + j.val
    omega
  · exact slice4_axis1_apply o v h1 p (0 : Fin 1) b j s (by show s.val = o + 0; omega)

theorem cat3_lo {α : Type} (x1 x2 : S128x32x64.Idx → α) (h : Shape.Concatenates [S128x32x64, S128x32x64] S128x32x128 2)
    (p : Fin 128) (b : Fin 32) (j : Fin 64) :
    concatenate S128x32x128 2 [⟨S128x32x64, x1⟩, ⟨S128x32x64, x2⟩] h (ix3 p b (lo j)) = x1 (ix3 p b j) := by
  refine concatenate_pair_apply_left 2 x1 x2 h (ix3 p b (lo j)) rfl (ix3 p b j) fun a => ?_
  match a with
  | ⟨0, _⟩ => rfl
  | ⟨1, _⟩ => rfl
  | ⟨2, _⟩ => rfl

theorem cat3_hi {α : Type} (x1 x2 : S128x32x64.Idx → α) (h : Shape.Concatenates [S128x32x64, S128x32x64] S128x32x128 2)
    (p : Fin 128) (b : Fin 32) (j : Fin 64) :
    concatenate S128x32x128 2 [⟨S128x32x64, x1⟩, ⟨S128x32x64, x2⟩] h (ix3 p b (hi j)) = x2 (ix3 p b j) := by
  refine concatenate_pair_apply_right 2 x1 x2 h (ix3 p b (hi j)) rfl rfl (ix3 p b j) (fun a ha => ?_) ?_
  · match a with
    | ⟨0, _⟩ => rfl
    | ⟨1, _⟩ => rfl
    | ⟨2, _⟩ => exact absurd rfl ha
  · show j.val + 64 = 64 + j.val
    omega

theorem swap_front {α : Type} (x : S128x32x128.Idx → α) (h : S128x32x128.Transposes [1, 0, 2] S32x128x128) (b : Fin 32)
    (p : Fin 128) (l : Fin 128) : transpose S32x128x128 [1, 0, 2] x h (ix3 b p l) = x (ix3 p b l) :=
  transpose_apply _ x h _ _ fun c => match c with | ⟨0, _⟩ => rfl | ⟨1, _⟩ => rfl | ⟨2, _⟩ => rfl

theorem flat_row {α : Type} (x : S32x128x128.Idx → α) (h : S32x128x128.ShapeCasts S32x16384) (b : Fin 32) (p : Fin 128)
    (l : Fin 128) :
    shapeCast S32x16384 x h (ix2 b ⟨128 * p.val + l.val, by have := p.isLt; have := l.isLt; omega⟩) = x (ix3 b p l) := by
  refine shapeCast_apply x h _ _ ?_
  rw [Shape.rowMajor_val_two, Shape.rowMajor_val_three]
  show (b.val * 128 + p.val) * 128 + l.val = b.val * 16384 + (128 * p.val + l.val)
  omega

theorem k4_pay2_even (v67 : FVec Ideal S8192x64 .f32) (b : Fin 32) (p : Fin 128) (j : Fin 64) :
    k4_pay2 (F := Ideal) v67 (ix2 b ⟨128 * p.val + j.val, by have := p.isLt; have := j.isLt; omega⟩)
      = v67 (ix2 ⟨32 * (2 * p.val) + b.val, by have := p.isLt; have := b.isLt; omega⟩ j) :=
  (flat_row _ _ b p (lo j)).trans ((swap_front _ _ b p (lo j)).trans ((cat3_lo _ _ _ p b j).trans
    ((pick_node 0 _ _ _ (0 : Fin 2) rfl p b j).trans (cast_pairs v67 _ p 0 b j))))

theorem k4_pay2_odd (v67 : FVec Ideal S8192x64 .f32) (b : Fin 32) (p : Fin 128) (j : Fin 64) :
    k4_pay2 (F := Ideal) v67 (ix2 b ⟨128 * p.val + (64 + j.val), by have := p.isLt; have := j.isLt; omega⟩)
      = v67 (ix2 ⟨32 * (2 * p.val + 1) + b.val, by have := p.isLt; have := b.isLt; omega⟩ j) :=
  (flat_row _ _ b p (hi j)).trans ((swap_front _ _ b p (hi j)).trans ((cat3_hi _ _ _ p b j).trans
    ((pick_node 1 _ _ _ (1 : Fin 2) rfl p b j).trans (cast_pairs v67 _ p 1 b j))))

theorem pay2_of (v67 : FVec Ideal S8192x64 .f32) (b : Fin 32) {q q' : Fin 16384} {r r' : Fin 8192} {j j' : Fin 64}
    (hq : q.val = q'.val) (hr : r.val = r'.val) (hj : j.val = j'.val)
    (e : k4_pay2 (F := Ideal) v67 (ix2 b q) = v67 (ix2 r j)) : k4_pay2 (F := Ideal) v67 (ix2 b q') = v67 (ix2 r' j') := by
  obtain rfl := Fin.ext hq
  obtain rfl := Fin.ext hr
  obtain rfl := Fin.ext hj
  exact e

theorem k4_pay2_col (v67 : FVec Ideal S8192x64 .f32) (b : Fin 32) (q : Fin 16384) :
    k4_pay2 (F := Ideal) v67 (ix2 b q)
      = v67 (ix2 ⟨32 * (q.val / 64) + b.val, by have := q.isLt; have := b.isLt; omega⟩ ⟨q.val % 64, Nat.mod_lt _ (by decide)⟩) := by
  have hq := q.isLt
  by_cases h : q.val % 128 < 64
  · exact pay2_of v67 b (by show 128 * (q.val / 128) + q.val % 128 = q.val; omega)
      (by show 32 * (2 * (q.val / 128)) + b.val = 32 * (q.val / 64) + b.val; omega)
      (by show q.val % 128 = q.val % 64; omega) (k4_pay2_even v67 b ⟨q.val / 128, by omega⟩ ⟨q.val % 128, h⟩)
  · exact pay2_of v67 b (by show 128 * (q.val / 128) + (64 + (q.val % 128 - 64)) = q.val; omega)
      (by show 32 * (2 * (q.val / 128) + 1) + b.val = 32 * (q.val / 64) + b.val; omega)
      (by show q.val % 128 - 64 = q.val % 64; omega)
      (k4_pay2_odd v67 b ⟨q.val / 128, by omega⟩ ⟨q.val % 128 - 64, by omega⟩)

end Cert.KernelIdeal.Val.Cand4c

end
-- ==== Proof.Reg4AuxCover.lean ====
import proofs.«153073_g19885698580639_cont_8to1_2033_13_alg».proof.Proof.Gen.KernelIdeal.Points
import proofs.«153073_g19885698580639_cont_8to1_2033_13_alg».proof.Proof.Gen.KernelIdeal.Launch
import Idealize.ShloMosaic.Lib.Pipeline.Value
import Idealize.ShloMosaic.Lib.ValueIdx

noncomputable section

namespace Cert.KernelIdeal.Val.Cand4

open Idealize.ShloMosaic Idealize.ShloMosaic.TcCoe Idealize.SL.Sem
open Idealize.ShloMosaic.Pipeline (Dat Cfg Window)
open Cert.KernelIdeal Cert.KernelIdeal.Gen ValueIdx

def pt (t : Fin cfg4.N) : Fin 4 := ⟨t.val, by have h : t.val < cfg4.N := t.isLt; have hN : cfg4.N = 4 := N_4; omega⟩
def glob (t : Fin 4) (n : Fin 256) : Fin 1024 := ⟨256 * t.val + n.val, by have := t.isLt; have := n.isLt; omega⟩
def gcol (t : Fin 4) (q : Fin 16384) : Fin 65536 := ⟨16384 * t.val + q.val, by have := t.isLt; have := q.isLt; omega⟩

theorem iwA : ∀ t : Fin cfg4.N, win4_0.index t (0 : Fin 2) = t.val ∧ win4_0.index t (1 : Fin 2) = 0 :=
  (by decide +kernel : ∀ t : Fin grid4.N, _)
theorem iwRow : ∀ t : Fin cfg4.N, win4_1.index t (0 : Fin 2) = t.val ∧ win4_1.index t (1 : Fin 2) = 0 :=
  (by decide +kernel : ∀ t : Fin grid4.N, _)
theorem iwS : ∀ t : Fin cfg4.N, win4_5.index t (0 : Fin 2) = 0 ∧ win4_5.index t (1 : Fin 2) = 0 :=
  (by decide +kernel : ∀ t : Fin grid4.N, _)
theorem iwW : ∀ t : Fin cfg4.N, win4_8.index t (0 : Fin 3) = 0 ∧ win4_8.index t (1 : Fin 3) = 0 ∧ win4_8.index t (2 : Fin 3) = 0 :=
  (by decide +kernel : ∀ t : Fin grid4.N, _)
theorem iwB : ∀ t : Fin cfg4.N, win4_10.index t (0 : Fin 2) = 0 ∧ win4_10.index t (1 : Fin 2) = 0 :=
  (by decide +kernel : ∀ t : Fin grid4.N, _)
theorem iwO : ∀ t : Fin cfg4.N, win4_12.index t (0 : Fin 2) = 0 ∧ win4_12.index t (1 : Fin 2) = t.val :=
  (by decide +kernel : ∀ t : Fin grid4.N, _)
theorem icoord : ∀ t : Fin cfg4.N, (grid4.coords t 0).val = t.val := (by decide +kernel : ∀ t : Fin grid4.N, _)

theorem embA (t : Fin cfg4.N) (n : Fin 256) (q : Fin 1024) :
    ((cfg4.win 0).blk t).view.emb (ix2 n q) = ix2 (glob (pt t) n) q := by
  refine funext fun a => Fin.ext ?_
  match a with
  | ⟨0, _⟩ => show win4_0.index t (0 : Fin 2) * 256 + 1 * n.val = 256 * t.val + n.val; rw [(iwA t).1]; omega
  | ⟨1, _⟩ => show win4_0.index t (1 : Fin 2) * 1024 + 1 * q.val = q.val; rw [(iwA t).2]; omega

theorem embRow (t : Fin cfg4.N) (n : Fin 256) (q : Fin 4096) :
    ((cfg4.win 1).blk t).view.emb (ix2 n q) = ix2 (glob (pt t) n) q := by
  refine funext fun a => Fin.ext ?_
  match a with
  | ⟨0, _⟩ => show win4_1.index t (0 : Fin 2) * 256 + 1 * n.val = 256 * t.val + n.val; rw [(iwRow t).1]; omega
  | ⟨1, _⟩ => show win4_1.index t (1 : Fin 2) * 4096 + 1 * q.val = q.val; rw [(iwRow t).2]; omega

theorem embS (t : Fin cfg4.N) (n : Fin 1024) (q : Fin 4096) : ((cfg4.win 5).blk t).view.emb (ix2 n q) = ix2 n q := by
  refine funext fun a => Fin.ext ?_
  match a with
  | ⟨0, _⟩ => show win4_5.index t (0 : Fin 2) * 1024 + 1 * n.val = n.val; rw [(iwS t).1]; omega
  | ⟨1, _⟩ => show win4_5.index t (1 : Fin 2) * 4096 + 1 * q.val = q.val; rw [(iwS t).2]; omega

theorem embW (t : Fin cfg4.N) (k : Fin 3) (ch : Fin 128) (j : Fin 64) :
    ((cfg4.win 8).blk t).view.emb (ix3 k ch j) = ix3 k ch j := by
  refine funext fun a => Fin.ext ?_
  match a with
  | ⟨0, _⟩ => show win4_8.index t (0 : Fin 3) * 3 + 1 * k.val = k.val; rw [(iwW t).1]; omega
  | ⟨1, _⟩ => show win4_8.index t (1 : Fin 3) * 128 + 1 * ch.val = ch.val; rw [(iwW t).2.1]; omega
  | ⟨2, _⟩ => show win4_8.index t (2 : Fin 3) * 64 + 1 * j.val = j.val; rw [(iwW t).2.2]; omega

theorem embB (t : Fin cfg4.N) (n : Fin 1) (q : Fin 64) : ((cfg4.win 10).blk t).view.emb (ix2 n q) = ix2 n q := by
  refine funext fun a => Fin.ext ?_
  match a with
  | ⟨0, _⟩ => show win4_10.index t (0 : Fin 2) * 1 + 1 * n.val = n.val; rw [(iwB t).1]; omega
  | ⟨1, _⟩ => show win4_10.index t (1 : Fin 2) * 64 + 1 * q.val = q.val; rw [(iwB t).2]; omega

theorem embO (t : Fin cfg4.N) (b : Fin 32) (q : Fin 16384) :
    ((cfg4.win 12).blk t).view.emb (ix2 b q) = ix2 b (gcol (pt t) q) := by
  refine funext fun a => Fin.ext ?_
  match a with
  | ⟨0, _⟩ => show win4_12.index t (0 : Fin 2) * 32 + 1 * b.val = b.val; rw [(iwO t).1]; omega
  | ⟨1, _⟩ => show win4_12.index t (1 : Fin 2) * 16384 + 1 * q.val = 16384 * t.val + q.val; rw [(iwO t).2]; omega

theorem coverY (i : S1024x4096.Idx) : ∃ t : Fin cfg4.N, (cfg4.win 11).flush t = true ∧ i ∈ ((cfg4.win 11).blk t).view.set := by
  have hi0 : (i 0).val < 1024 := (i 0).isLt
  have hi1 : (i 1).val < 4096 := (i 1).isLt
  have hN : cfg4.N = 4 := N_4
  let t : Fin cfg4.N := ⟨(i 0).val / 256, by rw [hN]; omega⟩
  refine ⟨t, flush4_11 _, ?_⟩
  show i ∈ ((View.whole main_v51_0).slice (win4_1.rect t)).set
  rw [View.set_slice_whole, Rect.mem_set_unit]
  intro a
  match a with
  | ⟨0, _⟩ =>
    show win4_1.index t (0 : Fin 2) * 256 ≤ (i 0).val ∧ (i 0).val < win4_1.index t (0 : Fin 2) * 256 + 256
    rw [(iwRow _).1]; show (i 0).val / 256 * 256 ≤ (i 0).val ∧ (i 0).val < (i 0).val / 256 * 256 + 256; omega
  | ⟨1, _⟩ =>
    show win4_1.index t (1 : Fin 2) * 4096 ≤ (i 1).val ∧ (i 1).val < win4_1.index t (1 : Fin 2) * 4096 + 4096
    rw [(iwRow _).2]; omega

theorem coverO (i : S32x65536.Idx) : ∃ t : Fin cfg4.N, (cfg4.win 12).flush t = true ∧ i ∈ ((cfg4.win 12).blk t).view.set := by
  have hi0 : (i 0).val < 32 := (i 0).isLt
  have hi1 : (i 1).val < 65536 := (i 1).isLt
  have hN : cfg4.N = 4 := N_4
  let t : Fin cfg4.N := ⟨(i 1).val / 16384, by rw [hN]; omega⟩
  refine ⟨t, flush4_12 _, ?_⟩
  show i ∈ ((View.whole main_v51_1).slice (win4_12.rect t)).set
  rw [View.set_slice_whole, Rect.mem_set_unit]
  intro a
  match a with
  | ⟨0, _⟩ =>
    show win4_12.index t (0 : Fin 2) * 32 ≤ (i 0).val ∧ (i 0).val < win4_12.index t (0 : Fin 2) * 32 + 32
    rw [(iwO _).1]; omega
  | ⟨1, _⟩ =>
    show win4_12.index t (1 : Fin 2) * 16384 ≤ (i 1).val ∧ (i 1).val < win4_12.index t (1 : Fin 2) * 16384 + 16384
    rw [(iwO _).2]; show (i 1).val / 16384 * 16384 ≤ (i 1).val ∧ (i 1).val < (i 1).val / 16384 * 16384 + 16384; omega

end Cert.KernelIdeal.Val.Cand4

end
-- ==== Proof.Reg4AuxPay.lean ====
import proofs.«153073_g19885698580639_cont_8to1_2033_13_alg».proof.Proof.Reg4AuxPayC
import proofs.«153073_g19885698580639_cont_8to1_2033_13_alg».proof.Proof.Reg4AuxCover

noncomputable section

namespace Cert.KernelIdeal.Val.Cand4

open Idealize.ShloMosaic Idealize.SL.Sem
open Cert.KernelIdeal Cert.KernelIdeal.Gen
open DCGRU DCGRU.KL ValueIdx Cand4c

theorem pay4_at (v : Vec Ideal S256x4096 .bf16) (n : Fin 256) (b : Fin 32) (c : Fin 128) :
    k4_pay4 (F := Ideal) v (ix2 (row n b) c) = v (ix2 n (col b c)) := by
  unfold k4_pay4; simp only [shapeCast_self]; exact cast_rows _ _ n b c
theorem pay5_eq : k4_pay5 (F := Ideal) = k4_pay4 := rfl
theorem pay6_eq : k4_pay6 (F := Ideal) = k4_pay4 := rfl
theorem pay7_eq : k4_pay7 (F := Ideal) = k4_pay4 := rfl
theorem pay11_eq : k4_pay11 (F := Ideal) = k4_pay4 := rfl

variable (t : Fin 4) {a : SA.Idx → EReal} {y0 y1 y2 s0 s1 g : SY.Idx → EReal} {wcx wcs : SWc.Idx → EReal} {bc : SBc.Idx → EReal}

theorem hn_at {x0 : Vec Ideal S256x1024 .bf16} {x1 x2 x3 x4 x5r x6 : Vec Ideal S256x4096 .bf16} {x5 : Vec Ideal S1024x4096 .bf16}
    {w0 w1 w2 u0 u1 u2 : Vec Ideal S1x128x64 .bf16} {x10 : Vec Ideal S1x64 .f32}
    (h0 : ∀ (n : Fin 256) (m : Fin 1024), x0 (ix2 n m) = a (ix2 (glob t n) m))
    (h1 : ∀ (n : Fin 256) (q : Fin 4096), x1 (ix2 n q) = y0 (ix2 (glob t n) q))
    (h2 : ∀ (n : Fin 256) (q : Fin 4096), x2 (ix2 n q) = y1 (ix2 (glob t n) q))
    (h3 : ∀ (n : Fin 256) (q : Fin 4096), x3 (ix2 n q) = y2 (ix2 (glob t n) q))
    (h4 : ∀ (n : Fin 256) (q : Fin 4096), x4 (ix2 n q) = s0 (ix2 (glob t n) q))
    (h5r : ∀ (n : Fin 256) (q : Fin 4096), x5r (ix2 n q) = s1 (ix2 (glob t n) q))
    (h5 : ∀ (m : Fin 1024) (q : Fin 4096), x5 (ix2 m q) = s1 (ix2 m q))
    (h6 : ∀ (n : Fin 256) (q : Fin 4096), x6 (ix2 n q) = g (ix2 (glob t n) q))
    (hw0 : ∀ (c : Fin 128) (j : Fin 64), w0 (ix3 0 c j) = wcx (ix3 0 c j))
    (hw1 : ∀ (c : Fin 128) (j : Fin 64), w1 (ix3 0 c j) = wcx (ix3 1 c j))
    (hw2 : ∀ (c : Fin 128) (j : Fin 64), w2 (ix3 0 c j) = wcx (ix3 2 c j))
    (hu0 : ∀ (c : Fin 128) (j : Fin 64), u0 (ix3 0 c j) = wcs (ix3 0 c j))
    (hu1 : ∀ (c : Fin 128) (j : Fin 64), u1 (ix3 0 c j) = wcs (ix3 1 c j))
    (hu2 : ∀ (c : Fin 128) (j : Fin 64), u2 (ix3 0 c j) = wcs (ix3 2 c j))
    (h10 : ∀ j : Fin 64, x10 (ix2 0 j) = bc (ix2 0 j))
    (n : Fin 256) (b : Fin 32) (j : Fin 64) :
    k4_pay10 (F := Ideal) (k4_pay4 x1) (k4_pay5 x3) (k4_pay6 x4) (k4_pay7 x5r) (k4_pay8 x0 x4 x5) (k4_pay9 x1 x2 w0 w1) w2 u0 u1 u2 x10 x6 (ix2 (row n b) j)
      = candHn a y0 y1 y2 s0 s1 g wcx wcs bc (glob t n) b j := by
  refine (k4_pay10_at _ _ _ _ _ _ _ _ _ _ _ _ n b j).trans ?_
  rw [k4_pay9_at]
  simp only [pay5_eq, pay6_eq, pay7_eq, pay4_at, k4_pay8_at]
  simp only [h0, h1, h2, h3, h4, h5r, h5, h6, hw0, hw1, hw2, hu0, hu1, hu2, h10]
  rfl

theorem y_of_hn (hn : FVec Ideal S8192x64 .bf16)
    (H : ∀ (n : Fin 256) (b : Fin 32) (j : Fin 64), hn (ix2 (row n b) j) = candHn a y0 y1 y2 s0 s1 g wcx wcs bc (glob t n) b j)
    {x7 : Vec Ideal S256x4096 .bf16} {h1p : SY.Idx → EReal}
    (h7 : ∀ (n : Fin 256) (q : Fin 4096), x7 (ix2 n q) = h1p (ix2 (glob t n) q)) (n : Fin 256) (q : Fin 4096) :
    k4_pay1 (F := Ideal) (k4_pay11 x7) hn (ix2 n q) = candY a y0 y1 y2 s0 s1 g h1p wcx wcs bc (ix2 (glob t n) q) := by
  show _ = (if h : q.val % 128 < 64 then candHn a y0 y1 y2 s0 s1 g wcx wcs bc (glob t n) (qb q) ⟨q.val % 128, h⟩
    else h1p (ix2 (glob t n) q))
  have hlt : q.val % 128 < 128 := Nat.mod_lt _ (by decide)
  by_cases h : q.val % 128 < 64
  · rw [dif_pos h]
    have hq : col (qb q) (lo ⟨q.val % 128, h⟩) = q := (congrArg (col (qb q)) (Fin.ext rfl)).trans (col_qb_qc q)
    exact (congrArg (fun q' => k4_pay1 (F := Ideal) (k4_pay11 x7) hn (ix2 n q')) hq).symm.trans
      ((k4_pay1_lo _ _ n (qb q) ⟨q.val % 128, h⟩).trans (H n (qb q) ⟨q.val % 128, h⟩))
  · rw [dif_neg h]
    have hq : col (qb q) (hi ⟨q.val % 128 - 64, by omega⟩) = q :=
      (congrArg (col (qb q)) (Fin.ext (by show 64 + (q.val % 128 - 64) = q.val % 128; omega))).trans (col_qb_qc q)
    refine (congrArg (fun q' => k4_pay1 (F := Ideal) (k4_pay11 x7) hn (ix2 n q')) hq).symm.trans
      ((k4_pay1_hi _ _ n (qb q) ⟨q.val % 128 - 64, by omega⟩).trans ((pay4_at x7 n (qb q) _).trans ?_))
    rw [hq]
    exact h7 n q

theorem out_of_hn (hn : FVec Ideal S8192x64 .f32)
    (H : ∀ (n : Fin 256) (b : Fin 32) (j : Fin 64), hn (ix2 (row n b) j) = candHn a y0 y1 y2 s0 s1 g wcx wcs bc (glob t n) b j)
    (b : Fin 32) (q : Fin 16384) :
    k4_pay2 (F := Ideal) hn (ix2 b q) = candOut a y0 y1 y2 s0 s1 g wcx wcs bc (ix2 b (gcol t q)) := by
  have hq := q.isLt
  have ht := t.isLt
  refine (k4_pay2_col _ b q).trans ((H ⟨q.val / 64, by omega⟩ b ⟨q.val % 64, Nat.mod_lt _ (by decide)⟩).trans ?_)
  show candHn a y0 y1 y2 s0 s1 g wcx wcs bc (glob t ⟨q.val / 64, by omega⟩) b ⟨q.val % 64, Nat.mod_lt _ (by decide)⟩
    = candHn a y0 y1 y2 s0 s1 g wcx wcs bc ⟨(16384 * t.val + q.val) / 64, by omega⟩ b ⟨(16384 * t.val + q.val) % 64, Nat.mod_lt _ (by decide)⟩
  have e1 : glob t ⟨q.val / 64, by omega⟩ = ⟨(16384 * t.val + q.val) / 64, by omega⟩ :=
    Fin.ext (by show 256 * t.val + q.val / 64 = (16384 * t.val + q.val) / 64; omega)
  have e2 : (⟨q.val % 64, Nat.mod_lt _ (by decide)⟩ : Fin 64) = ⟨(16384 * t.val + q.val) % 64, Nat.mod_lt _ (by decide)⟩ :=
    Fin.ext (by show q.val % 64 = (16384 * t.val + q.val) % 64; omega)
  rw [e1, e2]

end Cert.KernelIdeal.Val.Cand4

end
-- ==== Proof.Reg4AuxPiece.lean ====
import proofs.«153073_g19885698580639_cont_8to1_2033_13_alg».proof.Proof.Gen.KernelIdeal.Frame
import proofs.«153073_g19885698580639_cont_8to1_2033_13_alg».proof.Proof.Reg4AuxPay

noncomputable section

namespace Cert.KernelIdeal.Val.Cand4

open Idealize.ShloMosaic Idealize.ShloMosaic.TcCoe Idealize.ShloMosaic.Tactic Idealize.SL.Sem
open Idealize.ShloMosaic.Pipeline (Dat Cfg Window)
open Cert.KernelIdeal Cert.KernelIdeal.Gen
open DCGRU DCGRU.KL ValueIdx

variable {F : FTy → Type} [FloatOps F]

theorem hz2 : (![0, 0] : Fin 2 → Nat) = fun _ => 0 := funext fun a => by fin_cases a <;> rfl

abbrev rRows (i : grid4.Coords) : Rect S1024x4096 := Rect.unit (s := S1024x4096) (k4_off1 i) S256x4096.size (k4_off1_inb i)
abbrev rSlab0 : Rect S3x128x64 := Rect.unit (s := S3x128x64) ![0, 0, 0] S1x128x64.size inb_S3x128x64_S1x128x64_0_0_0
abbrev rSlab1 : Rect S3x128x64 := Rect.unit (s := S3x128x64) ![1, 0, 0] S1x128x64.size inb_S3x128x64_S1x128x64_1_0_0
abbrev rSlab2 : Rect S3x128x64 := Rect.unit (s := S3x128x64) ![2, 0, 0] S1x128x64.size inb_S3x128x64_S1x128x64_2_0_0

abbrev hnOf (i : grid4.Coords) (x0 : Vec F S256x1024 .bf16) (x1 x2 x3 x4 : Vec F S256x4096 .bf16) (x5 : Vec F S1024x4096 .bf16)
    (x6 : Vec F S256x4096 .bf16) (x8 x9 : Vec F S3x128x64 .bf16) (x10 : Vec F S1x64 .f32) : FVec F S8192x64 .f32 :=
  k4_pay10 (k4_pay4 x1) (k4_pay5 x3) (k4_pay6 x4) (k4_pay7 (View.ld x5 (rRows i))) (k4_pay8 x0 x4 x5)
    (k4_pay9 x1 x2 (View.ld x8 rSlab0) (View.ld x8 rSlab1)) (View.ld x8 rSlab2) (View.ld x9 rSlab0) (View.ld x9 rSlab1)
    (View.ld x9 rSlab2) x10 x6

variable {c : Dev nD} {i : grid4.Coords}
  {arg1 : Memref sig .tc .vmem S256x1024 .bf16} {harg1 : arg1.IsWhole}
  {arg2 : Memref sig .tc .vmem S256x4096 .bf16} {harg2 : arg2.IsWhole}
  {arg3 : Memref sig .tc .vmem S256x4096 .bf16} {harg3 : arg3.IsWhole}
  {arg4 : Memref sig .tc .vmem S256x4096 .bf16} {harg4 : arg4.IsWhole}
  {arg5 : Memref sig .tc .vmem S256x4096 .bf16} {harg5 : arg5.IsWhole}
  {arg6 : Memref sig .tc .vmem S1024x4096 .bf16} {harg6 : arg6.IsWhole}
  {arg7 : Memref sig .tc .vmem S256x4096 .bf16} {harg7 : arg7.IsWhole}
  {arg8 : Memref sig .tc .vmem S256x4096 .bf16} {harg8 : arg8.IsWhole}
  {arg9 : Memref sig .tc .vmem S3x128x64 .bf16} {harg9 : arg9.IsWhole}
  {arg10 : Memref sig .tc .vmem S3x128x64 .bf16} {harg10 : arg10.IsWhole}
  {arg11 : Memref sig .tc .vmem S1x64 .f32} {harg11 : arg11.IsWhole}
  {arg12 : Memref sig .tc .vmem S256x4096 .bf16} {harg12 : arg12.IsWhole}
  {arg13 : Memref sig .tc .vmem S32x16384 .f32} {harg13 : arg13.IsWhole}
  {x0 : Vec F S256x1024 .bf16} {x1 x2 x3 x4 : Vec F S256x4096 .bf16} {x5 : Vec F S1024x4096 .bf16} {x6 x7 : Vec F S256x4096 .bf16}
  {x8 x9 : Vec F S3x128x64 .bf16} {x10 : Vec F S1x64 .f32}

theorem piece11 :
    out4_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10
      = k4_pay1 (k4_pay11 x7) (truncf .bf16 (hnOf i x0 x1 x2 x3 x4 x5 x6 x8 x9 x10) bitsLt_bf16_f32) := by
  unfold out4_A_11
  rw [View.read_writes_eq_canon _ _ _ (cover4_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10)]
  unfold kernelRun4_A
  dsimp only
  sl_unfold_words
  rw [View.canon_unit_zero hz2]
  simp only [View.readAt_eq_ld, harg1.read_unread, harg2.read_unread, harg3.read_unread, harg4.read_unread, harg5.read_unread,
    harg6.read_unread, harg7.read_unread, harg8.read_unread, harg9.read_unread, harg10.read_unread, harg11.read_unread,
    View.ld_unit_zero (S := S256x1024) hz2, View.ld_unit_zero (S := S256x4096) hz2, View.ld_unit_zero (S := S1024x4096) hz2,
    View.ld_unit_zero (S := S1x64) hz2]
  rfl

theorem piece12 :
    out4_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 = k4_pay2 (hnOf i x0 x1 x2 x3 x4 x5 x6 x8 x9 x10) := by
  unfold out4_A_12
  rw [View.read_writes_eq_canon _ _ _ (cover4_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10)]
  unfold kernelRun4_A
  dsimp only
  sl_unfold_words
  rw [View.canon_unit_zero hz2]
  simp only [View.readAt_eq_ld, harg1.read_unread, harg2.read_unread, harg3.read_unread, harg4.read_unread, harg5.read_unread,
    harg6.read_unread, harg7.read_unread, harg8.read_unread, harg9.read_unread, harg10.read_unread, harg11.read_unread,
    View.ld_unit_zero (S := S256x1024) hz2, View.ld_unit_zero (S := S256x4096) hz2, View.ld_unit_zero (S := S1024x4096) hz2,
    View.ld_unit_zero (S := S1x64) hz2]
  rfl

theorem piece12' :
    out8_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 = k4_pay2 (hnOf i x0 x1 x2 x3 x4 x5 x6 x8 x9 x10) := by
  unfold out8_A_12
  rw [View.read_writes_eq_canon _ _ _ (cover8_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10)]
  unfold kernelRun8_A
  dsimp only
  sl_unfold_words
  rw [View.canon_unit_zero hz2]
  simp only [View.readAt_eq_ld, harg1.read_unread, harg2.read_unread, harg3.read_unread, harg4.read_unread, harg5.read_unread,
    harg6.read_unread, harg7.read_unread, harg8.read_unread, harg9.read_unread, harg10.read_unread, harg11.read_unread,
    View.ld_unit_zero (S := S256x1024) hz2, View.ld_unit_zero (S := S256x4096) hz2, View.ld_unit_zero (S := S1024x4096) hz2,
    View.ld_unit_zero (S := S1x64) hz2]
  rfl

theorem ld_rows (X : Vec Ideal S1024x4096 .bf16) (i : grid4.Coords) (t : Fin 4) (ht : (i 0).val = t.val) (n : Fin 256) (q : Fin 4096) :
    View.ld (Val := Elt Ideal) (e' := .bf16) X (rRows i) (ix2 n q) = X (ix2 (glob t n) q) := by
  show X ((rRows i).emb (ix2 n q)) = X (ix2 (glob t n) q)
  refine congrArg X (funext fun a => Fin.ext ?_)
  have e := k4_off1_eq i
  match a with
  | ⟨0, _⟩ =>
    show k4_off1 i 0 + 1 * n.val = 256 * t.val + n.val
    rw [e]; show 256 * (i 0).val + 1 * n.val = 256 * t.val + n.val; omega
  | ⟨1, _⟩ =>
    show k4_off1 i 1 + 1 * q.val = q.val
    rw [e]; show 0 + 1 * q.val = q.val; omega

theorem ld_slab (o : Nat) (h) (W : Vec Ideal S3x128x64 .bf16) (k : Fin 3) (hk : k.val = o) (z : Fin 1) (ch : Fin 128) (j : Fin 64) :
    View.ld (Val := Elt Ideal) (e' := .bf16) W (Rect.unit (s := S3x128x64) ![o, 0, 0] S1x128x64.size h) (ix3 z ch j)
      = W (ix3 k ch j) := by
  show W ((Rect.unit (s := S3x128x64) ![o, 0, 0] S1x128x64.size h).emb (ix3 z ch j)) = W (ix3 k ch j)
  refine congrArg W (funext fun a => Fin.ext ?_)
  match a with
  | ⟨0, _⟩ => show o + 1 * z.val = k.val; omega
  | ⟨1, _⟩ => show 0 + 1 * ch.val = ch.val; omega
  | ⟨2, _⟩ => show 0 + 1 * j.val = j.val; omega

end Cert.KernelIdeal.Val.Cand4

end
-- ==== Proof.Reg4.lean ====
import proofs.«153073_g19885698580639_cont_8to1_2033_13_alg».proof.Proof.Gen.KernelIdeal.Frame
import proofs.«153073_g19885698580639_cont_8to1_2033_13_alg».proof.Proof.KLayout
import proofs.«153073_g19885698580639_cont_8to1_2033_13_alg».proof.Proof.Reg4AuxPay
import proofs.«153073_g19885698580639_cont_8to1_2033_13_alg».proof.Proof.Reg4AuxPiece
import proofs.«153073_g19885698580639_cont_8to1_2033_13_alg».proof.Proof.Reg4AuxCover

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen
open DCGRU DCGRU.KL ValueIdx

variable (V : (c : Dev nD) → (b : Ref sig .tc) → Buf (Elt Ideal) ((c : Thread nD τ).loc b))

namespace Cand4

open Cand4c

theorem hn_blocks (t : Fin cfg4.N) (a : SA.Idx → EReal) (y0 y1 y2 s0 s1 g : SY.Idx → EReal) (wcx wcs : SWc.Idx → EReal)
    (bc : SBc.Idx → EReal) (n : Fin 256) (b : Fin 32) (j : Fin 64) :
    hnOf (F := Ideal) (grid4.coords t) (fun y => a (((cfg4.win 0).blk t).view.emb y)) (fun y => y0 (((cfg4.win 1).blk t).view.emb y))
        (fun y => y1 (((cfg4.win 2).blk t).view.emb y)) (fun y => y2 (((cfg4.win 3).blk t).view.emb y))
        (fun y => s0 (((cfg4.win 4).blk t).view.emb y)) (fun y => s1 (((cfg4.win 5).blk t).view.emb y))
        (fun y => g (((cfg4.win 6).blk t).view.emb y)) (fun y => wcx (((cfg4.win 8).blk t).view.emb y))
        (fun y => wcs (((cfg4.win 9).blk t).view.emb y)) (fun y => bc (((cfg4.win 10).blk t).view.emb y)) (ix2 (row n b) j)
      = candHn a y0 y1 y2 s0 s1 g wcx wcs bc (glob (pt t) n) b j := by
  refine hn_at (pt t) ?_ ?_ ?_ ?_ ?_ ?_ ?_ ?_ ?_ ?_ ?_ ?_ ?_ ?_ ?_ n b j
  · exact fun n m => congrArg a (embA t n m)
  · exact fun n q => congrArg y0 (embRow t n q)
  · exact fun n q => congrArg y1 (embRow t n q)
  · exact fun n q => congrArg y2 (embRow t n q)
  · exact fun n q => congrArg s0 (embRow t n q)
  · exact fun n q => (ld_rows _ _ (pt t) (icoord t) n q).trans (congrArg s1 (embS t _ q))
  · exact fun m q => congrArg s1 (embS t m q)
  · exact fun n q => congrArg g (embRow t n q)
  · exact fun ch j => (ld_slab 0 _ _ 0 rfl 0 ch j).trans (congrArg wcx (embW t 0 ch j))
  · exact fun ch j => (ld_slab 1 _ _ 1 rfl 0 ch j).trans (congrArg wcx (embW t 1 ch j))
  · exact fun ch j => (ld_slab 2 _ _ 2 rfl 0 ch j).trans (congrArg wcx (embW t 2 ch j))
  · exact fun ch j => (ld_slab 0 _ _ 0 rfl 0 ch j).trans (congrArg wcs (embW t 0 ch j))
  · exact fun ch j => (ld_slab 1 _ _ 1 rfl 0 ch j).trans (congrArg wcs (embW t 1 ch j))
  · exact fun ch j => (ld_slab 2 _ _ 2 rfl 0 ch j).trans (congrArg wcs (embW t 2 ch j))
  · exact fun j => congrArg bc (embB t 0 j)

theorem flushed11 (c : Dev nD) (t : Fin cfg4.N) :
    (dat4 (F := Ideal) V c).flushed 11 t
      = ((cfg4.win 11).blk t).view.read (Elt Ideal) (candY (V c main_v0) (V c main_v6_0) (V c main_v48) (V c main_v49_0) (V c main_v49_1) (V c main_v50) (V c main_v49_2) (V c main_v6_1)
          (V c main_v23) (V c main_v25) (V c main_v45)) := by
  show (cfg4.win 11).cut (grid4.coords t) ((dat4 V c).after 11 t) = _
  rw [after4_11]
  show (outsAt4 V c t).1 = fun y : S256x4096.Idx => candY _ _ _ _ _ _ _ _ _ _ _ (((cfg4.win 1).blk t).view.emb y)
  funext y
  obtain ⟨n, q, rfl⟩ : ∃ (n : Fin 256) (q : Fin 4096), y = ix2 n q := ⟨y 0, y 1, eq_ix2 y⟩
  rw [embRow t n q]
  unfold outsAt4
  dsimp only
  exact (congrFun piece11 _).trans (y_of_hn (pt t) _ (hn_blocks t _ _ _ _ _ _ _ _ _ _)
    (fun n q => congrArg (V c main_v6_1) (embRow t n q)) n q)

theorem flushed12 (c : Dev nD) (t : Fin cfg4.N) :
    (dat4 (F := Ideal) V c).flushed 12 t
      = ((cfg4.win 12).blk t).view.read (Elt Ideal) (candOut (V c main_v0) (V c main_v6_0) (V c main_v48) (V c main_v49_0) (V c main_v49_1) (V c main_v50) (V c main_v49_2)
          (V c main_v23) (V c main_v25) (V c main_v45)) := by
  show (cfg4.win 12).cut (grid4.coords t) ((dat4 V c).after 12 t) = _
  rw [after4_12]
  show (outsAt4 V c t).2 = fun y : S32x16384.Idx => candOut _ _ _ _ _ _ _ _ _ _ (((cfg4.win 12).blk t).view.emb y)
  funext y
  obtain ⟨b, q, rfl⟩ : ∃ (b : Fin 32) (q : Fin 16384), y = ix2 b q := ⟨y 0, y 1, eq_ix2 y⟩
  rw [embO t b q]
  unfold outsAt4
  dsimp only
  exact (congrFun piece12 _).trans (out_of_hn (pt t) _ (hn_blocks t _ _ _ _ _ _ _ _ _ _) b q)

end Cand4

open Cand4

theorem reg4_y (c : Dev nD) :
    (dat4 (F := Ideal) V c).arrAt 11 cfg4.N
      = candY (V c main_v0) (V c main_v6_0) (V c main_v48) (V c main_v49_0) (V c main_v49_1) (V c main_v50) (V c main_v49_2) (V c main_v6_1)
          (V c main_v23) (V c main_v25) (V c main_v45) :=
  (dat4 (F := Ideal) V c).arrAt_eq_of_cover 11 _ (fun t _ => flushed11 V c t) coverY

theorem reg4_out (c : Dev nD) :
    (dat4 (F := Ideal) V c).arrAt 12 cfg4.N
      = candOut (V c main_v0) (V c main_v6_0) (V c main_v48) (V c main_v49_0) (V c main_v49_1) (V c main_v50) (V c main_v49_2)
          (V c main_v23) (V c main_v25) (V c main_v45) :=
  (dat4 (F := Ideal) V c).arrAt_eq_of_cover 12 _ (fun t _ => flushed12 V c t) coverO

end Cert.KernelIdeal.Val

end
-- ==== Proof.Reg6AuxGrid.lean ====
import proofs.«153073_g19885698580639_cont_8to1_2033_13_alg».proof.Proof.Reg2AuxGrid

noncomputable section

namespace Cert.KernelIdeal.Val.Gate6

open Idealize.ShloMosaic Idealize.ShloMosaic.TcCoe Idealize.SL.Sem
open Idealize.ShloMosaic.Pipeline (Dat Cfg Window)
open Cert.KernelIdeal Cert.KernelIdeal.Gen Cert.KernelIdeal.Val.Gate
open ValueIdx

theorem idx_facts6 : ∀ t : Fin cfg6.N,
    AtRow win6_0 t t.val ∧ AtRow win6_1 t t.val ∧ AtRow win6_2 t 0 ∧ AtRow win6_3 t 0 ∧ AtRow win6_4 t 0
    ∧ AtRow win6_5 t t.val ∧ AtRow win6_6 t t.val ∧ AtRow win6_7 t t.val ∧ ((grid6.coords t) 0).val = t.val :=
  (by decide +kernel : ∀ t : Fin grid6.N, _)

abbrev node6 (t : Fin cfg6.N) : Fin 256 → Fin 1024 := nodeOf t.val (t.isLt.trans_eq N_6)

variable (t : Fin cfg6.N)

theorem emb6_0 (p : Fin 256) (q : Fin 1024) :
    ((cfg6.win 0).blk t).view.emb (ix2 p q) = ix2 (node6 t p) q := eq_rows _ (idx_facts6 t).1 rfl rfl
theorem emb6_1 (p : Fin 256) (q : Fin 4096) :
    ((cfg6.win 1).blk t).view.emb (ix2 p q) = ix2 (node6 t p) q := eq_rows _ (idx_facts6 t).2.1 rfl rfl
theorem emb6_5 (p : Fin 256) (q : Fin 4096) :
    ((cfg6.win 5).blk t).view.emb (ix2 p q) = ix2 (node6 t p) q := eq_rows _ (idx_facts6 t).2.2.2.2.2.1 rfl rfl
theorem emb6_6 (p : Fin 256) (q : Fin 4096) :
    ((cfg6.win 6).blk t).view.emb (ix2 p q) = ix2 (node6 t p) q := eq_rows _ (idx_facts6 t).2.2.2.2.2.2.1 rfl rfl
theorem emb6_7 (p : Fin 256) (q : Fin 4096) :
    ((cfg6.win 7).blk t).view.emb (ix2 p q) = ix2 (node6 t p) q := eq_rows _ (idx_facts6 t).2.2.2.2.2.2.2.1 rfl rfl
theorem emb6_2 (y : S1024x4096.Idx) : ((cfg6.win 2).blk t).view.emb y = y :=
  eq_whole (idx_facts6 t).2.2.1 fun _ => rfl
theorem emb6_3 (y : S3x128x128.Idx) : ((cfg6.win 3).blk t).view.emb y = y :=
  eq_whole (idx_facts6 t).2.2.2.1 fun _ => rfl
theorem emb6_4 (y : S1x128.Idx) : ((cfg6.win 4).blk t).view.emb y = y :=
  eq_whole (idx_facts6 t).2.2.2.2.1 fun _ => rfl

def pt6 (i : S1024x4096.Idx) : Fin cfg6.N :=
  ⟨(i 0).val / 256, by have hN : cfg6.N = 4 := N_6; have h : (i 0).val < 1024 := (i 0).isLt; omega⟩

theorem cover6_5 (i : S1024x4096.Idx) :
    ∃ t : Fin cfg6.N, (cfg6.win 5).flush t = true ∧ i ∈ ((cfg6.win 5).blk t).view.set :=
  ⟨pt6 i, flush6_5 _, mem_slice_unit main_v53_0 (rows_mem i (idx_facts6 (pt6 i)).2.2.2.2.2.1)⟩
theorem cover6_6 (i : S1024x4096.Idx) :
    ∃ t : Fin cfg6.N, (cfg6.win 6).flush t = true ∧ i ∈ ((cfg6.win 6).blk t).view.set :=
  ⟨pt6 i, flush6_6 _, mem_slice_unit main_v53_1 (rows_mem i (idx_facts6 (pt6 i)).2.2.2.2.2.2.1)⟩
theorem cover6_7 (i : S1024x4096.Idx) :
    ∃ t : Fin cfg6.N, (cfg6.win 7).flush t = true ∧ i ∈ ((cfg6.win 7).blk t).view.set :=
  ⟨pt6 i, flush6_7 _, mem_slice_unit main_v53_2 (rows_mem i (idx_facts6 (pt6 i)).2.2.2.2.2.2.2.1)⟩

theorem rowsOff6 : k6_off1 (grid6.coords t) = ![256 * t.val, 0] := by
  rw [k6_off1_eq, (idx_facts6 t).2.2.2.2.2.2.2.2]

end Cert.KernelIdeal.Val.Gate6

end
-- ==== Proof.Reg6AuxPiece.lean ====
import proofs.«153073_g19885698580639_cont_8to1_2033_13_alg».proof.Proof.Gen.KernelIdeal.Frame
import proofs.«153073_g19885698580639_cont_8to1_2033_13_alg».proof.Proof.Reg2AuxPay
import Idealize.ShloMosaic.Lib.Pipeline.Value
import Idealize.ShloMosaic.Lib.Tactic

set_option maxRecDepth 16384

noncomputable section

namespace Cert.KernelIdeal.Val.Gate6

open Idealize.ShloMosaic Idealize.ShloMosaic.TcCoe Idealize.ShloMosaic.Tactic Idealize.SL.Sem
open Cert.KernelIdeal Cert.KernelIdeal.Gen Cert.KernelIdeal.Val.Gate2

variable {F : FTy → Type} [FloatOps F] (V : (c : Dev nD) → (b : Ref sig .tc) → Buf (Elt F) ((c : Thread nD τ).loc b))

theorem flushed6 (c : Dev nD) (t : Fin cfg6.N) :
    (dat6 V c).flushed 5 t = k2_pay5 (iblk6 V c 0 t) (iblk6 V c 1 t) (iblk6 V c 2 t)
    ∧ (dat6 V c).flushed 6 t = k2_pay2 (k2_pay6 (iblk6 V c 1 t)) (pre (k6_off1 (grid6.coords t)) (k6_off1_inb _) (iblk6 V c 0 t) (iblk6 V c 1 t) (iblk6 V c 2 t) (iblk6 V c 3 t)) (iblk6 V c 4 t)
    ∧ (dat6 V c).flushed 7 t = k2_pay3 (pre (k6_off1 (grid6.coords t)) (k6_off1_inb _) (iblk6 V c 0 t) (iblk6 V c 1 t) (iblk6 V c 2 t) (iblk6 V c 3 t)) (iblk6 V c 4 t) := by
  show (dat6 V c).after 5 t = _ ∧ (dat6 V c).after 6 t = _ ∧ (dat6 V c).after 7 t = _
  rw [after6_5, after6_6, after6_7]
  unfold outsAt6 out6_A_5 out6_A_6 out6_A_7
  dsimp only
  rw [View.read_writes_eq_canon _ _ _ (fun _ => cover6_A_5 ..), View.read_writes_eq_canon _ _ _ (fun _ => cover6_A_6 ..),
    View.read_writes_eq_canon _ _ _ (fun _ => cover6_A_7 ..)]
  unfold kernelRun6_A
  dsimp only
  sl_unfold_words
  simp only [View.canon_unit_zero (S := S256x4096) zero_off, View.readAt_eq_ld, (hs6_0 t).read_unread, (hs6_1 t).read_unread,
    (hs6_2 t).read_unread, (hs6_3 t).read_unread, (hs6_4 t).read_unread, View.ld_unit_zero (S := S256x1024) zero_off,
    View.ld_unit_zero (S := S256x4096) zero_off, View.ld_unit_zero (S := S1024x4096) zero_off,
    View.ld_unit_zero (S := S1x128) zero_off]
  exact ⟨rfl, rfl, rfl⟩

end Cert.KernelIdeal.Val.Gate6

end
-- ==== Proof.Reg6.lean ====
import proofs.«153073_g19885698580639_cont_8to1_2033_13_alg».proof.Proof.Gen.KernelIdeal.Frame
import proofs.«153073_g19885698580639_cont_8to1_2033_13_alg».proof.Proof.Reg2AuxPay
import proofs.«153073_g19885698580639_cont_8to1_2033_13_alg».proof.Proof.Reg6AuxGrid
import proofs.«153073_g19885698580639_cont_8to1_2033_13_alg».proof.Proof.Reg6AuxPiece

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen Cert.KernelIdeal.Val.Gate Cert.KernelIdeal.Val.Gate2 Cert.KernelIdeal.Val.Gate6
open DCGRU DCGRU.KL ValueIdx

variable (V : (c : Dev nD) → (b : Ref sig .tc) → Buf (Elt Ideal) ((c : Thread nD τ).loc b))

theorem reg6_y2 (c : Dev nD) :
    (dat6 (F := Ideal) V c).arrAt 5 cfg6.N = cheb2 (V c main_v0) (V c main_v51_0) (V c main_v52) :=
  (dat6 (F := Ideal) V c).arrAt_eq_of_cover 5 _ (fun t _ => by
    rw [(flushed6 V c t).1]
    exact cheb_block (emb6_0 t) (emb6_1 t) (emb6_2 t) rfl rfl rfl _ (emb6_5 t)) cover6_5

theorem reg6_s0 (c : Dev nD) :
    (dat6 (F := Ideal) V c).arrAt 6 cfg6.N
      = gateS0 (V c main_v0) (V c main_v51_0) (V c main_v52) (V c main_v33) (V c main_v46) :=
  (dat6 (F := Ideal) V c).arrAt_eq_of_cover 6 _ (fun t _ => by
    rw [(flushed6 V c t).2.1]
    refine reset_block (emb6_0 t) (emb6_1 t) (emb6_2 t) (emb6_3 t) (emb6_4 t) ?_ ?_ ?_ ?_ ?_ (rowsOff6 t) (fun _ => rfl) _ (emb6_6 t) <;> rfl) cover6_6

theorem reg6_g (c : Dev nD) :
    (dat6 (F := Ideal) V c).arrAt 7 cfg6.N
      = gateG (V c main_v0) (V c main_v51_0) (V c main_v52) (V c main_v33) (V c main_v46) :=
  (dat6 (F := Ideal) V c).arrAt_eq_of_cover 7 _ (fun t _ => by
    rw [(flushed6 V c t).2.2]
    refine gate_block (emb6_0 t) (emb6_1 t) (emb6_2 t) (emb6_3 t) (emb6_4 t) ?_ ?_ ?_ ?_ ?_ (rowsOff6 t) (fun _ => rfl) _ (emb6_7 t) <;> rfl) cover6_7

end Cert.KernelIdeal.Val

end
-- ==== Proof.Reg8.lean ====
import proofs.«153073_g19885698580639_cont_8to1_2033_13_alg».proof.Proof.Reg4

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen
open DCGRU DCGRU.KL ValueIdx Cand4

variable (V : (c : Dev nD) → (b : Ref sig .tc) → Buf (Elt Ideal) ((c : Thread nD τ).loc b))

theorem Cand8.flushed12 (c : Dev nD) (t : Fin cfg8.N) :
    (dat8 (F := Ideal) V c).flushed 12 t
      = ((cfg8.win 12).blk t).view.read (Elt Ideal) (candOut (V c main_v0) (V c main_v51_0) (V c main_v52) (V c main_v53_0) (V c main_v53_1) (V c main_v54) (V c main_v53_2)
          (V c main_v41) (V c main_v43) (V c main_v47)) := by
  show (cfg8.win 12).cut (grid8.coords t) ((dat8 V c).after 12 t) = _
  rw [after8_12]
  show (outsAt8 V c t).2 = fun y : S32x16384.Idx => candOut _ _ _ _ _ _ _ _ _ _ (((cfg4.win 12).blk t).view.emb y)
  funext y
  obtain ⟨b, q, rfl⟩ : ∃ (b : Fin 32) (q : Fin 16384), y = ix2 b q := ⟨y 0, y 1, eq_ix2 y⟩
  rw [embO t b q]
  unfold outsAt8
  dsimp only
  exact (congrFun piece12' _).trans (out_of_hn (pt t) _ (hn_blocks t _ _ _ _ _ _ _ _ _ _) b q)

theorem reg8_out (c : Dev nD) :
    (dat8 (F := Ideal) V c).arrAt 12 cfg8.N
      = candOut (V c main_v0) (V c main_v51_0) (V c main_v52) (V c main_v53_0) (V c main_v53_1) (V c main_v54) (V c main_v53_2)
          (V c main_v41) (V c main_v43) (V c main_v47) :=
  (dat8 (F := Ideal) V c).arrAt_eq_of_cover 12 _ (fun t _ => Cand8.flushed12 V c t) coverO

end Cert.KernelIdeal.Val

end
-- ==== Proof.KEncoder.lean ====
import proofs.«153073_g19885698580639_cont_8to1_2033_13_alg».proof.Proof.KLayout

noncomputable section

namespace DCGRU.KL

open Idealize.ShloMosaic ValueIdx

abbrev padv : EReal := (((0#32 : BitVec 32).toInt : ℝ) : EReal)

abbrev zf : EReal := Ideal.ofBits .f32 0x00000000#32

def packX (inputs : (⟨2, ![32, 2048]⟩ : Shape).Idx → EReal) : SX.Idx → EReal := fun i =>
  if h : (i 2).val < 2 then inputs (ix2 (i 1) ⟨(i 0).val * 2 + (i 2).val, by have h0 : (i 0).val < 1024 := (i 0).isLt; omega⟩)
  else padv

def packH (hidden : (⟨3, ![2, 32, 65536]⟩ : Shape).Idx → EReal) : SH.Idx → EReal := fun i =>
  hidden (ix3 (i 0) (i 1) ⟨(i 2).val * 64 + (i 3).val, by
    have h2 : (i 2).val < 1024 := (i 2).isLt; have h3 : (i 3).val < 64 := (i 3).isLt; omega⟩)

def packB {O : Nat} (v : (⟨1, ![O]⟩ : Shape).Idx → EReal) : (⟨2, ![1, O]⟩ : Shape).Idx → EReal := fun i => v (ix1 (i 1))

def packG0 (w : (⟨2, ![198, 128]⟩ : Shape).Idx → EReal) : SWg.Idx → EReal := fun i =>
  if h : (i 1).val < 2 then w (ix2 ⟨(i 1).val * 3 + (i 0).val, by have h0 : (i 0).val < 3 := (i 0).isLt; omega⟩ (i 2))
  else if h' : (i 1).val < 64 then zf
  else w (ix2 ⟨((i 1).val - 62) * 3 + (i 0).val, by
    have h0 : (i 0).val < 3 := (i 0).isLt; have h1 : (i 1).val < 128 := (i 1).isLt; omega⟩ (i 2))

def packCx0 (w : (⟨2, ![198, 64]⟩ : Shape).Idx → EReal) : SWc.Idx → EReal := fun i =>
  if h : (i 1).val < 2 then w (ix2 ⟨(i 1).val * 3 + (i 0).val, by have h0 : (i 0).val < 3 := (i 0).isLt; omega⟩ (i 2))
  else zf

def packCs0 (w : (⟨2, ![198, 64]⟩ : Shape).Idx → EReal) : SWc.Idx → EReal := fun i =>
  if h : (i 1).val < 64 then w (ix2 ⟨(2 + (i 1).val) * 3 + (i 0).val, by have h0 : (i 0).val < 3 := (i 0).isLt; omega⟩ (i 2))
  else zf

def packG1 (w : (⟨2, ![384, 128]⟩ : Shape).Idx → EReal) : SWg.Idx → EReal := fun i =>
  w (ix2 ⟨(i 1).val * 3 + (i 0).val, by
    have h0 : (i 0).val < 3 := (i 0).isLt; have h1 : (i 1).val < 128 := (i 1).isLt; omega⟩ (i 2))

def packCx1 (w : (⟨2, ![384, 64]⟩ : Shape).Idx → EReal) : SWc.Idx → EReal := fun i =>
  if h : (i 1).val < 64 then w (ix2 ⟨(i 1).val * 3 + (i 0).val, by have h0 : (i 0).val < 3 := (i 0).isLt; omega⟩ (i 2))
  else zf

def packCs1 (w : (⟨2, ![384, 64]⟩ : Shape).Idx → EReal) : SWc.Idx → EReal := fun i =>
  if h : (i 1).val < 64 then w (ix2 ⟨(64 + (i 1).val) * 3 + (i 0).val, by have h0 : (i 0).val < 3 := (i 0).isLt; omega⟩ (i 2))
  else zf

section Chain
variable (inputs : (⟨2, ![32, 2048]⟩ : Shape).Idx → EReal) (adj : SA.Idx → EReal)
  (hidden : (⟨3, ![2, 32, 65536]⟩ : Shape).Idx → EReal)
  (wg0 : (⟨2, ![198, 128]⟩ : Shape).Idx → EReal) (bg0 : (⟨1, ![128]⟩ : Shape).Idx → EReal)
  (wc0 : (⟨2, ![198, 64]⟩ : Shape).Idx → EReal) (bc0 : (⟨1, ![64]⟩ : Shape).Idx → EReal)
  (wg1 : (⟨2, ![384, 128]⟩ : Shape).Idx → EReal) (bg1 : (⟨1, ![128]⟩ : Shape).Idx → EReal)
  (wc1 : (⟨2, ![384, 64]⟩ : Shape).Idx → EReal) (bc1 : (⟨1, ![64]⟩ : Shape).Idx → EReal)

def y0a : SY.Idx → EReal := prepY (packX inputs) (packH hidden)

def h1p : SY.Idx → EReal := prepH (packH hidden)
def y1a : SY.Idx → EReal := mm adj (y0a inputs hidden)
def y2a : SY.Idx → EReal := cheb2 adj (y0a inputs hidden) (y1a inputs adj hidden)
def s0a : SY.Idx → EReal := gateS0 adj (y0a inputs hidden) (y1a inputs adj hidden) (packG0 wg0) (packB bg0)
def ga : SY.Idx → EReal := gateG adj (y0a inputs hidden) (y1a inputs adj hidden) (packG0 wg0) (packB bg0)
def s1a : SY.Idx → EReal := mm adj (s0a inputs adj hidden wg0 bg0)

def y0b : SY.Idx → EReal :=
  candY adj (y0a inputs hidden) (y1a inputs adj hidden) (y2a inputs adj hidden) (s0a inputs adj hidden wg0 bg0)
    (s1a inputs adj hidden wg0 bg0) (ga inputs adj hidden wg0 bg0) (h1p hidden) (packCx0 wc0) (packCs0 wc0) (packB bc0)

def resA : SO.Idx → EReal :=
  candOut adj (y0a inputs hidden) (y1a inputs adj hidden) (y2a inputs adj hidden) (s0a inputs adj hidden wg0 bg0)
    (s1a inputs adj hidden wg0 bg0) (ga inputs adj hidden wg0 bg0) (packCx0 wc0) (packCs0 wc0) (packB bc0)
def y1b : SY.Idx → EReal := mm adj (y0b inputs adj hidden wg0 bg0 wc0 bc0)
def y2b : SY.Idx → EReal := cheb2 adj (y0b inputs adj hidden wg0 bg0 wc0 bc0) (y1b inputs adj hidden wg0 bg0 wc0 bc0)
def s0b : SY.Idx → EReal :=
  gateS0 adj (y0b inputs adj hidden wg0 bg0 wc0 bc0) (y1b inputs adj hidden wg0 bg0 wc0 bc0) (packG1 wg1) (packB bg1)
def gb : SY.Idx → EReal :=
  gateG adj (y0b inputs adj hidden wg0 bg0 wc0 bc0) (y1b inputs adj hidden wg0 bg0 wc0 bc0) (packG1 wg1) (packB bg1)
def s1b : SY.Idx → EReal := mm adj (s0b inputs adj hidden wg0 bg0 wc0 bc0 wg1 bg1)

def resB : SO.Idx → EReal :=
  candOut adj (y0b inputs adj hidden wg0 bg0 wc0 bc0) (y1b inputs adj hidden wg0 bg0 wc0 bc0)
    (y2b inputs adj hidden wg0 bg0 wc0 bc0) (s0b inputs adj hidden wg0 bg0 wc0 bc0 wg1 bg1)
    (s1b inputs adj hidden wg0 bg0 wc0 bc0 wg1 bg1) (gb inputs adj hidden wg0 bg0 wc0 bc0 wg1 bg1)
    (packCx1 wc1) (packCs1 wc1) (packB bc1)

def resS : (⟨3, ![2, 32, 65536]⟩ : Shape).Idx → EReal := fun i =>
  if (i 0).val = 0 then resA inputs adj hidden wg0 bg0 wc0 bc0 (ix2 (i 1) (i 2))
  else resB inputs adj hidden wg0 bg0 wc0 bc0 wg1 bg1 wc1 bc1 (ix2 (i 1) (i 2))

end Chain

end DCGRU.KL

end
-- ==== Proof.KHostAux.lean ====
import proofs.«153073_g19885698580639_cont_8to1_2033_13_alg».proof.Proof.Gen.KernelIdeal.Launch
import proofs.«153073_g19885698580639_cont_8to1_2033_13_alg».proof.Proof.KEncoder
import Idealize.ShloMosaic.Lib.ValueLayout
import Idealize.ShloMosaic.Lib.KernelVsHost

set_option maxRecDepth 16384

noncomputable section

namespace Cert.KernelIdeal.Val

open Idealize.ShloMosaic Idealize.ShloMosaic.TcCoe Idealize.SL.Sem
open Cert.KernelIdeal Cert.KernelIdeal.Gen
open DCGRU DCGRU.KL ValueIdx

section Pure
variable {α : Type}

theorem split3_apply {R C O : Nat} (w : (⟨2, ![R, O]⟩ : Shape).Idx → α)
    (h1 : (⟨2, ![R, O]⟩ : Shape).ShapeCasts ⟨3, ![C, 3, O]⟩)
    (h2 : (⟨3, ![C, 3, O]⟩ : Shape).Transposes [1, 0, 2] ⟨3, ![3, C, O]⟩)
    (j : (⟨3, ![3, C, O]⟩ : Shape).Idx) (r : Fin R) (hr : r.val = (j 1).val * 3 + (j 0).val) :
    transpose ⟨3, ![3, C, O]⟩ [1, 0, 2] (shapeCast ⟨3, ![C, 3, O]⟩ w h1) h2 j = w (ix2 r (j 2)) := by
  refine (transpose_apply _ _ h2 j (ix3 (j 1) (j 0) (j 2))
    (fun b => match b with | ⟨0, _⟩ => rfl | ⟨1, _⟩ => rfl | ⟨2, _⟩ => rfl)).trans ?_
  refine shapeCast_apply _ h1 _ _ ?_
  rw [Shape.rowMajor_val_two, Shape.rowMajor_val_three]
  show r.val * O + (j 2).val = ((j 1).val * 3 + (j 0).val) * O + (j 2).val
  rw [hr]

theorem cat3_at {n0 a b ab n2 : Nat} (x1 : (⟨3, ![n0, a, n2]⟩ : Shape).Idx → α) (x2 : (⟨3, ![n0, b, n2]⟩ : Shape).Idx → α)
    (h : Shape.Concatenates [(⟨3, ![n0, a, n2]⟩ : Shape), ⟨3, ![n0, b, n2]⟩] ⟨3, ![n0, ab, n2]⟩ 1) (hab : ab = a + b)
    (j : (⟨3, ![n0, ab, n2]⟩ : Shape).Idx) :
    concatenate ⟨3, ![n0, ab, n2]⟩ 1 [⟨⟨3, ![n0, a, n2]⟩, x1⟩, ⟨⟨3, ![n0, b, n2]⟩, x2⟩] h j
      = if hj : (j 1).val < a then x1 (ix3 (j 0) ⟨(j 1).val, hj⟩ (j 2))
        else x2 (ix3 (j 0) ⟨(j 1).val - a, by have h1 : (j 1).val < ab := (j 1).isLt; omega⟩ (j 2)) := by
  by_cases hj : (j 1).val < a
  · rw [dif_pos hj]
    exact concatenate_pair_apply_left 1 x1 x2 h j rfl _ (fun d => match d with | ⟨0, _⟩ => rfl | ⟨1, _⟩ => rfl | ⟨2, _⟩ => rfl)
  · rw [dif_neg hj]
    exact concatenate_pair_apply_right 1 x1 x2 h j rfl rfl _
      (fun d hd => match d, hd with
        | ⟨0, _⟩, _ => rfl
        | ⟨1, _⟩, hd => (hd (Fin.ext rfl)).elim
        | ⟨2, _⟩, _ => rfl) (by show (j 1).val - a + a = (j 1).val; omega)

theorem slice3_at {n0 n1 n2 m : Nat} (o : Nat) (x : (⟨3, ![n0, n1, n2]⟩ : Shape).Idx → α)
    (h : (⟨3, ![n0, n1, n2]⟩ : Shape).Slices ![0, o, 0] ⟨3, ![n0, m, n2]⟩) (j : (⟨3, ![n0, m, n2]⟩ : Shape).Idx) :
    extractStridedSlice ⟨3, ![n0, m, n2]⟩ ![0, o, 0] x h j
      = x (ix3 (j 0) ⟨o + (j 1).val, Nat.lt_of_lt_of_le (Nat.add_lt_add_left (j 1).isLt o) (h.2 1)⟩ (j 2)) :=
  (congrArg _ (eq_ix3 j)).trans (slice3_axis1_eq o x h (j 0) (j 1) (j 2))

theorem bcast_zero {t : Shape} (h : S_.BroadcastsInDim t (![] : Fin 0 → Fin t.rank)) (j : t.Idx) :
    broadcastInDim t ![] h (constant (F := Ideal) S_ .f32 0x00000000#32) j = zf :=
  (broadcastInDim_apply _ h _ j ix0 (fun a => a.elim0)).trans rfl

theorem row_reshape {O : Nat} (v : (⟨1, ![O]⟩ : Shape).Idx → EReal) (h : (⟨1, ![O]⟩ : Shape).ShapeCasts ⟨2, ![1, O]⟩) :
    shapeCast ⟨2, ![1, O]⟩ v h = packB v :=
  funext fun i => (congrArg _ (eq_ix2 i)).trans (shapeCast_a_1a_apply v h (i 0) (i 1))

end Pure

variable (X : Valuation τ sig (Elt Ideal))

abbrev hostW1 : List (Ref sig .tc) := [main_cst, main_v7, main_v8, main_v9, main_v10, main_v11, main_cst_0, main_v12, main_v13, main_v14, main_v15,
      main_v16, main_v17, main_v18, main_v19, main_cst_1, main_v20, main_v21, main_v22, main_v23, main_v24, main_v25,
      main_v26, main_v27, main_v28, main_v29, main_cst_2, main_v30, main_v31, main_v32, main_v33,
      main_v34, main_v35, main_v36, main_v37, main_cst_3, main_v38, main_v39, main_v40, main_v41, main_v42, main_v43,
      main_v44, main_v45, main_v46, main_v47]

theorem ops0_keep (b : Ref sig .tc) (hb : b ∉ [main_v0, main_v1, main_v2, main_v3, main_c]) :
    StableHlo.after (hostOps0 (F := Ideal)) X (Proc.devRef .tc b) = X (Proc.devRef .tc b) :=
  StableHlo.after_of_writes_sub _ X (by
    simp only [hostOps0, List.Forall, StableHlo.nullary_writes, StableHlo.unary_writes, StableHlo.binary_writes,
      StableHlo.reshape_writes]
    repeat' apply And.intro
    all_goals exact Finset.singleton_subset_iff.mpr (List.mem_toFinset.mpr (List.mem_map.mpr ⟨_, by decide, rfl⟩))) hb

theorem ops01_keep (b : Ref sig .tc) (hb : b ∉ [main_call0_v0, main_v4]) :
    StableHlo.after (hostOps0_1 (F := Ideal)) X (Proc.devRef .tc b) = X (Proc.devRef .tc b) :=
  StableHlo.after_of_writes_sub _ X (by
    simp only [hostOps0_1, List.Forall, StableHlo.nullary_writes, StableHlo.unary_writes, StableHlo.binary_writes,
      StableHlo.reshape_writes]
    repeat' apply And.intro
    all_goals exact Finset.singleton_subset_iff.mpr (List.mem_toFinset.mpr (List.mem_map.mpr ⟨_, by decide, rfl⟩))) hb

theorem ops02_keep (b : Ref sig .tc) (hb : b ∉ [main_v5]) :
    StableHlo.after (hostOps0_2 (F := Ideal)) X (Proc.devRef .tc b) = X (Proc.devRef .tc b) :=
  StableHlo.after_of_writes_sub _ X (by
    simp only [hostOps0_2, List.Forall, StableHlo.nullary_writes, StableHlo.unary_writes, StableHlo.binary_writes,
      StableHlo.reshape_writes]
    exact Finset.singleton_subset_iff.mpr (List.mem_toFinset.mpr (List.mem_map.mpr ⟨_, by decide, rfl⟩))) hb

theorem ops1_keep (b : Ref sig .tc) (hb : b ∉ hostW1) :
    StableHlo.after (hostOps1 (F := Ideal)) X (Proc.devRef .tc b) = X (Proc.devRef .tc b) :=
  StableHlo.after_of_writes_sub _ X (by
    simp only [hostOps1, List.Forall, StableHlo.nullary_writes, StableHlo.unary_writes, StableHlo.binary_writes,
      StableHlo.reshape_writes]
    repeat' apply And.intro
    all_goals exact Finset.singleton_subset_iff.mpr (List.mem_toFinset.mpr (List.mem_map.mpr ⟨_, by decide, rfl⟩))) hb

theorem ops9_keep (b : Ref sig .tc) (hb : b ∉ [main_v56, main_v57, main_v58]) :
    StableHlo.after (hostOps9 (F := Ideal)) X (Proc.devRef .tc b) = X (Proc.devRef .tc b) :=
  StableHlo.after_of_writes_sub _ X (by
    simp only [hostOps9, List.Forall, StableHlo.nullary_writes, StableHlo.unary_writes, StableHlo.binary_writes,
      StableHlo.reshape_writes]
    repeat' apply And.intro
    all_goals exact Finset.singleton_subset_iff.mpr (List.mem_toFinset.mpr (List.mem_map.mpr ⟨_, by decide, rfl⟩))) hb

theorem ops0_v0 : StableHlo.after (hostOps0 (F := Ideal)) X (Proc.devRef .tc main_v0) = X (Proc.devRef .tc main_arg1) := by
  dsimp only [hostOps0]
  after_results
  rfl

theorem ops0_v3 : StableHlo.after (hostOps0 (F := Ideal)) X (Proc.devRef .tc main_v3)
    = fun i : S1024x32x2.Idx => (X (Proc.devRef .tc main_arg0) : S32x2048.Idx → EReal)
        (ix2 (i 1) ⟨(i 0).val * 2 + (i 2).val, by
          have h0 : (i 0).val < 1024 := (i 0).isLt; have h2 : (i 2).val < 2 := (i 2).isLt; omega⟩) := by
  dsimp only [hostOps0]
  after_results
  funext i
  rw [truncf_apply]
  refine (transpose_apply _ _ _ i (ix3 (i 1) (i 0) (i 2))
    (fun b => match b with | ⟨0, _⟩ => rfl | ⟨1, _⟩ => rfl | ⟨2, _⟩ => rfl)).trans ?_
  exact shapeCast_apply (s := S32x2048) (t := S32x1024x2) _ _ _ _ (by
    refine (Shape.rowMajor_val_two _).trans ?_
    refine Eq.trans ?_ (Shape.rowMajor_val_three _).symm
    show (i 1).val * 2048 + ((i 0).val * 2 + (i 2).val) = ((i 1).val * 1024 + (i 0).val) * 2 + (i 2).val
    omega)

theorem ops0_c : StableHlo.after (hostOps0 (F := Ideal)) X (Proc.devRef .tc main_c) = constantI S_ 32 0#32 := by
  dsimp only [hostOps0]
  after_results

theorem ops01_v4 : StableHlo.after (hostOps0_1 (F := Ideal)) X (Proc.devRef .tc main_v4)
    = pad S1024x32x64 ![0, 0, 0] ![0, 0, 62] ![0, 0, 0] (X (Proc.devRef .tc main_v3) : FVec Ideal S1024x32x2 .bf16)
        (sitofp .bf16 (X (Proc.devRef .tc main_c) : IVec S_ 32) : FVec Ideal S_ .bf16)
        pads_S1024x32x2_S1024x32x64_000_000_0620 h_S_ := by
  dsimp only [hostOps0_1]
  after_results
  rfl

theorem pre_v4 : StableHlo.after (hostOps0_2 (F := Ideal)) (StableHlo.after hostOps0_1 (StableHlo.after hostOps0 X))
      (Proc.devRef .tc main_v4) = packX (X (Proc.devRef .tc main_arg0)) := by
  rw [ops02_keep _ main_v4 (by decide), ops01_v4, ops0_v3, ops0_c]
  funext i
  have h0 : (i 0).val < 1024 := (i 0).isLt
  have h1 : (i 1).val < 32 := (i 1).isLt
  have h2 : (i 2).val < 64 := (i 2).isLt
  unfold packX
  by_cases hA : (i 2).val < 2
  · rw [dif_pos hA]
    exact pad_apply_of_inside _ _ _ _ _ _ _ i (ix3 (i 0) (i 1) ⟨(i 2).val, hA⟩) (fun a => match a with
      | ⟨0, _⟩ => by show (i 0).val = 0 + (i 0).val * (0 + 1); omega
      | ⟨1, _⟩ => by show (i 1).val = 0 + (i 1).val * (0 + 1); omega
      | ⟨2, _⟩ => by show (i 2).val = 0 + (i 2).val * (0 + 1); omega)
  · rw [dif_neg hA]
    refine (pad_apply_of_not_inside _ _ _ _ _ _ _ i (2 : Fin 3) (fun hc => hA ?_)).trans rfl
    have h3 : ((i 2).val - 0) / (0 + 1) < 2 := hc.2.2
    omega

theorem ops02_v5 : StableHlo.after (hostOps0_2 (F := Ideal)) X (Proc.devRef .tc main_v5)
    = packH (X (Proc.devRef .tc main_arg2)) := by
  dsimp only [hostOps0_2]
  after_results
  funext i
  have h2 : (i 2).val < 1024 := (i 2).isLt
  have h3 : (i 3).val < 64 := (i 3).isLt
  exact shapeCast_apply (s := S2x32x65536) (t := S2x32x1024x64) _ _ i
    (ix3 (i 0) (i 1) ⟨(i 2).val * 64 + (i 3).val, by omega⟩) (by
    rw [Shape.rowMajor_val_three, Shape.rowMajor_val_four]
    show ((i 0).val * 32 + (i 1).val) * 65536 + ((i 2).val * 64 + (i 3).val)
      = (((i 0).val * 32 + (i 1).val) * 1024 + (i 2).val) * 64 + (i 3).val
    omega)

theorem ops1_v15 : StableHlo.after (hostOps1 (F := Ideal)) X (Proc.devRef .tc main_v15) = packG0 (X (Proc.devRef .tc main_arg3)) := by
  dsimp only [hostOps1]
  after_results
  funext i
  simp only [truncf_apply, cat3_at (n0 := 3) (a := 64) (b := 64) (ab := 128) (n2 := 128) _ _ _ rfl,
    cat3_at (n0 := 3) (a := 2) (b := 62) (ab := 64) (n2 := 128) _ _ _ rfl,
    slice3_at (n0 := 3) (n1 := 66) (n2 := 128) (m := 2) 0,
    slice3_at (n0 := 3) (n1 := 66) (n2 := 128) (m := 64) 2]
  unfold packG0
  split_ifs <;> first
    | exact bcast_zero _ _
    | (exfalso; omega)
    | exact split3_apply (R := 198) (C := 66) (O := 128) _ _ _ _ _ (by show (i 1).val * 3 + (i 0).val = (0 + (i 1).val) * 3 + (i 0).val; omega)
    | exact split3_apply (R := 198) (C := 66) (O := 128) _ _ _ _ _ (by show ((i 1).val - 62) * 3 + (i 0).val = (2 + ((i 1).val - 64)) * 3 + (i 0).val; omega)

theorem ops1_v23 : StableHlo.after (hostOps1 (F := Ideal)) X (Proc.devRef .tc main_v23) = packCx0 (X (Proc.devRef .tc main_arg5)) := by
  dsimp only [hostOps1]
  after_results
  funext i
  simp only [truncf_apply, cat3_at (n0 := 3) (a := 64) (b := 64) (ab := 128) (n2 := 64) _ _ _ rfl,
    cat3_at (n0 := 3) (a := 2) (b := 62) (ab := 64) (n2 := 64) _ _ _ rfl,
    slice3_at (n0 := 3) (n1 := 66) (n2 := 64) (m := 2) 0]
  unfold packCx0
  split_ifs <;> first
    | exact bcast_zero _ _
    | (exfalso; omega)
    | exact split3_apply (R := 198) (C := 66) (O := 64) _ _ _ _ _ (by show (i 1).val * 3 + (i 0).val = (0 + (i 1).val) * 3 + (i 0).val; omega)

theorem ops1_v25 : StableHlo.after (hostOps1 (F := Ideal)) X (Proc.devRef .tc main_v25) = packCs0 (X (Proc.devRef .tc main_arg5)) := by
  dsimp only [hostOps1]
  after_results
  funext i
  simp only [truncf_apply, cat3_at (n0 := 3) (a := 64) (b := 64) (ab := 128) (n2 := 64) _ _ _ rfl,
    slice3_at (n0 := 3) (n1 := 66) (n2 := 64) (m := 64) 2]
  unfold packCs0
  split_ifs <;> first
    | exact bcast_zero _ _
    | (exfalso; omega)
    | exact split3_apply (R := 198) (C := 66) (O := 64) _ _ _ _ _ rfl

set_option maxHeartbeats 1600000 in
theorem ops1_v33 : StableHlo.after (hostOps1 (F := Ideal)) X (Proc.devRef .tc main_v33) = packG1 (X (Proc.devRef .tc main_arg7)) := by
  dsimp only [hostOps1]
  after_results
  funext i
  simp only [truncf_apply, cat3_at (n0 := 3) (a := 64) (b := 64) (ab := 128) (n2 := 128) _ _ _ rfl,
    cat3_at (n0 := 3) (a := 64) (b := 0) (ab := 64) (n2 := 128) _ _ _ rfl,
    slice3_at (n0 := 3) (n1 := 128) (n2 := 128) (m := 64) 0,
    slice3_at (n0 := 3) (n1 := 128) (n2 := 128) (m := 64) 64]
  unfold packG1
  split_ifs <;> first
    | exact bcast_zero _ _
    | (exfalso; omega)
    | exact split3_apply (R := 384) (C := 128) (O := 128) _ _ _ _ _ (by show (i 1).val * 3 + (i 0).val = (0 + (i 1).val) * 3 + (i 0).val; omega)
    | exact split3_apply (R := 384) (C := 128) (O := 128) _ _ _ _ _ (by show (i 1).val * 3 + (i 0).val = (64 + ((i 1).val - 64)) * 3 + (i 0).val; omega)

set_option maxHeartbeats 1600000 in
theorem ops1_v41 : StableHlo.after (hostOps1 (F := Ideal)) X (Proc.devRef .tc main_v41) = packCx1 (X (Proc.devRef .tc main_arg9)) := by
  dsimp only [hostOps1]
  after_results
  funext i
  simp only [truncf_apply, cat3_at (n0 := 3) (a := 64) (b := 64) (ab := 128) (n2 := 64) _ _ _ rfl,
    cat3_at (n0 := 3) (a := 64) (b := 0) (ab := 64) (n2 := 64) _ _ _ rfl,
    slice3_at (n0 := 3) (n1 := 128) (n2 := 64) (m := 64) 0]
  unfold packCx1
  split_ifs <;> first
    | exact bcast_zero _ _
    | (exfalso; omega)
    | exact split3_apply (R := 384) (C := 128) (O := 64) _ _ _ _ _ (by show (i 1).val * 3 + (i 0).val = (0 + (i 1).val) * 3 + (i 0).val; omega)

set_option maxHeartbeats 1600000 in
theorem ops1_v43 : StableHlo.after (hostOps1 (F := Ideal)) X (Proc.devRef .tc main_v43) = packCs1 (X (Proc.devRef .tc main_arg9)) := by
  dsimp only [hostOps1]
  after_results
  funext i
  simp only [truncf_apply, cat3_at (n0 := 3) (a := 64) (b := 64) (ab := 128) (n2 := 64) _ _ _ rfl,
    slice3_at (n0 := 3) (n1 := 128) (n2 := 64) (m := 64) 64]
  unfold packCs1
  split_ifs <;> first
    | exact bcast_zero _ _
    | (exfalso; omega)
    | exact split3_apply (R := 384) (C := 128) (O := 64) _ _ _ _ _ rfl

theorem ops1_v44 : StableHlo.after (hostOps1 (F := Ideal)) X (Proc.devRef .tc main_v44) = packB (X (Proc.devRef .tc main_arg4)) := by
  dsimp only [hostOps1]
  after_results
  exact row_reshape _ _
theorem ops1_v45 : StableHlo.after (hostOps1 (F := Ideal)) X (Proc.devRef .tc main_v45) = packB (X (Proc.devRef .tc main_arg6)) := by
  dsimp only [hostOps1]
  after_results
  exact row_reshape _ _
theorem ops1_v46 : StableHlo.after (hostOps1 (F := Ideal)) X (Proc.devRef .tc main_v46) = packB (X (Proc.devRef .tc main_arg8)) := by
  dsimp only [hostOps1]
  after_results
  exact row_reshape _ _
theorem ops1_v47 : StableHlo.after (hostOps1 (F := Ideal)) X (Proc.devRef .tc main_v47) = packB (X (Proc.devRef .tc main_arg10)) := by
  dsimp only [hostOps1]
  after_results
  exact row_reshape _ _

theorem ops9_v58 : StableHlo.after (hostOps9 (F := Ideal)) X (Proc.devRef .tc main_v58)
    = fun i => if (i 0).val = 0 then X (Proc.devRef .tc main_v51_1) (ix2 (i 1) (i 2))
               else X (Proc.devRef .tc main_v55_1) (ix2 (i 1) (i 2)) := by
  dsimp only [hostOps9]
  after_results
  funext i
  have h0 : (i 0).val < 2 := (i 0).isLt
  show _ = if (i 0).val = 0 then _ else _
  by_cases hA : (i 0).val = 0
  · rw [if_pos hA]
    refine (concatenate_pair_apply_left (t := S2x32x65536) (s₁ := S1x32x65536) (s₂ := S1x32x65536) 0 _ _ _ i rfl (ix3 ⟨0, Nat.one_pos⟩ (i 1) (i 2))
      (fun d => match d with | ⟨0, _⟩ => hA.symm | ⟨1, _⟩ => rfl | ⟨2, _⟩ => rfl)).trans ?_
    exact broadcastInDim_apply _ _ _ _ (ix2 (i 1) (i 2)) (fun a => match a with | ⟨0, _⟩ => rfl | ⟨1, _⟩ => rfl)
  · rw [if_neg hA]
    refine (concatenate_pair_apply_right (t := S2x32x65536) (s₁ := S1x32x65536) (s₂ := S1x32x65536) 0 _ _ _ i rfl rfl (ix3 ⟨0, Nat.one_pos⟩ (i 1) (i 2))
      (fun d hd => match d, hd with
        | ⟨0, _⟩, hd => (hd (Fin.ext rfl)).elim
        | ⟨1, _⟩, _ => rfl
        | ⟨2, _⟩, _ => rfl) (by show 0 + 1 = (i 0).val; omega)).trans ?_
    exact broadcastInDim_apply _ _ _ _ (ix2 (i 1) (i 2)) (fun a => match a with | ⟨0, _⟩ => rfl | ⟨1, _⟩ => rfl)

end Cert.KernelIdeal.Val

end
-- ==== Proof.KHost.lean ====
import proofs.«153073_g19885698580639_cont_8to1_2033_13_alg».proof.Proof.Gen.KernelIdeal.Frame
import proofs.«153073_g19885698580639_cont_8to1_2033_13_alg».proof.Proof.KEncoder
import proofs.«153073_g19885698580639_cont_8to1_2033_13_alg».proof.Proof.KHostAux

set_option maxRecDepth 16384

noncomputable section

namespace Cert.KernelIdeal.Val

open Idealize.ShloMosaic Idealize.ShloMosaic.TcCoe Idealize.SL.Sem
open Cert.KernelIdeal Cert.KernelIdeal.Gen
open DCGRU DCGRU.KL ValueIdx

variable (m : (ℓ : Loc nD τ sig) → Buf (Elt Ideal) ℓ) (ρ : Dev nD → PrngReg)

theorem V3_v0 (c : Dev nD) : V3 m ρ c main_v0 = m ((c.tc : Thread nD τ).loc main_arg1) := by
  show StableHlo.after (hostOps0_2 (F := Ideal)) (StableHlo.after hostOps0_1 (StableHlo.after hostOps0 (W0 m ρ c)))
    (Proc.devRef .tc main_v0) = _
  rw [ops02_keep _ main_v0 (by decide), ops01_keep _ main_v0 (by decide), ops0_v0]
theorem V3_v4 (c : Dev nD) : V3 m ρ c main_v4 = packX (m ((c.tc : Thread nD τ).loc main_arg0)) :=
  pre_v4 (W0 m ρ c)
theorem V3_v5 (c : Dev nD) : V3 m ρ c main_v5 = packH (m ((c.tc : Thread nD τ).loc main_arg2)) := by
  show StableHlo.after (hostOps0_2 (F := Ideal)) (StableHlo.after hostOps0_1 (StableHlo.after hostOps0 (W0 m ρ c)))
    (Proc.devRef .tc main_v5) = _
  rw [ops02_v5, ops01_keep _ main_arg2 (by decide), ops0_keep _ main_arg2 (by decide)]

theorem W4_launch (c : Dev nD) (a : Ref sig .tc)
    (h : (∀ w, Pipeline.arrRef spec0 w ≠ a) ∧ a ∉ [main_v0, main_v1, main_v2, main_v3, main_c]
      ∧ a ∉ [main_call0_v0, main_v4] ∧ a ∉ [main_v5]) :
    W4 m ρ c (Proc.devRef .tc a) = m ((c.tc : Thread nD τ).loc a) := by
  rw [W4_of_ne m ρ c a h.1]
  show StableHlo.after (hostOps0_2 (F := Ideal)) (StableHlo.after hostOps0_1 (StableHlo.after hostOps0 (W0 m ρ c)))
    (Proc.devRef .tc a) = _
  rw [ops02_keep _ a h.2.2.2, ops01_keep _ a h.2.2.1, ops0_keep _ a h.2.1]

theorem V5_v15 (c : Dev nD) : V5 m ρ c main_v15 = packG0 (m ((c.tc : Thread nD τ).loc main_arg3)) :=
  (ops1_v15 _).trans (congrArg packG0 (W4_launch m ρ c main_arg3 (by decide)))
theorem V5_v44 (c : Dev nD) : V5 m ρ c main_v44 = packB (m ((c.tc : Thread nD τ).loc main_arg4)) :=
  (ops1_v44 _).trans (congrArg packB (W4_launch m ρ c main_arg4 (by decide)))
theorem V5_v23 (c : Dev nD) : V5 m ρ c main_v23 = packCx0 (m ((c.tc : Thread nD τ).loc main_arg5)) :=
  (ops1_v23 _).trans (congrArg packCx0 (W4_launch m ρ c main_arg5 (by decide)))
theorem V5_v25 (c : Dev nD) : V5 m ρ c main_v25 = packCs0 (m ((c.tc : Thread nD τ).loc main_arg5)) :=
  (ops1_v25 _).trans (congrArg packCs0 (W4_launch m ρ c main_arg5 (by decide)))
theorem V5_v45 (c : Dev nD) : V5 m ρ c main_v45 = packB (m ((c.tc : Thread nD τ).loc main_arg6)) :=
  (ops1_v45 _).trans (congrArg packB (W4_launch m ρ c main_arg6 (by decide)))
theorem V5_v33 (c : Dev nD) : V5 m ρ c main_v33 = packG1 (m ((c.tc : Thread nD τ).loc main_arg7)) :=
  (ops1_v33 _).trans (congrArg packG1 (W4_launch m ρ c main_arg7 (by decide)))
theorem V5_v46 (c : Dev nD) : V5 m ρ c main_v46 = packB (m ((c.tc : Thread nD τ).loc main_arg8)) :=
  (ops1_v46 _).trans (congrArg packB (W4_launch m ρ c main_arg8 (by decide)))
theorem V5_v41 (c : Dev nD) : V5 m ρ c main_v41 = packCx1 (m ((c.tc : Thread nD τ).loc main_arg9)) :=
  (ops1_v41 _).trans (congrArg packCx1 (W4_launch m ρ c main_arg9 (by decide)))
theorem V5_v43 (c : Dev nD) : V5 m ρ c main_v43 = packCs1 (m ((c.tc : Thread nD τ).loc main_arg9)) :=
  (ops1_v43 _).trans (congrArg packCs1 (W4_launch m ρ c main_arg9 (by decide)))
theorem V5_v47 (c : Dev nD) : V5 m ρ c main_v47 = packB (m ((c.tc : Thread nD τ).loc main_arg10)) :=
  (ops1_v47 _).trans (congrArg packB (W4_launch m ρ c main_arg10 (by decide)))

theorem W14_v55_1 (c : Dev nD) :
    W14 m ρ c (Proc.devRef .tc main_v55_1) = W13 m ρ c (Proc.devRef .tc main_v55_1) :=
  ops9_keep (W13 m ρ c) main_v55_1 (by decide)

theorem W14_v58 (c : Dev nD) :
    W14 m ρ c (Proc.devRef .tc main_v58)
      = fun i => if (i 0).val = 0 then W13 m ρ c (Proc.devRef .tc main_v51_1) (ix2 (i 1) (i 2))
                 else W13 m ρ c (Proc.devRef .tc main_v55_1) (ix2 (i 1) (i 2)) :=
  ops9_v58 (W13 m ρ c)

end Cert.KernelIdeal.Val

end
-- ==== Proof.KChain.lean ====
import proofs.«153073_g19885698580639_cont_8to1_2033_13_alg».proof.Proof.Reg0
import proofs.«153073_g19885698580639_cont_8to1_2033_13_alg».proof.Proof.Reg1
import proofs.«153073_g19885698580639_cont_8to1_2033_13_alg».proof.Proof.Reg2
import proofs.«153073_g19885698580639_cont_8to1_2033_13_alg».proof.Proof.Reg4
import proofs.«153073_g19885698580639_cont_8to1_2033_13_alg».proof.Proof.Reg6
import proofs.«153073_g19885698580639_cont_8to1_2033_13_alg».proof.Proof.Reg8
import proofs.«153073_g19885698580639_cont_8to1_2033_13_alg».proof.Proof.KHost

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen
open DCGRU DCGRU.KL ValueIdx

theorem kept_of {cfg : Cfg sig Λ₀} {c : Dev nD} (dat : Dat τ (Elt Ideal) Unit ℕ (UR sig nD τ) ℕ cfg c)
    (Vx Ve : (b : Ref sig .tc) → Buf (Elt Ideal) ((c : Thread nD τ).loc b))
    (harr : ∀ w, Vx (Pipeline.arrRef cfg.spec w) = dat.arrAt w cfg.N)
    (hne : ∀ b, (∀ w, Pipeline.arrRef cfg.spec w ≠ b) → Vx b = Ve b)
    (hA : ∀ w, dat.A w = Ve (Pipeline.arrRef cfg.spec w)) {O : List (Ref sig .tc)}
    (hO : ∀ w, (cfg.win w).isOut = true → Pipeline.arrRef cfg.spec w ∈ O) (b : Ref sig .tc) (hb : b ∉ O) : Vx b = Ve b := by
  by_cases h : ∃ w, Pipeline.arrRef cfg.spec w = b
  · obtain ⟨w, rfl⟩ := h
    exact (harr w).trans ((dat.arrAt_in w (Bool.eq_false_iff.2 fun hw => hb (hO w hw)) cfg.N).trans (hA w))
  · exact hne b fun w e => h ⟨w, e⟩

variable {m : (ℓ : Loc nD τ sig) → Buf (Elt Ideal) ℓ} {ρ : Dev nD → PrngReg}

variable (m ρ) in

def Bd : ℕ → (c : Dev nD) → (b : Ref sig .tc) → Buf (Elt Ideal) ((c : Thread nD τ).loc b)
  | 0 => V3 m ρ | 1 => V4 m ρ | 2 => V5 m ρ | 3 => V6 m ρ | 4 => V7 m ρ | 5 => V8 m ρ | 6 => V9 m ρ
  | 7 => V10 m ρ | 8 => V11 m ρ | 9 => V12 m ρ | _ => V13 m ρ

noncomputable def outs : ℕ → List (Ref sig .tc)
  | 0 => [main_v6_0, main_v6_1] | 1 => hostW1 | 2 => [main_v48] | 3 => [main_v49_0, main_v49_1, main_v49_2]
  | 4 => [main_v50] | 5 => [main_v51_0, main_v51_1] | 6 => [main_v52] | 7 => [main_v53_0, main_v53_1, main_v53_2]
  | 8 => [main_v54] | 9 => [main_v55_0, main_v55_1] | _ => []

theorem step (c : Dev nD) : ∀ (k : ℕ) (b : Ref sig .tc), b ∉ outs k → Bd m ρ (k + 1) c b = Bd m ρ k c b
  | 0, b, h => kept_of (dat0 (V3 m ρ) c) (V4 m ρ c) (V3 m ρ c) (W4_arr m ρ c) (W4_of_ne m ρ c) (A_eq0 (V3 m ρ) c) (by decide) b h
  | 1, b, h => ops1_keep (W4 m ρ c) b h
  | 2, b, h => kept_of (dat1 (V5 m ρ) c) (V6 m ρ c) (V5 m ρ c) (W6_arr m ρ c) (W6_of_ne m ρ c) (A_eq1 (V5 m ρ) c) (by decide) b h
  | 3, b, h => kept_of (dat2 (V6 m ρ) c) (V7 m ρ c) (V6 m ρ c) (W7_arr m ρ c) (W7_of_ne m ρ c) (A_eq2 (V6 m ρ) c) (by decide) b h
  | 4, b, h => kept_of (dat3 (V7 m ρ) c) (V8 m ρ c) (V7 m ρ c) (W8_arr m ρ c) (W8_of_ne m ρ c) (A_eq3 (V7 m ρ) c) (by decide) b h
  | 5, b, h => kept_of (dat4 (V8 m ρ) c) (V9 m ρ c) (V8 m ρ c) (W9_arr m ρ c) (W9_of_ne m ρ c) (A_eq4 (V8 m ρ) c) (by decide) b h
  | 6, b, h => kept_of (dat5 (V9 m ρ) c) (V10 m ρ c) (V9 m ρ c) (W10_arr m ρ c) (W10_of_ne m ρ c) (A_eq5 (V9 m ρ) c) (by decide) b h
  | 7, b, h => kept_of (dat6 (V10 m ρ) c) (V11 m ρ c) (V10 m ρ c) (W11_arr m ρ c) (W11_of_ne m ρ c) (A_eq6 (V10 m ρ) c) (by decide) b h
  | 8, b, h => kept_of (dat7 (V11 m ρ) c) (V12 m ρ c) (V11 m ρ c) (W12_arr m ρ c) (W12_of_ne m ρ c) (A_eq7 (V11 m ρ) c) (by decide) b h
  | 9, b, h => kept_of (dat8 (V12 m ρ) c) (V13 m ρ c) (V12 m ρ c) (W13_arr m ρ c) (W13_of_ne m ρ c) (A_eq8 (V12 m ρ) c) (by decide) b h
  | _ + 10, _, _ => rfl

theorem keep {c : Dev nD} {b : Ref sig .tc} {x : Buf (Elt Ideal) ((c : Thread nD τ).loc b)}
    (V : (c : Dev nD) → (b : Ref sig .tc) → Buf (Elt Ideal) ((c : Thread nD τ).loc b)) (p q : ℕ) (hV : V = Bd m ρ q)
    (hp : Bd m ρ p c b = x) (h : p ≤ q ∧ ∀ j < q, p ≤ j → b ∉ outs j) : V c b = x := by
  subst hV
  obtain ⟨hpq, hk⟩ := h
  induction q, hpq using Nat.le_induction with
  | base => exact hp
  | succ q hq ih => exact (step c q b (hk q (Nat.lt_succ_self q) hq)).trans (ih fun j hj => hk j (Nat.lt_succ_of_lt hj))

variable (m ρ)

abbrev inX (c : Dev nD) := m ((c.tc : Thread nD τ).loc main_arg0)
abbrev inA (c : Dev nD) := m ((c.tc : Thread nD τ).loc main_arg1)
abbrev inH (c : Dev nD) := m ((c.tc : Thread nD τ).loc main_arg2)
abbrev inWg0 (c : Dev nD) := m ((c.tc : Thread nD τ).loc main_arg3)
abbrev inBg0 (c : Dev nD) := m ((c.tc : Thread nD τ).loc main_arg4)
abbrev inWc0 (c : Dev nD) := m ((c.tc : Thread nD τ).loc main_arg5)
abbrev inBc0 (c : Dev nD) := m ((c.tc : Thread nD τ).loc main_arg6)
abbrev inWg1 (c : Dev nD) := m ((c.tc : Thread nD τ).loc main_arg7)
abbrev inBg1 (c : Dev nD) := m ((c.tc : Thread nD τ).loc main_arg8)
abbrev inWc1 (c : Dev nD) := m ((c.tc : Thread nD τ).loc main_arg9)
abbrev inBc1 (c : Dev nD) := m ((c.tc : Thread nD τ).loc main_arg10)

theorem B1_v6_0 (c : Dev nD) : V4 m ρ c main_v6_0 = y0a (inX m c) (inH m c) := by
  refine (W4_arr m ρ c 2).trans ((reg0_y0 (V3 m ρ) c).trans ?_)
  rw [V3_v4 m ρ c, V3_v5 m ρ c]
  rfl
theorem B1_v6_1 (c : Dev nD) : V4 m ρ c main_v6_1 = h1p (inH m c) := by
  refine (W4_arr m ρ c 3).trans ((reg0_h1p (V3 m ρ) c).trans ?_)
  rw [V3_v5 m ρ c]
  rfl
theorem B3_v48 (c : Dev nD) : V6 m ρ c main_v48 = y1a (inX m c) (inA m c) (inH m c) := by
  refine (W6_arr m ρ c 2).trans ((reg1_out (V5 m ρ) c).trans ?_)
  rw [keep (V5 m ρ) 0 2 rfl (V3_v0 m ρ c) (by decide), keep (V5 m ρ) 1 2 rfl (B1_v6_0 m ρ c) (by decide)]
  rfl
theorem B4_v49_0 (c : Dev nD) : V7 m ρ c main_v49_0 = y2a (inX m c) (inA m c) (inH m c) := by
  refine (W7_arr m ρ c 5).trans ((reg2_y2 (V6 m ρ) c).trans ?_)
  rw [keep (V6 m ρ) 0 3 rfl (V3_v0 m ρ c) (by decide), keep (V6 m ρ) 1 3 rfl (B1_v6_0 m ρ c) (by decide), B3_v48 m ρ c]
  rfl
theorem B4_v49_1 (c : Dev nD) : V7 m ρ c main_v49_1 = s0a (inX m c) (inA m c) (inH m c) (inWg0 m c) (inBg0 m c) := by
  refine (W7_arr m ρ c 6).trans ((reg2_s0 (V6 m ρ) c).trans ?_)
  rw [keep (V6 m ρ) 0 3 rfl (V3_v0 m ρ c) (by decide), keep (V6 m ρ) 1 3 rfl (B1_v6_0 m ρ c) (by decide), B3_v48 m ρ c,
    keep (V6 m ρ) 2 3 rfl (V5_v15 m ρ c) (by decide), keep (V6 m ρ) 2 3 rfl (V5_v44 m ρ c) (by decide)]
  rfl
theorem B4_v49_2 (c : Dev nD) : V7 m ρ c main_v49_2 = ga (inX m c) (inA m c) (inH m c) (inWg0 m c) (inBg0 m c) := by
  refine (W7_arr m ρ c 7).trans ((reg2_g (V6 m ρ) c).trans ?_)
  rw [keep (V6 m ρ) 0 3 rfl (V3_v0 m ρ c) (by decide), keep (V6 m ρ) 1 3 rfl (B1_v6_0 m ρ c) (by decide), B3_v48 m ρ c,
    keep (V6 m ρ) 2 3 rfl (V5_v15 m ρ c) (by decide), keep (V6 m ρ) 2 3 rfl (V5_v44 m ρ c) (by decide)]
  rfl
theorem B5_v50 (c : Dev nD) : V8 m ρ c main_v50 = s1a (inX m c) (inA m c) (inH m c) (inWg0 m c) (inBg0 m c) := by
  refine (W8_arr m ρ c 2).trans ((reg3_out (V7 m ρ) c).trans ?_)
  rw [keep (V7 m ρ) 0 4 rfl (V3_v0 m ρ c) (by decide), B4_v49_1 m ρ c]
  rfl
theorem V8_v0 (c : Dev nD) : V8 m ρ c main_v0 = inA m c :=
  keep (V8 m ρ) 0 5 rfl (V3_v0 m ρ c) (by decide)
theorem V8_v6_0 (c : Dev nD) : V8 m ρ c main_v6_0 = y0a (inX m c) (inH m c) :=
  keep (V8 m ρ) 1 5 rfl (B1_v6_0 m ρ c) (by decide)
theorem V8_v48 (c : Dev nD) : V8 m ρ c main_v48 = y1a (inX m c) (inA m c) (inH m c) :=
  keep (V8 m ρ) 3 5 rfl (B3_v48 m ρ c) (by decide)
theorem V8_v49_0 (c : Dev nD) : V8 m ρ c main_v49_0 = y2a (inX m c) (inA m c) (inH m c) :=
  keep (V8 m ρ) 4 5 rfl (B4_v49_0 m ρ c) (by decide)
theorem V8_v49_1 (c : Dev nD) : V8 m ρ c main_v49_1 = s0a (inX m c) (inA m c) (inH m c) (inWg0 m c) (inBg0 m c) :=
  keep (V8 m ρ) 4 5 rfl (B4_v49_1 m ρ c) (by decide)
theorem V8_v49_2 (c : Dev nD) : V8 m ρ c main_v49_2 = ga (inX m c) (inA m c) (inH m c) (inWg0 m c) (inBg0 m c) :=
  keep (V8 m ρ) 4 5 rfl (B4_v49_2 m ρ c) (by decide)
theorem V8_v6_1 (c : Dev nD) : V8 m ρ c main_v6_1 = h1p (inH m c) :=
  keep (V8 m ρ) 1 5 rfl (B1_v6_1 m ρ c) (by decide)
theorem V8_v23 (c : Dev nD) : V8 m ρ c main_v23 = packCx0 (inWc0 m c) :=
  keep (V8 m ρ) 2 5 rfl (V5_v23 m ρ c) (by decide)
theorem V8_v25 (c : Dev nD) : V8 m ρ c main_v25 = packCs0 (inWc0 m c) :=
  keep (V8 m ρ) 2 5 rfl (V5_v25 m ρ c) (by decide)
theorem V8_v45 (c : Dev nD) : V8 m ρ c main_v45 = packB (inBc0 m c) :=
  keep (V8 m ρ) 2 5 rfl (V5_v45 m ρ c) (by decide)
theorem B6_v51_0 (c : Dev nD) : V9 m ρ c main_v51_0 = y0b (inX m c) (inA m c) (inH m c) (inWg0 m c) (inBg0 m c) (inWc0 m c) (inBc0 m c) := by
  refine (W9_arr m ρ c 11).trans ((reg4_y (V8 m ρ) c).trans ?_)
  rw [V8_v0 m ρ c, V8_v6_0 m ρ c, V8_v48 m ρ c, V8_v49_0 m ρ c, V8_v49_1 m ρ c, B5_v50 m ρ c, V8_v49_2 m ρ c,
    V8_v6_1 m ρ c, V8_v23 m ρ c, V8_v25 m ρ c, V8_v45 m ρ c]
  rfl
theorem B6_v51_1 (c : Dev nD) : V9 m ρ c main_v51_1 = resA (inX m c) (inA m c) (inH m c) (inWg0 m c) (inBg0 m c) (inWc0 m c) (inBc0 m c) := by
  refine (W9_arr m ρ c 12).trans ((reg4_out (V8 m ρ) c).trans ?_)
  rw [V8_v0 m ρ c, V8_v6_0 m ρ c, V8_v48 m ρ c, V8_v49_0 m ρ c, V8_v49_1 m ρ c, B5_v50 m ρ c, V8_v49_2 m ρ c,
    V8_v23 m ρ c, V8_v25 m ρ c, V8_v45 m ρ c]
  rfl
theorem B7_v52 (c : Dev nD) : V10 m ρ c main_v52 = y1b (inX m c) (inA m c) (inH m c) (inWg0 m c) (inBg0 m c) (inWc0 m c) (inBc0 m c) := by
  refine (W10_arr m ρ c 2).trans ((reg5_out (V9 m ρ) c).trans ?_)
  rw [keep (V9 m ρ) 0 6 rfl (V3_v0 m ρ c) (by decide), B6_v51_0 m ρ c]
  rfl
theorem B8_v53_0 (c : Dev nD) : V11 m ρ c main_v53_0 = y2b (inX m c) (inA m c) (inH m c) (inWg0 m c) (inBg0 m c) (inWc0 m c) (inBc0 m c) := by
  refine (W11_arr m ρ c 5).trans ((reg6_y2 (V10 m ρ) c).trans ?_)
  rw [keep (V10 m ρ) 0 7 rfl (V3_v0 m ρ c) (by decide), keep (V10 m ρ) 6 7 rfl (B6_v51_0 m ρ c) (by decide),
    B7_v52 m ρ c]
  rfl
theorem B8_v53_1 (c : Dev nD) : V11 m ρ c main_v53_1 = s0b (inX m c) (inA m c) (inH m c) (inWg0 m c) (inBg0 m c) (inWc0 m c) (inBc0 m c) (inWg1 m c) (inBg1 m c) := by
  refine (W11_arr m ρ c 6).trans ((reg6_s0 (V10 m ρ) c).trans ?_)
  rw [keep (V10 m ρ) 0 7 rfl (V3_v0 m ρ c) (by decide), keep (V10 m ρ) 6 7 rfl (B6_v51_0 m ρ c) (by decide),
    B7_v52 m ρ c, keep (V10 m ρ) 2 7 rfl (V5_v33 m ρ c) (by decide), keep (V10 m ρ) 2 7 rfl (V5_v46 m ρ c) (by decide)]
  rfl
theorem B8_v53_2 (c : Dev nD) : V11 m ρ c main_v53_2 = gb (inX m c) (inA m c) (inH m c) (inWg0 m c) (inBg0 m c) (inWc0 m c) (inBc0 m c) (inWg1 m c) (inBg1 m c) := by
  refine (W11_arr m ρ c 7).trans ((reg6_g (V10 m ρ) c).trans ?_)
  rw [keep (V10 m ρ) 0 7 rfl (V3_v0 m ρ c) (by decide), keep (V10 m ρ) 6 7 rfl (B6_v51_0 m ρ c) (by decide),
    B7_v52 m ρ c, keep (V10 m ρ) 2 7 rfl (V5_v33 m ρ c) (by decide), keep (V10 m ρ) 2 7 rfl (V5_v46 m ρ c) (by decide)]
  rfl
theorem B9_v54 (c : Dev nD) : V12 m ρ c main_v54 = s1b (inX m c) (inA m c) (inH m c) (inWg0 m c) (inBg0 m c) (inWc0 m c) (inBc0 m c) (inWg1 m c) (inBg1 m c) := by
  refine (W12_arr m ρ c 2).trans ((reg7_out (V11 m ρ) c).trans ?_)
  rw [keep (V11 m ρ) 0 8 rfl (V3_v0 m ρ c) (by decide), B8_v53_1 m ρ c]
  rfl
theorem V12_v0 (c : Dev nD) : V12 m ρ c main_v0 = inA m c :=
  keep (V12 m ρ) 0 9 rfl (V3_v0 m ρ c) (by decide)
theorem V12_v51_0 (c : Dev nD) : V12 m ρ c main_v51_0 = y0b (inX m c) (inA m c) (inH m c) (inWg0 m c) (inBg0 m c) (inWc0 m c) (inBc0 m c) :=
  keep (V12 m ρ) 6 9 rfl (B6_v51_0 m ρ c) (by decide)
theorem V12_v52 (c : Dev nD) : V12 m ρ c main_v52 = y1b (inX m c) (inA m c) (inH m c) (inWg0 m c) (inBg0 m c) (inWc0 m c) (inBc0 m c) :=
  keep (V12 m ρ) 7 9 rfl (B7_v52 m ρ c) (by decide)
theorem V12_v53_0 (c : Dev nD) : V12 m ρ c main_v53_0 = y2b (inX m c) (inA m c) (inH m c) (inWg0 m c) (inBg0 m c) (inWc0 m c) (inBc0 m c) :=
  keep (V12 m ρ) 8 9 rfl (B8_v53_0 m ρ c) (by decide)
theorem V12_v53_1 (c : Dev nD) : V12 m ρ c main_v53_1 = s0b (inX m c) (inA m c) (inH m c) (inWg0 m c) (inBg0 m c) (inWc0 m c) (inBc0 m c) (inWg1 m c) (inBg1 m c) :=
  keep (V12 m ρ) 8 9 rfl (B8_v53_1 m ρ c) (by decide)
theorem V12_v53_2 (c : Dev nD) : V12 m ρ c main_v53_2 = gb (inX m c) (inA m c) (inH m c) (inWg0 m c) (inBg0 m c) (inWc0 m c) (inBc0 m c) (inWg1 m c) (inBg1 m c) :=
  keep (V12 m ρ) 8 9 rfl (B8_v53_2 m ρ c) (by decide)
theorem V12_v41 (c : Dev nD) : V12 m ρ c main_v41 = packCx1 (inWc1 m c) :=
  keep (V12 m ρ) 2 9 rfl (V5_v41 m ρ c) (by decide)
theorem V12_v43 (c : Dev nD) : V12 m ρ c main_v43 = packCs1 (inWc1 m c) :=
  keep (V12 m ρ) 2 9 rfl (V5_v43 m ρ c) (by decide)
theorem V12_v47 (c : Dev nD) : V12 m ρ c main_v47 = packB (inBc1 m c) :=
  keep (V12 m ρ) 2 9 rfl (V5_v47 m ρ c) (by decide)
theorem W13_v55_1 (c : Dev nD) : V13 m ρ c main_v55_1 = resB (inX m c) (inA m c) (inH m c) (inWg0 m c) (inBg0 m c) (inWc0 m c) (inBc0 m c) (inWg1 m c) (inBg1 m c) (inWc1 m c) (inBc1 m c) :=
  (W13_arr m ρ c 12).trans ((reg8_out (V12 m ρ) c).trans
    (congr (congr (congr (congr (congr (congr (congr (congr (congr (congrArg candOut (V12_v0 m ρ c)) (V12_v51_0 m ρ c)) (V12_v52 m ρ c)) (V12_v53_0 m ρ c)) (V12_v53_1 m ρ c)) (B9_v54 m ρ c)) (V12_v53_2 m ρ c)) (V12_v41 m ρ c)) (V12_v43 m ρ c)) (V12_v47 m ρ c)))
theorem W13_v51_1 (c : Dev nD) : W13 m ρ c (Proc.devRef .tc main_v51_1) = resA (inX m c) (inA m c) (inH m c) (inWg0 m c) (inBg0 m c) (inWc0 m c) (inBc0 m c) :=
  keep (V13 m ρ) 6 10 rfl (B6_v51_1 m ρ c) (by decide)

end Cert.KernelIdeal.Val

end
-- ==== Proof.KMath.lean ====
import proofs.«153073_g19885698580639_cont_8to1_2033_13_alg».proof.Proof.KEncoder
import Idealize.ShloMosaic.PureOps.Ideal.Laws
import Mathlib.Algebra.BigOperators.Fin
import Mathlib.Data.Fintype.BigOperators

noncomputable section

namespace DCGRU.KL

open Idealize.ShloMosaic ValueIdx

def Brow {O : Nat} (v : (⟨2, ![1, O]⟩ : Shape).Idx → EReal) (o : Fin O) : EReal := v (ix2 0 o)

def Packs {cin : Nat} (hcin : cin ≤ 64) (y : SY.Idx → EReal) (X : Fin 1024 → Fin 32 → Fin cin → EReal)
    (H : Fin 1024 → Fin 32 → Fin 64 → EReal) : Prop :=
  (∀ n b (c : Fin cin), y (ix2 n (col b (Fin.castLE (by omega) c))) = X n b c)
  ∧ ∀ n b (j : Fin 64), y (ix2 n (col b (hi j))) = H n b j

def PacksW {cin O : Nat} (hcin : cin ≤ 64) (wp : (⟨3, ![3, 128, O]⟩ : Shape).Idx → EReal)
    (W : Fin (cin + 64) → Fin 3 → Fin O → EReal) : Prop :=
  (∀ k (c : Fin cin) o, wp (ix3 k (Fin.castLE (by omega) c) o) = W (Fin.castAdd 64 c) k o)
  ∧ (∀ k (c : Fin 128) o, cin ≤ c.val → c.val < 64 → wp (ix3 k c o) = 0)
  ∧ ∀ k (j : Fin 64) o, wp (ix3 k (hi j) o) = W (Fin.natAdd cin j) k o

def PacksWx {cin O : Nat} (hcin : cin ≤ 64) (wp : (⟨3, ![3, 128, O]⟩ : Shape).Idx → EReal)
    (W : Fin (cin + 64) → Fin 3 → Fin O → EReal) : Prop :=
  (∀ k (c : Fin cin) o, wp (ix3 k (Fin.castLE (by omega) c) o) = W (Fin.castAdd 64 c) k o)
  ∧ ∀ k (c : Fin 128) o, cin ≤ c.val → wp (ix3 k c o) = 0

def PacksWs {cin O : Nat} (wp : (⟨3, ![3, 128, O]⟩ : Shape).Idx → EReal)
    (W : Fin (cin + 64) → Fin 3 → Fin O → EReal) : Prop :=
  (∀ k (j : Fin 64) o, wp (ix3 k (lo j) o) = W (Fin.natAdd cin j) k o)
  ∧ ∀ k (c : Fin 128) o, 64 ≤ c.val → wp (ix3 k c o) = 0

def dif (a : SA.Idx → EReal) (y : SY.Idx → EReal) : Fin 3 → SY.Idx → EReal
  | ⟨0, _⟩ => y
  | ⟨1, _⟩ => mm a y
  | ⟨_ + 2, _⟩ => cheb2 a y (mm a y)

theorem dif_col (a : SA.Idx → EReal) (y : SY.Idx → EReal) (k : Fin 3) (n : Fin 1024) (q : Fin 4096)
    (z : Fin 1024 → EReal) (h : ∀ m, y (ix2 m q) = z m) : dif a y k (ix2 n q) = cheb (Adj a) z k n := by
  obtain rfl : (fun m => y (ix2 m q)) = z := funext h
  fin_cases k <;> rfl

theorem sum_low {M : Type*} [AddCommMonoid M] {N c : Nat} (h : c ≤ N) (f : Fin N → M)
    (hz : ∀ i : Fin N, c ≤ i.val → f i = 0) : ∑ i, f i = ∑ i : Fin c, f (Fin.castLE h i) := by
  obtain ⟨d, rfl⟩ := Nat.exists_eq_add_of_le h
  rw [Fin.sum_univ_add, Finset.sum_eq_zero (f := fun i : Fin d => f (Fin.natAdd c i)) fun i _ =>
    hz _ (Nat.le_add_right c i.val), add_zero]
  rfl

theorem sum_low_mul {N c : Nat} (h : c ≤ N) (f g : Fin N → EReal) (F G : Fin c → EReal)
    (hz : ∀ i : Fin N, c ≤ i.val → g i = 0) (hf : ∀ i, f (Fin.castLE h i) = F i)
    (hg : ∀ i, g (Fin.castLE h i) = G i) : ∑ i, f i * g i = ∑ i, F i * G i := by
  rw [sum_low h _ (fun i hi => by rw [hz i hi, mul_zero])]
  exact Finset.sum_congr rfl fun i _ => by rw [hf, hg]

theorem sum3 (f g : Fin 3 → EReal) : ((((f 0 + f 1) + f 2) + g 0) + g 1) + g 2 = ∑ k, (f k + g k) := by
  rw [Fin.sum_univ_three]; ac_rfl

section Layer
variable {cin : Nat} {hcin : cin ≤ 64} {a : SA.Idx → EReal} {y : SY.Idx → EReal}
  {X : Fin 1024 → Fin 32 → Fin cin → EReal} {H : Fin 1024 → Fin 32 → Fin 64 → EReal}
  {wg : SWg.Idx → EReal} {bg : SBg.Idx → EReal} {Wg : Fin (cin + 64) → Fin 3 → Fin 128 → EReal}
  {wcx wcs : SWc.Idx → EReal} {bc : SBc.Idx → EReal} {Wc : Fin (cin + 64) → Fin 3 → Fin 64 → EReal}

theorem cat_castAdd (R : Fin 1024 → Fin 32 → Fin 64 → EReal) (m : Fin 1024) (b : Fin 32) (c : Fin cin) :
    cat X R m b (Fin.castAdd 64 c) = X m b c := by
  unfold cat; exact dif_pos c.isLt

theorem cat_natAdd (R : Fin 1024 → Fin 32 → Fin 64 → EReal) (m : Fin 1024) (b : Fin 32) (j : Fin 64) :
    cat X R m b (Fin.natAdd cin j) = R m b j := by
  have hn : ¬ (Fin.natAdd cin j).val < cin := by show ¬ cin + j.val < cin; omega
  unfold cat
  rw [dif_neg hn]
  exact congrArg (R m b) (Fin.ext (Nat.add_sub_cancel_left cin j.val))

theorem cat_sum {O : Nat} (A : Fin 1024 → Fin 1024 → EReal) (R : Fin 1024 → Fin 32 → Fin 64 → EReal)
    (W : Fin (cin + 64) → Fin 3 → Fin O → EReal) (k : Fin 3) (n : Fin 1024) (b : Fin 32) (o : Fin O) :
    ∑ c, cheb A (fun m => cat X R m b c) k n * W c k o
      = ∑ c : Fin cin, cheb A (fun m => X m b c) k n * W (Fin.castAdd 64 c) k o
        + ∑ j : Fin 64, cheb A (fun m => R m b j) k n * W (Fin.natAdd cin j) k o := by
  rw [Fin.sum_univ_add]
  simp only [cat_castAdd, cat_natAdd]

theorem sum_halves (f : Fin 128 → EReal) : ∑ c, f c = ∑ i, f (lo i) + ∑ j, f (hi j) :=
  Fin.sum_univ_add (a := 64) (b := 64) f

theorem gate_sum {O : Nat} {wp : (⟨3, ![3, 128, O]⟩ : Shape).Idx → EReal}
    {W : Fin (cin + 64) → Fin 3 → Fin O → EReal}
    (hy : Packs hcin y X H) (hw : PacksW hcin wp W) (n : Fin 1024) (b : Fin 32) (o : Fin O) :
    (dotW y wp 0 n b o + dotW (mm a y) wp 1 n b o) + dotW (cheb2 a y (mm a y)) wp 2 n b o
      = ∑ p : Fin (cin + 64) × Fin 3, cheb (Adj a) (fun m => cat X H m b p.1) p.2 n * W p.1 p.2 o := by
  rw [Fintype.sum_prod_type_right]
  refine (Fin.sum_univ_three fun k => dotW (dif a y k) wp k n b o).symm.trans (Finset.sum_congr rfl fun k _ => ?_)
  rw [cat_sum, dotW, sum_halves]
  refine congrArg₂ _ (sum_low_mul hcin _ _ _ _ (fun i h => hw.2.1 k (lo i) o h i.isLt)
    (fun c => dif_col a y k n _ _ fun m => hy.1 m b c) fun c => hw.1 k c o)
    (Finset.sum_congr rfl fun j _ => ?_)
  rw [dif_col a y k n _ _ fun m => hy.2 m b j, hw.2.2]

theorem cand_sum {s0 : SY.Idx → EReal} {R : Fin 1024 → Fin 32 → Fin 64 → EReal} (hy : Packs hcin y X H)
    (hwx : PacksWx hcin wcx Wc) (hws : PacksWs wcs Wc) (hs0 : ∀ n b i, s0 (ix2 n (col b (lo i))) = R n b i)
    (n : Fin 1024) (b : Fin 32) (j : Fin 64) :
    ((((dotW y wcx 0 n b j + dotW (mm a y) wcx 1 n b j) + dotW (cheb2 a y (mm a y)) wcx 2 n b j)
        + dotW s0 wcs 0 n b j) + dotW (mm a s0) wcs 1 n b j) + dotW (cheb2 a s0 (mm a s0)) wcs 2 n b j
      = ∑ p : Fin (cin + 64) × Fin 3, cheb (Adj a) (fun m => cat X R m b p.1) p.2 n * Wc p.1 p.2 j := by
  rw [Fintype.sum_prod_type_right]
  refine (sum3 (fun k => dotW (dif a y k) wcx k n b j) fun k => dotW (dif a s0 k) wcs k n b j).trans
    (Finset.sum_congr rfl fun k _ => ?_)
  rw [cat_sum]
  exact congrArg₂ _
    (sum_low_mul (by omega) _ _ _ _ (fun i h => hwx.2 k i j h) (fun c => dif_col a y k n _ _ fun m => hy.1 m b c)
      fun c => hwx.1 k c j)
    (sum_low_mul (by omega : 64 ≤ 128) _ _ _ _ (fun i h => hws.2 k i j h)
      (fun i => dif_col a s0 k n _ _ fun m => hs0 m b i) fun i => hws.1 k i j)

theorem gateG_eq (hy : Packs hcin y X H) (hw : PacksW hcin wg Wg) (n : Fin 1024) (b : Fin 32) (o : Fin 128) :
    gateG a y (mm a y) wg bg (ix2 n (col b o)) = gates (Adj a) X H Wg (Brow bg) n b o :=
  (congrArg (fun s => Ideal.logistic (s + bg (ix2 0 (qc (col b o))))) (gate_sum hy hw n _ _)).trans
    (congrArg₂ (gates (Adj a) X H Wg (Brow bg) n) (qb_col b o) (qc_col b o))

theorem col_mod (b : Fin 32) (c : Fin 128) : (col b c).val % 128 = c.val := by
  show (b.val * 128 + c.val) % 128 = c.val
  have := c.isLt
  omega

theorem at_lo {α : Sort*} (F : Fin 32 → Fin 64 → α) (b : Fin 32) (j : Fin 64) (h : (col b (lo j)).val % 128 < 64) :
    F (qb (col b (lo j))) ⟨(col b (lo j)).val % 128, h⟩ = F b j :=
  congr (congrArg F (qb_col b (lo j))) (Fin.ext (col_mod b (lo j)))

theorem at_hi {α : Sort*} (F : Fin 32 → Fin 64 → α) (b : Fin 32) (j : Fin 64) (h : (col b (hi j)).val % 128 - 64 < 64) :
    F (qb (col b (hi j))) ⟨(col b (hi j)).val % 128 - 64, h⟩ = F b j :=
  congr (congrArg F (qb_col b (hi j))) (Fin.ext (by
    show (col b (hi j)).val % 128 - 64 = j.val
    rw [col_mod]; exact Nat.add_sub_cancel_left 64 j.val))

theorem lo_lt (b : Fin 32) (j : Fin 64) : (col b (lo j)).val % 128 < 64 := by rw [col_mod]; exact j.isLt
theorem hi_ge (b : Fin 32) (j : Fin 64) : ¬ (col b (hi j)).val % 128 < 64 := by
  rw [col_mod]; exact Nat.not_lt.2 (Nat.le_add_right 64 j.val)

theorem gateS0_lo (hy : Packs hcin y X H) (hw : PacksW hcin wg Wg) (n : Fin 1024) (b : Fin 32) (j : Fin 64) :
    gateS0 a y (mm a y) wg bg (ix2 n (col b (lo j))) = rgate (Adj a) X H Wg (Brow bg) n b j * H n b j :=
  (dif_pos (lo_lt b j)).trans ((at_lo (fun b j => gateG a y (mm a y) wg bg (ix2 n (col b (lo j)))
    * y (ix2 n (col b (hi j)))) b j _).trans (congrArg₂ _ (gateG_eq hy hw n b (lo j)) (hy.2 n b j)))

theorem layer_cell (hy : Packs hcin y X H) (hw : PacksW hcin wg Wg) (hwx : PacksWx hcin wcx Wc) (hws : PacksWs wcs Wc)
    (n : Fin 1024) (b : Fin 32) (j : Fin 64) :
    candHn a y (mm a y) (cheb2 a y (mm a y)) (gateS0 a y (mm a y) wg bg) (mm a (gateS0 a y (mm a y) wg bg))
        (gateG a y (mm a y) wg bg) wcx wcs bc n b j
      = cell (Adj a) X H Wg (Brow bg) Wc (Brow bc) n b j := by
  unfold candHn
  rw [gateG_eq hy hw, hy.2, cand_sum hy hwx hws (gateS0_lo hy hw)]
  rfl

theorem layer_packs {hp : SY.Idx → EReal} {H' : Fin 1024 → Fin 32 → Fin 64 → EReal}
    (hy : Packs hcin y X H) (hw : PacksW hcin wg Wg) (hwx : PacksWx hcin wcx Wc) (hws : PacksWs wcs Wc)
    (hh : ∀ n b j, hp (ix2 n (col b (hi j))) = H' n b j) :
    Packs (le_refl 64) (candY a y (mm a y) (cheb2 a y (mm a y)) (gateS0 a y (mm a y) wg bg)
      (mm a (gateS0 a y (mm a y) wg bg)) (gateG a y (mm a y) wg bg) hp wcx wcs bc)
      (cell (Adj a) X H Wg (Brow bg) Wc (Brow bc)) H' :=
  ⟨fun n b c => (dif_pos (lo_lt b c)).trans ((at_lo (candHn _ _ _ _ _ _ _ _ _ _ n) b c _).trans
      (layer_cell hy hw hwx hws n b c)),
    fun n b j => (dif_neg (hi_ge b j)).trans (hh n b j)⟩

end Layer

theorem zf_eq_zero : zf = 0 := Ideal.ofBits_zero_f32

theorem packsW_g0 (w : (⟨2, ![198, 128]⟩ : Shape).Idx → EReal) :
    PacksW (cin := 2) (by decide) (packG0 w) (Wt (C := 66) w) :=
  ⟨fun k c o => dif_pos c.isLt, fun k c o h1 h2 => (dif_neg (Nat.not_lt.2 h1)).trans ((dif_pos h2).trans zf_eq_zero),
    fun k j o => (dif_neg (by show ¬ 64 + j.val < 2; omega)).trans ((dif_neg (by show ¬ 64 + j.val < 64; omega)).trans
      (congrArg (fun r => w (ix2 r o)) (Fin.ext (by
        show (64 + j.val - 62) * 3 + k.val = (2 + j.val) * 3 + k.val
        omega))))⟩

theorem packsWx_c0 (w : (⟨2, ![198, 64]⟩ : Shape).Idx → EReal) :
    PacksWx (cin := 2) (by decide) (packCx0 w) (Wt (C := 66) w) :=
  ⟨fun k c o => dif_pos c.isLt, fun k c o h => (dif_neg (Nat.not_lt.2 h)).trans zf_eq_zero⟩

theorem packsWs_c0 (w : (⟨2, ![198, 64]⟩ : Shape).Idx → EReal) : PacksWs (cin := 2) (packCs0 w) (Wt (C := 66) w) :=
  ⟨fun k j o => dif_pos j.isLt, fun k c o h => (dif_neg (Nat.not_lt.2 h)).trans zf_eq_zero⟩

theorem packsW_g1 (w : (⟨2, ![384, 128]⟩ : Shape).Idx → EReal) :
    PacksW (cin := 64) (le_refl 64) (packG1 w) (Wt (C := 128) w) :=
  ⟨fun _ _ _ => rfl, fun _ _ _ h1 h2 => absurd h2 (Nat.not_lt.2 h1), fun _ _ _ => rfl⟩

theorem packsWx_c1 (w : (⟨2, ![384, 64]⟩ : Shape).Idx → EReal) :
    PacksWx (cin := 64) (le_refl 64) (packCx1 w) (Wt (C := 128) w) :=
  ⟨fun k c o => dif_pos c.isLt, fun k c o h => (dif_neg (Nat.not_lt.2 h)).trans zf_eq_zero⟩

theorem packsWs_c1 (w : (⟨2, ![384, 64]⟩ : Shape).Idx → EReal) : PacksWs (cin := 64) (packCs1 w) (Wt (C := 128) w) :=
  ⟨fun k j o => dif_pos j.isLt, fun k c o h => (dif_neg (Nat.not_lt.2 h)).trans zf_eq_zero⟩

section
variable (inputs : (⟨2, ![32, 2048]⟩ : Shape).Idx → EReal) (adj : SA.Idx → EReal)
  (hidden : (⟨3, ![2, 32, 65536]⟩ : Shape).Idx → EReal)
  (wg0 : (⟨2, ![198, 128]⟩ : Shape).Idx → EReal) (bg0 : (⟨1, ![128]⟩ : Shape).Idx → EReal)
  (wc0 : (⟨2, ![198, 64]⟩ : Shape).Idx → EReal) (bc0 : (⟨1, ![64]⟩ : Shape).Idx → EReal)
  (wg1 : (⟨2, ![384, 128]⟩ : Shape).Idx → EReal) (bg1 : (⟨1, ![128]⟩ : Shape).Idx → EReal)
  (wc1 : (⟨2, ![384, 64]⟩ : Shape).Idx → EReal) (bc1 : (⟨1, ![64]⟩ : Shape).Idx → EReal)

theorem packs_y0a : Packs (cin := 2) (by decide) (y0a inputs hidden) (X0 inputs) (Hid hidden 0) :=
  ⟨fun n b c => (dif_pos (lo_lt b (Fin.castLE (by decide) c))).trans
      ((at_lo (fun b j => packX inputs (ix3 n b j)) b (Fin.castLE (by decide) c) _).trans (dif_pos c.isLt)),
    fun n b j => (dif_neg (hi_ge b j)).trans (at_hi (fun b j => packH hidden (ix4 0 b n j)) b j _)⟩

theorem packs_y0b : Packs (le_refl 64) (y0b inputs adj hidden wg0 bg0 wc0 bc0) (h1 inputs adj hidden wg0 bg0 wc0 bc0)
    (Hid hidden 1) :=
  layer_packs (packs_y0a inputs hidden) (packsW_g0 wg0) (packsWx_c0 wc0) (packsWs_c0 wc0) fun n b j =>
    (if_neg (hi_ge b j)).trans (at_hi (fun b j => packH hidden (ix4 1 b n j)) b j _)

theorem resB_eq : resB inputs adj hidden wg0 bg0 wc0 bc0 wg1 bg1 wc1 bc1
    = DCGRU.out0 inputs adj hidden wg0 bg0 wc0 bc0 wg1 bg1 wc1 bc1 :=
  funext fun _ => layer_cell (packs_y0b inputs adj hidden wg0 bg0 wc0 bc0) (packsW_g1 wg1) (packsWx_c1 wc1)
    (packsWs_c1 wc1) _ _ _

theorem resS_eq : resS inputs adj hidden wg0 bg0 wc0 bc0 wg1 bg1 wc1 bc1
    = DCGRU.out1 inputs adj hidden wg0 bg0 wc0 bc0 wg1 bg1 wc1 bc1 :=
  funext fun _ => ite_congr rfl
    (fun _ => layer_cell (packs_y0a inputs hidden) (packsW_g0 wg0) (packsWx_c0 wc0) (packsWs_c0 wc0) _ _ _)
    fun _ => layer_cell (packs_y0b inputs adj hidden wg0 bg0 wc0 bc0) (packsW_g1 wg1) (packsWx_c1 wc1)
      (packsWs_c1 wc1) _ _ _

end

end DCGRU.KL

end
-- ==== Proof.KValue.lean ====
import proofs.«153073_g19885698580639_cont_8to1_2033_13_alg».proof.Proof.KRun
import proofs.«153073_g19885698580639_cont_8to1_2033_13_alg».proof.Proof.KChain
import proofs.«153073_g19885698580639_cont_8to1_2033_13_alg».proof.Proof.KMath

set_option maxRecDepth 16384

noncomputable section

namespace Cert.KernelIdeal.Val

open Idealize.ShloMosaic Idealize.ShloMosaic.TcCoe Idealize.SL.Sem
open Cert.KernelIdeal Cert.KernelIdeal.Gen
open DCGRU DCGRU.KL ValueIdx

variable (m : (ℓ : Loc nD τ sig) → Buf (Elt Ideal) ℓ) (ρ : Dev nD → PrngReg)

theorem run_spec : θ_run defs (onTc (τ := τ) (main (F := Ideal))) ⟨m, fun _ => 0, ρ⟩ fun r => ∀ c : Dev nD,
      r.2.mem ((c.tc : Thread nD τ).loc main_v55_1) = DCGRU.out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v58) = DCGRU.out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono
    (fun r h c => ⟨(h c _ (mem_uc main_v55_1 (by decide))).trans
        (((W14_v55_1 m ρ c).trans (W13_v55_1 m ρ c)).trans (resB_eq _ _ _ _ _ _ _ _ _ _ _)),
      (h c _ (mem_uc main_v58 (by decide))).trans (by
        rw [W14_v58 m ρ c, W13_v51_1 m ρ c, show W13 m ρ c (Proc.devRef .tc main_v55_1) = _ from W13_v55_1 m ρ c]
        exact resS_eq _ _ _ _ _ _ _ _ _ _ _),
      (h c _ (mem_uc main_arg0 (by decide))).trans (W14_main_arg0 m ρ c),
      (h c _ (mem_uc main_arg1 (by decide))).trans (W14_main_arg1 m ρ c),
      (h c _ (mem_uc main_arg2 (by decide))).trans (W14_main_arg2 m ρ c),
      (h c _ (mem_uc main_arg3 (by decide))).trans (W14_main_arg3 m ρ c),
      (h c _ (mem_uc main_arg4 (by decide))).trans (W14_main_arg4 m ρ c),
      (h c _ (mem_uc main_arg5 (by decide))).trans (W14_main_arg5 m ρ c),
      (h c _ (mem_uc main_arg6 (by decide))).trans (W14_main_arg6 m ρ c),
      (h c _ (mem_uc main_arg7 (by decide))).trans (W14_main_arg7 m ρ c),
      (h c _ (mem_uc main_arg8 (by decide))).trans (W14_main_arg8 m ρ c),
      (h c _ (mem_uc main_arg9 (by decide))).trans (W14_main_arg9 m ρ c),
      (h c _ (mem_uc main_arg10 (by decide))).trans (W14_main_arg10 m ρ c)⟩)
    (Cert.KernelIdeal.ValRun.run (F := Ideal) m ρ)

end Cert.KernelIdeal.Val

end
-- ==== Proof.Sums.lean ====
import proofs.«153073_g19885698580639_cont_8to1_2033_13_alg».proof.Proof.Spec

noncomputable section

namespace DCGRU

theorem sum_fin_mul3 {M : Type*} [AddCommMonoid M] (C : Nat) (f : Fin (C * 3) → M) :
    ∑ i : Fin (C * 3), f i
      = ∑ p : Fin C × Fin 3, f ⟨p.1.val * 3 + p.2.val, by have := p.1.isLt; have := p.2.isLt; omega⟩ := by

  rw [← (finProdFinEquiv (m := C) (n := 3)).sum_comp f]
  refine Finset.sum_congr rfl (fun p _ => ?_)
  congr 1
  apply Fin.ext
  show p.2.val + 3 * p.1.val = p.1.val * 3 + p.2.val
  omega

end DCGRU

end
-- ==== Proof.RefGateConv.lean ====
import proofs.«153073_g19885698580639_cont_8to1_2033_13_alg».proof.Proof.Gen.ReferenceIdeal
import proofs.«153073_g19885698580639_cont_8to1_2033_13_alg».proof.Proof.Spec
import proofs.«153073_g19885698580639_cont_8to1_2033_13_alg».proof.Proof.Sums
import Idealize.ShloMosaic.Lib.ValueIdx
import Idealize.ShloMosaic.Lib.Pipeline.Value
import Idealize.ShloMosaic.PureOps.Ideal.Laws
import Idealize.ShloMosaic.Lib.StackMember
import Idealize.ShloMosaic.Lib.IdealHost
import Idealize.ShloMosaic.Lib.ValueLayout

noncomputable section

namespace Cert.ReferenceIdeal.RefValue

open Idealize.ShloMosaic ValueIdx

def flat (f : Fin 1024 → Fin 32 → Fin 64 → EReal) : (⟨2, ![32, 65536]⟩ : Shape).Idx → EReal := fun i =>
  f ⟨(i 1).val / 64, by have h : (i 1).val < 65536 := (i 1).isLt; omega⟩ (i 0) ⟨(i 1).val % 64, Nat.mod_lt _ (by decide)⟩

theorem flat_apply (f : Fin 1024 → Fin 32 → Fin 64 → EReal) (b : Fin 32) (n : Fin 1024) (j : Fin 64) :
    flat f (ix2 b ⟨n.val * 64 + j.val, by omega⟩) = f n b j := by
  have e1 : (n.val * 64 + j.val) / 64 = n.val := by omega
  have e2 : (n.val * 64 + j.val) % 64 = j.val := by omega
  show f ⟨(n.val * 64 + j.val) / 64, _⟩ b ⟨(n.val * 64 + j.val) % 64, _⟩ = f n b j
  simp only [e1, e2]

end Cert.ReferenceIdeal.RefValue

namespace Cert.ReferenceIdeal.RefValue.GConv

open Cert.ReferenceIdeal Cert.ReferenceIdeal.Gen Idealize.ShloMosaic DCGRU ValueIdx

theorem castNode_apply {k : Nat} (x : FVec Ideal ⟨2, ![32, 1024 * k]⟩ .f32)
    (h : (⟨2, ![32, 1024 * k]⟩ : Shape).ShapeCasts ⟨3, ![32, 1024, k]⟩) (b : Fin 32) (n : Fin 1024) (c : Fin k)
    (hlt : n.val * k + c.val < 1024 * k) :
    shapeCast ⟨3, ![32, 1024, k]⟩ x h (ix3 b n c) = x (ix2 b ⟨n.val * k + c.val, hlt⟩) := by
  refine shapeCast_apply x h _ _ ?_
  rw [Shape.rowMajor_val_two, Shape.rowMajor_val_three]
  show b.val * (1024 * k) + (n.val * k + c.val) = (b.val * 1024 + n.val) * k + c.val
  ring

theorem colcat_apply {cin : Nat} (u : FVec Ideal ⟨3, ![32, 1024, cin]⟩ .f32) (v : FVec Ideal S32x1024x64 .f32)
    (hc : Shape.Concatenates [⟨3, ![32, 1024, cin]⟩, S32x1024x64] ⟨3, ![32, 1024, cin + 64]⟩ 2)
    (ht : (⟨3, ![32, 1024, cin + 64]⟩ : Shape).Transposes [1, 2, 0] ⟨3, ![1024, cin + 64, 32]⟩)
    (hs : (⟨3, ![1024, cin + 64, 32]⟩ : Shape).ShapeCasts ⟨2, ![1024, (cin + 64) * 32]⟩)
    (X : Fin 1024 → Fin 32 → Fin cin → EReal) (H : Fin 1024 → Fin 32 → Fin 64 → EReal)
    (hu : ∀ b n c, u (ix3 b n c) = X n b c) (hv : ∀ b n j, v (ix3 b n j) = H n b j)
    (n : Fin 1024) (c : Fin (cin + 64)) (b : Fin 32) :
    shapeCast ⟨2, ![1024, (cin + 64) * 32]⟩ (transpose ⟨3, ![1024, cin + 64, 32]⟩ [1, 2, 0]
        (concatenate ⟨3, ![32, 1024, cin + 64]⟩ 2 [⟨⟨3, ![32, 1024, cin]⟩, u⟩, ⟨S32x1024x64, v⟩] hc) ht) hs
      (ix2 n ⟨c.val * 32 + b.val, by omega⟩) = cat X H n b c := by
  refine (shapeCast_apply _ hs _ (ix3 n c b) ?_).trans ?_
  · rw [Shape.rowMajor_val_two, Shape.rowMajor_val_three]
    show (n.val * (cin + 64) + c.val) * 32 + b.val = n.val * ((cin + 64) * 32) + (c.val * 32 + b.val)
    ring
  refine (transpose_apply _ _ ht (ix3 n c b) (ix3 b n c) ?_).trans ?_
  · intro a
    match a with
    | ⟨0, _⟩ => rfl
    | ⟨1, _⟩ => rfl
    | ⟨2, _⟩ => rfl
  unfold cat
  by_cases hlt : c.val < cin
  · rw [dif_pos hlt]
    refine (concatenate_pair_apply_left 2 _ _ hc (ix3 b n c) rfl (ix3 b n ⟨c.val, hlt⟩) ?_).trans (hu b n _)
    intro a
    match a with
    | ⟨0, _⟩ => rfl
    | ⟨1, _⟩ => rfl
    | ⟨2, _⟩ => rfl
  · rw [dif_neg hlt]
    refine (concatenate_pair_apply_right 2 _ _ hc (ix3 b n c) rfl rfl (ix3 b n ⟨c.val - cin, by omega⟩) ?_ ?_).trans
      (hv b n _)
    · intro a ha
      match a, ha with
      | ⟨0, _⟩, _ => rfl
      | ⟨1, _⟩, _ => rfl
      | ⟨2, _⟩, ha => exact absurd rfl ha
    · show c.val - cin + cin = c.val
      omega

theorem chebcol_apply {N : Nat} (a : FVec Ideal S1024x1024 .f32) (y0 : FVec Ideal ⟨2, ![1024, N]⟩ .f32)
    (D : DotDims S1024x1024 ⟨2, ![1024, N]⟩ ⟨2, ![1024, N]⟩) (hD : D = DotDims.plain 1024 1024 N)
    (hb : S_.BroadcastsInDim ⟨2, ![1024, N]⟩ ![]) (q : Fin N)
    (z : Fin 1024 → EReal) (hz : ∀ m, y0 (ix2 m q) = z m) (n : Fin 1024) :
    y0 (ix2 n q) = cheb (Adj a) z 0 n
    ∧ Host.dotGeneral D none a y0 (ix2 n q) = cheb (Adj a) z 1 n
    ∧ subf (mulf (broadcastInDim ⟨2, ![1024, N]⟩ ![] hb (constant (F := Ideal) S_ .f32 0x40000000#32))
        (Host.dotGeneral D none a (Host.dotGeneral D none a y0))) y0 (ix2 n q) = cheb (Adj a) z 2 n := by
  subst hD
  have h1 : ∀ n', Host.dotGeneral (DotDims.plain 1024 1024 N) none a y0 (ix2 n' q) = cheb (Adj a) z 1 n' := fun n' => by
    rw [StackMember.dotGeneral_plain_apply, cheb_one]
    exact Finset.sum_congr rfl (fun m _ => by rw [hz m]; rfl)
  refine ⟨by rw [cheb_zero]; exact hz n, h1 n, ?_⟩
  rw [subf_apply, mulf_apply, StackMember.dotGeneral_plain_apply, broadcastInDim_scalar_apply, constant_apply,
    cheb_two_eq, hz n]
  exact congrArg (fun s => two * s - z n) (Finset.sum_congr rfl fun m _ => by rw [h1 m]; rfl)

theorem lead_apply {N : Nat} (hl : (⟨2, ![1024, N]⟩ : Shape).BroadcastsInDim ⟨3, ![1, 1024, N]⟩ ![1, 2])
    (y : FVec Ideal ⟨2, ![1024, N]⟩ .f32) (n : Fin 1024) (q : Fin N) :
    broadcastInDim ⟨3, ![1, 1024, N]⟩ ![1, 2] hl y (ix3 0 n q) = y (ix2 n q) := by
  refine broadcastInDim_apply _ hl y (ix3 0 n q) (ix2 n q) ?_
  intro a
  match a with
  | ⟨0, _⟩ => rfl
  | ⟨1, _⟩ =>
    show q.val = if N = 1 then 0 else q.val
    split
    · have := q.isLt
      omega
    · rfl

theorem stack3_apply {N : Nat}
    (hc : Shape.Concatenates [⟨3, ![1, 1024, N]⟩, ⟨3, ![1, 1024, N]⟩, ⟨3, ![1, 1024, N]⟩] ⟨3, ![3, 1024, N]⟩ 0)
    (u0 u1 u2 : FVec Ideal ⟨3, ![1, 1024, N]⟩ .f32) (k : Fin 3) (n : Fin 1024) (q : Fin N) :
    concatenate ⟨3, ![3, 1024, N]⟩ 0 [⟨⟨3, ![1, 1024, N]⟩, u0⟩, ⟨⟨3, ![1, 1024, N]⟩, u1⟩, ⟨⟨3, ![1, 1024, N]⟩, u2⟩] hc
        (ix3 k n q) = (![u0, u1, u2] k) (ix3 0 n q) := by
  refine concatenate_ofFn_unit_apply (t := ⟨3, ![3, 1024, N]⟩) (s₁ := ⟨3, ![1, 1024, N]⟩) 0 ![u0, u1, u2] hc rfl rfl
    (ix3 k n q) k rfl (ix3 0 n q) ?_
  intro a ha
  match a, ha with
  | ⟨0, _⟩, ha => exact absurd rfl ha
  | ⟨1, _⟩, _ => rfl
  | ⟨2, _⟩, _ => rfl

theorem xcat_apply {C : Nat} (y0 y1 y2 : FVec Ideal ⟨2, ![1024, C * 32]⟩ .f32)
    (hl : (⟨2, ![1024, C * 32]⟩ : Shape).BroadcastsInDim ⟨3, ![1, 1024, C * 32]⟩ ![1, 2])
    (hc : Shape.Concatenates [⟨3, ![1, 1024, C * 32]⟩, ⟨3, ![1, 1024, C * 32]⟩, ⟨3, ![1, 1024, C * 32]⟩]
      ⟨3, ![3, 1024, C * 32]⟩ 0)
    (hs : (⟨3, ![3, 1024, C * 32]⟩ : Shape).ShapeCasts ⟨4, ![3, 1024, C, 32]⟩)
    (ht : (⟨4, ![3, 1024, C, 32]⟩ : Shape).Transposes [3, 1, 2, 0] ⟨4, ![32, 1024, C, 3]⟩)
    (hs' : (⟨4, ![32, 1024, C, 3]⟩ : Shape).ShapeCasts ⟨2, ![32768, C * 3]⟩)
    (b : Fin 32) (n : Fin 1024) (c : Fin C) (k : Fin 3) (G : Fin 3 → EReal)
    (h0 : y0 (ix2 n ⟨c.val * 32 + b.val, by omega⟩) = G 0)
    (h1 : y1 (ix2 n ⟨c.val * 32 + b.val, by omega⟩) = G 1)
    (h2 : y2 (ix2 n ⟨c.val * 32 + b.val, by omega⟩) = G 2) :
    shapeCast ⟨2, ![32768, C * 3]⟩ (transpose ⟨4, ![32, 1024, C, 3]⟩ [3, 1, 2, 0]
        (shapeCast ⟨4, ![3, 1024, C, 32]⟩ (concatenate ⟨3, ![3, 1024, C * 32]⟩ 0
            [⟨⟨3, ![1, 1024, C * 32]⟩, broadcastInDim ⟨3, ![1, 1024, C * 32]⟩ ![1, 2] hl y0⟩,
              ⟨⟨3, ![1, 1024, C * 32]⟩, broadcastInDim ⟨3, ![1, 1024, C * 32]⟩ ![1, 2] hl y1⟩,
              ⟨⟨3, ![1, 1024, C * 32]⟩, broadcastInDim ⟨3, ![1, 1024, C * 32]⟩ ![1, 2] hl y2⟩] hc) hs) ht) hs'
      (ix2 ⟨b.val * 1024 + n.val, by omega⟩ ⟨c.val * 3 + k.val, by omega⟩) = G k := by
  refine (shapeCast_apply _ hs' _ (ix4 b n c k) ?_).trans ?_
  · rw [Shape.rowMajor_val_two, Shape.rowMajor_val_four]
    show ((b.val * 1024 + n.val) * C + c.val) * 3 + k.val = (b.val * 1024 + n.val) * (C * 3) + (c.val * 3 + k.val)
    ring
  refine (transpose_apply _ _ ht (ix4 b n c k) (ix4 k n c b) ?_).trans ?_
  · intro a
    match a with
    | ⟨0, _⟩ => rfl
    | ⟨1, _⟩ => rfl
    | ⟨2, _⟩ => rfl
    | ⟨3, _⟩ => rfl
  refine (shapeCast_apply _ hs (ix4 k n c b) (ix3 k n (⟨c.val * 32 + b.val, by omega⟩ : Fin (C * 32))) ?_).trans ?_
  · rw [Shape.rowMajor_val_three, Shape.rowMajor_val_four]
    show (k.val * 1024 + n.val) * (C * 32) + (c.val * 32 + b.val) = ((k.val * 1024 + n.val) * C + c.val) * 32 + b.val
    ring
  rw [stack3_apply]
  match k with
  | ⟨0, _⟩ => exact (lead_apply hl y0 n _).trans h0
  | ⟨1, _⟩ => exact (lead_apply hl y1 n _).trans h1
  | ⟨2, _⟩ => exact (lead_apply hl y2 n _).trans h2

theorem contract_apply {C O : Nat} (xc : FVec Ideal ⟨2, ![32768, C * 3]⟩ .f32) (w : FVec Ideal ⟨2, ![C * 3, O]⟩ .f32)
    (r : Fin 32768) (o : Fin O) :
    Host.dotGeneral (DotDims.plain 32768 (C * 3) O) none xc w (ix2 r o)
      = ∑ p : Fin C × Fin 3,
          xc (ix2 r ⟨p.1.val * 3 + p.2.val, by have := p.1.isLt; have := p.2.isLt; omega⟩) * Wt w p.1 p.2 o := by
  rw [StackMember.dotGeneral_plain_apply]
  exact sum_fin_mul3 C (fun i => xc (ix2 r i) * w (ix2 i o))

theorem biasGate_apply (v : FVec Ideal S128 .f32) (r : Fin 32768) (o : Fin 128) :
    broadcastInDim S32768x128 ![0, 1] bcast_S1x128_S32768x128_0_1 (broadcastInDim S1x128 ![1] bcast_S128_S1x128_1 v) (ix2 r o)
      = v (ix1 o) := by
  refine (broadcastInDim_apply _ _ _ (ix2 r o) (ix2 0 o) ?_).trans ?_
  · intro a
    match a with
    | ⟨0, _⟩ => rfl
    | ⟨1, _⟩ => rfl
  refine broadcastInDim_apply _ _ v (ix2 0 o) (ix1 o) ?_
  intro a
  match a with
  | ⟨0, _⟩ => rfl

theorem castGate_apply (z : FVec Ideal S32768x128 .f32) (b : Fin 32) (n : Fin 1024) (o : Fin 128) :
    shapeCast S32x1024x128 z shapeCasts_S32768x128_S32x1024x128 (ix3 b n o)
      = z (ix2 ⟨b.val * 1024 + n.val, by omega⟩ o) := by
  refine shapeCast_apply z _ (ix3 b n o) (ix2 (⟨b.val * 1024 + n.val, by omega⟩ : Fin 32768) o) ?_
  rw [Shape.rowMajor_val_two, Shape.rowMajor_val_three]
  rfl

theorem logistic_apply {s : Shape} (hb : S_.BroadcastsInDim s ![]) (z : FVec Ideal s .f32) (i : s.Idx) :
    Host.divf (broadcastInDim s ![] hb (constant (F := Ideal) S_ .f32 0x3F800000#32))
        (addf (broadcastInDim s ![] hb (constant (F := Ideal) S_ .f32 0x3F800000#32)) (Host.exp (Host.negf z))) i
      = Ideal.logistic (z i) := by
  rw [hostDivf_apply, addf_apply, broadcastInDim_scalar_apply, constant_apply, Ideal.ofBits_one_f32]
  rfl

theorem gates_apply {C : Nat} (A : FVec Ideal S1024x1024 .f32) (Y : FVec Ideal ⟨2, ![1024, C * 32]⟩ .f32)
    (w : FVec Ideal ⟨2, ![C * 3, 128]⟩ .f32) (bias : FVec Ideal S128 .f32)
    (DA : DotDims S1024x1024 ⟨2, ![1024, C * 32]⟩ ⟨2, ![1024, C * 32]⟩)
    (hDA : DA = DotDims.plain 1024 1024 (C * 32))
    (DW : DotDims ⟨2, ![32768, C * 3]⟩ ⟨2, ![C * 3, 128]⟩ S32768x128)
    (hDW : DW = DotDims.plain 32768 (C * 3) 128)
    (hb : S_.BroadcastsInDim ⟨2, ![1024, C * 32]⟩ ![])
    (hl : (⟨2, ![1024, C * 32]⟩ : Shape).BroadcastsInDim ⟨3, ![1, 1024, C * 32]⟩ ![1, 2])
    (hc : Shape.Concatenates [⟨3, ![1, 1024, C * 32]⟩, ⟨3, ![1, 1024, C * 32]⟩,
      ⟨3, ![1, 1024, C * 32]⟩] ⟨3, ![3, 1024, C * 32]⟩ 0)
    (hs : (⟨3, ![3, 1024, C * 32]⟩ : Shape).ShapeCasts ⟨4, ![3, 1024, C, 32]⟩)
    (ht : (⟨4, ![3, 1024, C, 32]⟩ : Shape).Transposes [3, 1, 2, 0] ⟨4, ![32, 1024, C, 3]⟩)
    (hs' : (⟨4, ![32, 1024, C, 3]⟩ : Shape).ShapeCasts ⟨2, ![32768, C * 3]⟩)
    (Z : Fin 1024 → Fin 32 → Fin C → EReal)
    (hY : ∀ (m : Fin 1024) (b : Fin 32) (c : Fin C), Y (ix2 m ⟨c.val * 32 + b.val, by omega⟩) = Z m b c)
    (b : Fin 32) (n : Fin 1024) (o : Fin 128) :
    Host.divf (broadcastInDim S32x1024x128 ![] bcast_S_S32x1024x128 (constant (F := Ideal) S_ .f32 0x3F800000#32))
        (addf (broadcastInDim S32x1024x128 ![] bcast_S_S32x1024x128 (constant (F := Ideal) S_ .f32 0x3F800000#32))
          (Host.exp (Host.negf (shapeCast S32x1024x128 (addf
            (Host.dotGeneral DW none
              (shapeCast ⟨2, ![32768, C * 3]⟩ (transpose ⟨4, ![32, 1024, C, 3]⟩ [3, 1, 2, 0]
                (shapeCast ⟨4, ![3, 1024, C, 32]⟩ (concatenate ⟨3, ![3, 1024, C * 32]⟩ 0
                  [⟨⟨3, ![1, 1024, C * 32]⟩, broadcastInDim ⟨3, ![1, 1024, C * 32]⟩ ![1, 2] hl Y⟩,
                    ⟨⟨3, ![1, 1024, C * 32]⟩, broadcastInDim ⟨3, ![1, 1024, C * 32]⟩ ![1, 2] hl
                      (Host.dotGeneral DA none A Y)⟩,
                    ⟨⟨3, ![1, 1024, C * 32]⟩, broadcastInDim ⟨3, ![1, 1024, C * 32]⟩ ![1, 2] hl
                      (subf (mulf (broadcastInDim ⟨2, ![1024, C * 32]⟩ ![] hb
                          (constant (F := Ideal) S_ .f32 0x40000000#32))
                        (Host.dotGeneral DA none A (Host.dotGeneral DA none A Y))) Y)⟩] hc) hs) ht) hs') w)
            (broadcastInDim S32768x128 ![0, 1] bcast_S1x128_S32768x128_0_1
              (broadcastInDim S1x128 ![1] bcast_S128_S1x128_1 bias))) shapeCasts_S32768x128_S32x1024x128)))) (ix3 b n o)
      = Ideal.logistic (gconv (Adj A) Z (Wt w) (Bs bias) n b o) := by
  subst hDW
  refine (logistic_apply _ _ (ix3 b n o)).trans (congrArg Ideal.logistic ?_)
  refine (castGate_apply _ b n o).trans ?_
  rw [addf_apply, contract_apply]
  refine congrArg₂ (· + ·) (Finset.sum_congr rfl fun p _ => congrArg (fun t => t * _) ?_) (biasGate_apply _ _ o)
  have hcb := chebcol_apply A Y DA hDA hb ⟨p.1.val * 32 + b.val, by have := p.1.isLt; omega⟩
    (fun m => Z m b p.1) (fun m => hY m b p.1) n
  exact xcat_apply _ _ _ hl hc hs ht hs' b n p.1 p.2 (fun k => cheb (Adj A) (fun m => Z m b p.1) k n)
    hcb.1 hcb.2.1 hcb.2.2

theorem sliceU_eq (gt : FVec Ideal S32x1024x128 .f32) (g : Fin 1024 → Fin 32 → Fin 128 → EReal)
    (hg : ∀ b n o, gt (ix3 b n o) = g n b o) :
    shapeCast S32x65536 (extractStridedSlice S32x1024x64 ![0, 0, 64] gt slices_S32x1024x128_S32x1024x64_0_0_64)
        shapeCasts_S32x1024x64_S32x65536 = flat fun n b j => g n b ⟨64 + j.val, by omega⟩ := by
  refine funext fun (i : S32x65536.Idx) => ?_
  obtain ⟨b, q, rfl⟩ : ∃ (b : Fin 32) (q : Fin 65536), i = ix2 b q := ⟨i 0, i 1, eq_ix2 i⟩
  refine (shapeCast_apply _ _ (ix2 b q) (ix3 b ⟨q.val / 64, by omega⟩ ⟨q.val % 64, Nat.mod_lt _ (by decide)⟩) ?_).trans ?_
  · rw [Shape.rowMajor_val_two, Shape.rowMajor_val_three]
    show (b.val * 1024 + q.val / 64) * 64 + q.val % 64 = b.val * 65536 + q.val
    omega
  refine (extractStridedSlice_apply _ gt _ _ (ix3 b ⟨q.val / 64, by omega⟩ ⟨64 + q.val % 64, by omega⟩) ?_).trans (hg _ _ _)
  intro a
  match a with
  | ⟨0, _⟩ => exact (Nat.zero_add _).symm
  | ⟨1, _⟩ => exact (Nat.zero_add _).symm
  | ⟨2, _⟩ => rfl

end Cert.ReferenceIdeal.RefValue.GConv

end
-- ==== Proof.RefL0Gate.lean ====
import proofs.«153073_g19885698580639_cont_8to1_2033_13_alg».proof.Proof.RefRunStagedAuxDefs
import proofs.«153073_g19885698580639_cont_8to1_2033_13_alg».proof.Proof.RefGateConv

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo
open DCGRU ValueIdx

theorem sliceHid_eq (hid : FVec Ideal S2x32x65536 .f32) (l : Fin 2) (h : S2x32x65536.Slices ![l.val, 0, 0] S1x32x65536) :
    shapeCast S32x65536 (extractStridedSlice S1x32x65536 ![l.val, 0, 0] hid h) shapeCasts_S1x32x65536_S32x65536
      = flat (Hid hid l) := by
  refine funext fun (i : S32x65536.Idx) => ?_
  obtain ⟨b, q, rfl⟩ : ∃ (b : Fin 32) (q : Fin 65536), i = ix2 b q := ⟨i 0, i 1, eq_ix2 i⟩
  have e : (⟨q.val / 64 * 64 + q.val % 64, by omega⟩ : Fin 65536) = q :=
    Fin.ext (by show q.val / 64 * 64 + q.val % 64 = q.val; omega)
  refine ((shapeCast_1ab_ab_apply _ _ b q).trans (extractStridedSlice_apply _ hid _ _ (ix3 l b q) ?_)).trans ?_
  · intro a
    match a with
    | ⟨0, _⟩ => rfl
    | ⟨1, _⟩ => exact (Nat.zero_add _).symm
    | ⟨2, _⟩ => exact (Nat.zero_add _).symm
  exact congrArg (fun t => hid (ix3 l b t)) e.symm

variable (V0 : Valuation τ sig (Elt Ideal))

theorem ref_hid0 : res_main_v1 (F := Ideal) V0 = flat (Hid (V0 (Proc.devRef .tc main_arg2)) 0) :=
  sliceHid_eq _ 0 _

theorem ref_hid1 : res_main_v65 (F := Ideal) V0 = flat (Hid (V0 (Proc.devRef .tc main_arg2)) 1) :=
  sliceHid_eq _ 1 _

theorem ref_gates0 (b : Fin 32) (n : Fin 1024) (o : Fin 128) :
    res_main_v29 (F := Ideal) V0 (ix3 b n o)
      = gates (Adj (V0 (Proc.devRef .tc main_arg1))) (cin := 2) (X0 (V0 (Proc.devRef .tc main_arg0)))
          (Hid (V0 (Proc.devRef .tc main_arg2)) 0) (Wt (C := 66) (V0 (Proc.devRef .tc main_arg3)))
          (Bs (V0 (Proc.devRef .tc main_arg4))) n b o := by
  unfold res_main_v29 res_main_v7 gates
  exact GConv.gates_apply (C := 66) (V0 (Proc.devRef .tc main_arg1)) (res_main_v6 V0) (V0 (Proc.devRef .tc main_arg3))
    (V0 (Proc.devRef .tc main_arg4)) _ rfl _ rfl _ _ _ _ _ _ _
    (fun m b c => by
      unfold res_main_v6
      exact GConv.colcat_apply (cin := 2) _ _ _ _ _ _ _ (fun b n c => GConv.castNode_apply (k := 2) _ _ b n c (by omega))
        (fun b n j => (GConv.castNode_apply (k := 64) _ _ b n j (by omega)).trans (by rw [ref_hid0]; exact flat_apply _ b n j)) m c b) b n o

theorem ref_u0 : res_main_v33 (F := Ideal) V0
    = flat (ugate (Adj (V0 (Proc.devRef .tc main_arg1))) (cin := 2) (X0 (V0 (Proc.devRef .tc main_arg0)))
        (Hid (V0 (Proc.devRef .tc main_arg2)) 0) (Wt (C := 66) (V0 (Proc.devRef .tc main_arg3)))
        (Bs (V0 (Proc.devRef .tc main_arg4)))) :=
  GConv.sliceU_eq _ _ (ref_gates0 V0)

end Cert.ReferenceIdeal.RefValue

end
-- ==== Proof.RefCell.lean ====
import proofs.«153073_g19885698580639_cont_8to1_2033_13_alg».proof.Proof.RefGateConv

noncomputable section

namespace Cert.ReferenceIdeal.RefCand

open Cert.ReferenceIdeal Cert.ReferenceIdeal.Gen Cert.ReferenceIdeal.RefValue
open Idealize.ShloMosaic DCGRU ValueIdx

theorem eq_flat (y : (⟨2, ![32, 65536]⟩ : Shape).Idx → EReal) (f : Fin 1024 → Fin 32 → Fin 64 → EReal)
    (h : ∀ (b : Fin 32) (n : Fin 1024) (j : Fin 64), y (ix2 b ⟨n.val * 64 + j.val, by omega⟩) = f n b j) :
    y = flat f := by
  funext i
  obtain ⟨b, q, rfl⟩ : ∃ (b : Fin 32) (q : Fin 65536), i = ix2 b q := ⟨i 0, i 1, eq_ix2 i⟩
  obtain ⟨n, j, rfl⟩ : ∃ (n : Fin 1024) (j : Fin 64), q = ⟨n.val * 64 + j.val, by omega⟩ :=
    ⟨⟨q.val / 64, by omega⟩, ⟨q.val % 64, Nat.mod_lt _ (by decide)⟩, Fin.ext (by
      show q.val = q.val / 64 * 64 + q.val % 64
      omega)⟩
  rw [flat_apply]
  exact h b n j

theorem flat3_apply (y : FVec Ideal S32x1024x64 .f32) (b : Fin 32) (n : Fin 1024) (j : Fin 64) :
    shapeCast S32x65536 y shapeCasts_S32x1024x64_S32x65536 (ix2 b ⟨n.val * 64 + j.val, by omega⟩) = y (ix3 b n j) :=
  shapeCast_apply _ _ _ _ (by
    rw [Shape.rowMajor_val_three, Shape.rowMajor_val_two]
    show (b.val * 1024 + n.val) * 64 + j.val = b.val * 65536 + (n.val * 64 + j.val)
    omega)

theorem rslice_apply (g : FVec Ideal S32x1024x128 .f32) (b : Fin 32) (n : Fin 1024) (j : Fin 64) :
    shapeCast S32x65536 (extractStridedSlice S32x1024x64 ![0, 0, 0] g slices_S32x1024x128_S32x1024x64_0_0_0)
      shapeCasts_S32x1024x64_S32x65536 (ix2 b ⟨n.val * 64 + j.val, by omega⟩) = g (ix3 b n ⟨j.val, by omega⟩) :=
  (flat3_apply _ b n j).trans (extractStridedSlice_apply _ _ _ _ (ix3 b n (⟨j.val, by omega⟩ : Fin 128)) fun a =>
    match a with
    | ⟨0, _⟩ => (Nat.zero_add _).symm
    | ⟨1, _⟩ => (Nat.zero_add _).symm
    | ⟨2, _⟩ => (Nat.zero_add _).symm)

theorem bias_apply (bias : FVec Ideal S64 .f32) (r : Fin 32768) (o : Fin 64) :
    broadcastInDim S32768x64 ![0, 1] bcast_S1x64_S32768x64_0_1 (broadcastInDim S1x64 ![1] bcast_S64_S1x64_1 bias) (ix2 r o)
      = Bs bias o :=
  (broadcastInDim_apply _ _ _ _ (ix2 (0 : Fin 1) o) fun a => match a with
    | ⟨0, _⟩ => rfl
    | ⟨1, _⟩ => rfl).trans
  (broadcastInDim_apply _ _ _ _ (ix1 o) fun a => match a with
    | ⟨0, _⟩ => rfl)

theorem update_apply {C : Nat} (A : FVec Ideal S1024x1024 .f32) (Y : FVec Ideal ⟨2, ![1024, C * 32]⟩ .f32)
    (uf hf : FVec Ideal S32x65536 .f32) (w : FVec Ideal ⟨2, ![C * 3, 64]⟩ .f32) (bias : FVec Ideal S64 .f32)
    (hb : S_.BroadcastsInDim ⟨2, ![1024, C * 32]⟩ ![])
    (hl : (⟨2, ![1024, C * 32]⟩ : Shape).BroadcastsInDim ⟨3, ![1, 1024, C * 32]⟩ ![1, 2])
    (hc : Shape.Concatenates [⟨3, ![1, 1024, C * 32]⟩, ⟨3, ![1, 1024, C * 32]⟩,
      ⟨3, ![1, 1024, C * 32]⟩] ⟨3, ![3, 1024, C * 32]⟩ 0)
    (hs : (⟨3, ![3, 1024, C * 32]⟩ : Shape).ShapeCasts ⟨4, ![3, 1024, C, 32]⟩)
    (ht : (⟨4, ![3, 1024, C, 32]⟩ : Shape).Transposes [3, 1, 2, 0] ⟨4, ![32, 1024, C, 3]⟩)
    (hs' : (⟨4, ![32, 1024, C, 3]⟩ : Shape).ShapeCasts ⟨2, ![32768, C * 3]⟩)
    (U Hh : Fin 1024 → Fin 32 → Fin 64 → EReal) (Z : Fin 1024 → Fin 32 → Fin C → EReal)
    (hu : ∀ (b : Fin 32) (n : Fin 1024) (j : Fin 64), uf (ix2 b ⟨n.val * 64 + j.val, by omega⟩) = U n b j)
    (hh : ∀ (b : Fin 32) (n : Fin 1024) (j : Fin 64), hf (ix2 b ⟨n.val * 64 + j.val, by omega⟩) = Hh n b j)
    (hY : ∀ (m : Fin 1024) (b : Fin 32) (c : Fin C), Y (ix2 m ⟨c.val * 32 + b.val, by omega⟩) = Z m b c)
    (b : Fin 32) (n : Fin 1024) (j : Fin 64) :
    addf (mulf uf hf) (mulf (subf (broadcastInDim S32x65536 ![] bcast_S_S32x65536 (constant (F := Ideal) S_ .f32 0x3F800000#32)) uf)
        (Host.tanh (F := Ideal) (shapeCast S32x65536 (shapeCast S32x1024x64
          (addf (Host.dotGeneral (F := Ideal) (DotDims.plain 32768 (C * 3) 64) none
              (shapeCast ⟨2, ![32768, C * 3]⟩ (transpose ⟨4, ![32, 1024, C, 3]⟩ [3, 1, 2, 0]
                (shapeCast ⟨4, ![3, 1024, C, 32]⟩ (concatenate ⟨3, ![3, 1024, C * 32]⟩ 0
                  [⟨⟨3, ![1, 1024, C * 32]⟩, broadcastInDim ⟨3, ![1, 1024, C * 32]⟩ ![1, 2] hl Y⟩,
                    ⟨⟨3, ![1, 1024, C * 32]⟩, broadcastInDim ⟨3, ![1, 1024, C * 32]⟩ ![1, 2] hl
                      (Host.dotGeneral (F := Ideal) (DotDims.plain 1024 1024 (C * 32)) none A Y)⟩,
                    ⟨⟨3, ![1, 1024, C * 32]⟩, broadcastInDim ⟨3, ![1, 1024, C * 32]⟩ ![1, 2] hl
                      (subf (mulf (broadcastInDim ⟨2, ![1024, C * 32]⟩ ![] hb
                          (constant (F := Ideal) S_ .f32 0x40000000#32))
                        (Host.dotGeneral (F := Ideal) (DotDims.plain 1024 1024 (C * 32)) none A
                          (Host.dotGeneral (F := Ideal) (DotDims.plain 1024 1024 (C * 32)) none A Y))) Y)⟩] hc) hs) ht) hs') w)
            (broadcastInDim S32768x64 ![0, 1] bcast_S1x64_S32768x64_0_1 (broadcastInDim S1x64 ![1] bcast_S64_S1x64_1 bias)))
          shapeCasts_S32768x64_S32x1024x64) shapeCasts_S32x1024x64_S32x65536)))
      (ix2 b ⟨n.val * 64 + j.val, by omega⟩)
    = U n b j * Hh n b j + (one - U n b j) * Ideal.tanh (gconv (Adj A) Z (Wt w) (Bs bias) n b j) := by
  rw [addf_apply, mulf_apply, mulf_apply, subf_apply, broadcastInDim_scalar_apply, constant_apply, hu b n j, hh b n j]
  refine congrArg (fun t => U n b j * Hh n b j + (one - U n b j) * t) ?_
  show Ideal.tanh _ = _
  refine congrArg Ideal.tanh ((flat3_apply _ b n j).trans ((shapeCast_apply _ _ _
    (ix2 (⟨b.val * 1024 + n.val, by omega⟩ : Fin 32768) j) ?_).trans ?_))
  · rw [Shape.rowMajor_val_two, Shape.rowMajor_val_three]
    rfl
  rw [addf_apply, GConv.contract_apply]
  refine congrArg₂ (· + ·) (Finset.sum_congr rfl fun p _ => congrArg (fun t => t * _) ?_) (bias_apply _ _ j)
  have hcb := GConv.chebcol_apply A Y _ rfl hb ⟨p.1.val * 32 + b.val, by have := p.1.isLt; omega⟩
    (fun m => Z m b p.1) (fun m => hY m b p.1) n
  exact GConv.xcat_apply _ _ _ hl hc hs ht hs' b n p.1 p.2 (fun k => cheb (Adj A) (fun m => Z m b p.1) k n)
    hcb.1 hcb.2.1 hcb.2.2

theorem stack2_eq (x y : FVec Ideal S32x65536 .f32) :
    concatenate S2x32x65536 0 [⟨S1x32x65536, broadcastInDim S1x32x65536 ![1, 2] bcast_S32x65536_S1x32x65536_1_2 x⟩,
        ⟨S1x32x65536, broadcastInDim S1x32x65536 ![1, 2] bcast_S32x65536_S1x32x65536_1_2 y⟩]
        concatenates_S1x32x65536_S1x32x65536_S2x32x65536_d0
      = fun i => if (i 0).val = 0 then x (ix2 (i 1) (i 2)) else y (ix2 (i 1) (i 2)) := by
  funext i
  obtain ⟨l, p, q, rfl⟩ : ∃ (l : Fin 2) (p : Fin 32) (q : Fin 65536), i = ix3 l p q := ⟨i 0, i 1, i 2, eq_ix3 i⟩
  refine (concatenate_ofFn_unit_apply (t := S2x32x65536) (s₁ := S1x32x65536) 0
    ![broadcastInDim S1x32x65536 ![1, 2] bcast_S32x65536_S1x32x65536_1_2 x,
      broadcastInDim S1x32x65536 ![1, 2] bcast_S32x65536_S1x32x65536_1_2 y] _ rfl rfl (ix3 l p q) l rfl (ix3 0 p q)
    fun a ha => match a, ha with
      | ⟨0, _⟩, ha => absurd rfl ha
      | ⟨1, _⟩, _ => rfl
      | ⟨2, _⟩, _ => rfl).trans ?_
  have hx : ∀ v : FVec Ideal S32x65536 .f32,
      broadcastInDim S1x32x65536 ![1, 2] bcast_S32x65536_S1x32x65536_1_2 v (ix3 0 p q) = v (ix2 p q) := fun v =>
    broadcastInDim_apply _ _ v _ (ix2 p q) fun a => match a with
      | ⟨0, _⟩ => rfl
      | ⟨1, _⟩ => rfl
  match l with
  | ⟨0, _⟩ => exact hx x
  | ⟨1, _⟩ => exact hx y

end Cert.ReferenceIdeal.RefCand

end
-- ==== Proof.RefL0.lean ====
import proofs.«153073_g19885698580639_cont_8to1_2033_13_alg».proof.Proof.RefL0Gate
import proofs.«153073_g19885698580639_cont_8to1_2033_13_alg».proof.Proof.RefCell

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo
open DCGRU ValueIdx

variable (V0 : Valuation τ sig (Elt Ideal))

abbrev H0 : Fin 1024 → Fin 32 → Fin 64 → EReal := Hid (V0 (Proc.devRef .tc main_arg2)) 0
abbrev G0 : Fin 1024 → Fin 32 → Fin 128 → EReal :=
  gates (Adj (V0 (Proc.devRef .tc main_arg1))) (cin := 2) (X0 (V0 (Proc.devRef .tc main_arg0))) (H0 V0) (Wt (C := 66) (V0 (Proc.devRef .tc main_arg3))) (Bs (V0 (Proc.devRef .tc main_arg4)))
abbrev Z0 : Fin 1024 → Fin 32 → Fin 66 → EReal :=
  cat (X0 (V0 (Proc.devRef .tc main_arg0))) fun n b j => G0 V0 n b ⟨j.val, by omega⟩ * H0 V0 n b j

theorem ref_cstate0 (m : Fin 1024) (b : Fin 32) (c : Fin 66) :
    res_main_v39 (F := Ideal) V0 (ix2 m ⟨c.val * 32 + b.val, by omega⟩) = Z0 V0 m b c := by
  unfold res_main_v39
  exact GConv.colcat_apply (cin := 2) _ _ _ _ _ _ _ (fun b n c => GConv.castNode_apply (k := 2) _ _ b n c (by omega))
    (fun b n j => (GConv.castNode_apply (k := 64) _ _ b n j (by omega)).trans (by
      rw [mulf_apply, RefCand.rslice_apply, ref_gates0, ref_hid0, flat_apply])) m c b

theorem ref_h1 : res_main_v63 (F := Ideal) V0
    = flat (h1 (V0 (Proc.devRef .tc main_arg0)) (V0 (Proc.devRef .tc main_arg1)) (V0 (Proc.devRef .tc main_arg2))
        (V0 (Proc.devRef .tc main_arg3)) (V0 (Proc.devRef .tc main_arg4)) (V0 (Proc.devRef .tc main_arg5))
        (V0 (Proc.devRef .tc main_arg6))) :=
  RefCand.eq_flat _ _ fun b n j => by
    unfold res_main_v63 res_main_v40
    exact RefCand.update_apply (C := 66) (V0 (Proc.devRef .tc main_arg1)) (res_main_v39 V0) _ _ (V0 (Proc.devRef .tc main_arg5)) (V0 (Proc.devRef .tc main_arg6)) _ _ _ _ _ _
      (fun n b j => G0 V0 n b ⟨64 + j.val, by omega⟩) (H0 V0) (Z0 V0)
      (fun b n j => by rw [ref_u0, flat_apply]; rfl) (fun b n j => by rw [ref_hid0, flat_apply])
      (ref_cstate0 V0) b n j

end Cert.ReferenceIdeal.RefValue

end
-- ==== Proof.RefL1Gate.lean ====
import proofs.«153073_g19885698580639_cont_8to1_2033_13_alg».proof.Proof.RefL0
import proofs.«153073_g19885698580639_cont_8to1_2033_13_alg».proof.Proof.RefGateConv

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo
open DCGRU ValueIdx

variable (V0 : Valuation τ sig (Elt Ideal))

theorem ref_gates1 (b : Fin 32) (n : Fin 1024) (o : Fin 128) :
    res_main_v93 (F := Ideal) V0 (ix3 b n o)
      = gates (Adj (V0 (Proc.devRef .tc main_arg1))) (cin := 64)
          (h1 (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5))
          (V0 (Proc.devRef .tc main_arg6)))
          (Hid (V0 (Proc.devRef .tc main_arg2)) 1) (Wt (C := 128) (V0 (Proc.devRef .tc main_arg7)))
          (Bs (V0 (Proc.devRef .tc main_arg8))) n b o := by
  unfold res_main_v93 res_main_v71 gates
  exact GConv.gates_apply (C := 128) (V0 (Proc.devRef .tc main_arg1)) (res_main_v70 V0) (V0 (Proc.devRef .tc main_arg7))
    (V0 (Proc.devRef .tc main_arg8)) _ rfl _ rfl _ _ _ _ _ _ _
    (fun m b c => by
      unfold res_main_v70
      exact GConv.colcat_apply (cin := 64) _ _ _ _ _ _ _
        (fun b n j => (GConv.castNode_apply (k := 64) _ _ b n j (by omega)).trans (by rw [ref_h1]; exact flat_apply _ b n j))
        (fun b n j => (GConv.castNode_apply (k := 64) _ _ b n j (by omega)).trans (by rw [ref_hid1]; exact flat_apply _ b n j)) m c b) b n o

theorem ref_u1 : res_main_v97 (F := Ideal) V0
    = flat (ugate (Adj (V0 (Proc.devRef .tc main_arg1))) (cin := 64)
        (h1 (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5))
          (V0 (Proc.devRef .tc main_arg6)))
        (Hid (V0 (Proc.devRef .tc main_arg2)) 1) (Wt (C := 128) (V0 (Proc.devRef .tc main_arg7)))
        (Bs (V0 (Proc.devRef .tc main_arg8)))) :=
  GConv.sliceU_eq _ _ (ref_gates1 V0)

end Cert.ReferenceIdeal.RefValue

end
-- ==== Proof.RefRunStagedAuxCuts.lean ====
import proofs.«153073_g19885698580639_cont_8to1_2033_13_alg».proof.Proof.RefRunStagedAuxDefs

namespace Cert.ReferenceIdeal.ValueP

open Cert.ReferenceIdeal.Gen Idealize.ShloMosaic Idealize.ShloMosaic.StableHlo

variable {F : FTy → Type} [FloatOps F]

theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

abbrev cut (a n : Nat) : List (HloOp τ sig (Elt F)) := (ops.drop a).take n

abbrev wr : List (Ref sig .tc) := [main_v0, main_v1, main_v2, main_v3, main_v4, main_v5, main_v6, main_v7, main_v8, main_cst, main_v9, main_v10, main_v11, main_v12, main_v13, main_v14, main_v15, main_v16, main_v17, main_v18, main_v19, main_v20, main_v21, main_v22, main_v23, main_v24, main_v25, main_cst_0, main_v26, main_v27, main_cst_1, main_v28, main_v29, main_v30, main_v31, main_v32, main_v33, main_v34, main_v35, main_v36, main_v37, main_v38, main_v39, main_v40, main_v41, main_cst_2, main_v42, main_v43, main_v44, main_v45, main_v46, main_v47, main_v48, main_v49, main_v50, main_v51, main_v52, main_v53, main_v54, main_v55, main_v56, main_v57, main_v58, main_v59, main_cst_3, main_v60, main_v61, main_v62, main_v63, main_v64, main_v65, main_v66, main_v67, main_v68, main_v69, main_v70, main_v71, main_v72, main_cst_4, main_v73, main_v74, main_v75, main_v76, main_v77, main_v78, main_v79, main_v80, main_v81, main_v82, main_v83, main_v84, main_v85, main_v86, main_v87, main_v88, main_v89, main_cst_5, main_v90, main_v91, main_cst_6, main_v92, main_v93, main_v94, main_v95, main_v96, main_v97, main_v98, main_v99, main_v100, main_v101, main_v102, main_v103, main_v104, main_v105, main_cst_7, main_v106, main_v107, main_v108, main_v109, main_v110, main_v111, main_v112, main_v113, main_v114, main_v115, main_v116, main_v117, main_v118, main_v119, main_v120, main_v121, main_v122, main_v123, main_cst_8, main_v124, main_v125, main_v126, main_v127, main_v128, main_v129, main_v130]

theorem writes : List.Forall₂ (fun (op : HloOp τ sig (Elt F)) y => op.writes = {Proc.devRef .tc y}) ops wr := by
  simp only [List.forall₂_cons, List.Forall₂.nil, nullary_writes, unary_writes, binary_writes, reshape_writes, nary_writes, and_self]

theorem keep {r : Ref sig .tc} {l : List (HloOp τ sig (Elt F))} {w : List (Ref sig .tc)}
    (h : List.Forall₂ (fun op y => op.writes = {Proc.devRef (τ := τ) .tc y}) l w) (hr : r ∉ w) (W : Valuation τ sig (Elt F)) :
    after l W (Proc.devRef .tc r) = W (Proc.devRef .tc r) := by
  induction h generalizing W with
  | nil => rfl
  | cons ho _ ih =>
    rw [after_cons, ih fun m => hr (List.mem_cons_of_mem _ m)]
    apply HloOp.result_of_not_mem
    rw [ho, Finset.mem_singleton]
    exact devRef_ne_of_ne fun e => hr (List.mem_cons.mpr (.inl e))

abbrev Args (V0 W : Valuation τ sig (Elt F)) : Prop := ∀ r ∉ wr, W (Proc.devRef .tc r) = V0 (Proc.devRef .tc r)

abbrev st (a : Nat) (V0 : Valuation τ sig (Elt F)) : Valuation τ sig (Elt F) := after (ops.take a) V0

theorem st_add (a n : Nat) (V0 : Valuation τ sig (Elt F)) : st (a + n) V0 = after (cut a n) (st a V0) := by
  rw [st, List.take_add, after_app]

theorem st_step {a n : Nat} {V0 : Valuation τ sig (Elt F)} {b : DevRef τ sig} {x} (h : after (cut a n) (st a V0) b = x) :
    st (a + n) V0 b = x := by
  rw [st_add, h]

theorem after_ops (a : Nat) (V0 : Valuation τ sig (Elt F)) : after ops V0 = after (ops.drop a) (st a V0) := by
  rw [st, ← after_app, List.take_append_drop]

theorem st_args (a : Nat) (V0 : Valuation τ sig (Elt F)) : Args V0 (st a V0) :=
  fun _ hr => keep (List.forall₂_take a writes) (fun m => hr (List.mem_of_mem_take m)) V0

theorem st_keep {r : Ref sig .tc} {a : Nat} {V0 : Valuation τ sig (Elt F)} {x} (h : st a V0 (Proc.devRef .tc r) = x) (n : Nat)
    (hr : r ∉ wr.drop a := by decide) : st (a + n) V0 (Proc.devRef .tc r) = x := by
  rw [st_add, keep (List.forall₂_take n (List.forall₂_drop a writes)) (fun m => hr (List.mem_of_mem_take m)), h]

theorem nary3_result_at {Val : EltTy → Type} {x a b y : Ref sig .tc}
    (g : x.ty.Contents Val → a.ty.Contents Val → b.ty.Contents Val → y.ty.Contents Val) (hxs hy)
    (G : Valuation τ sig Val) :
    (nary (τ := τ) ![x, a, b] y (fun u => g (u 0) (u 1) (u 2)) hxs hy).result G (no_index (Proc.devRef .tc y))
      = g (G (Proc.devRef .tc x)) (G (Proc.devRef .tc a)) (G (Proc.devRef .tc b)) :=
  nary_result ![x, a, b] y (fun u => g (u 0) (u 1) (u 2)) hxs hy G

noncomputable def out_main_v127 (V0 : Valuation τ sig (Elt F)) : (Proc.devRef .tc main_v127 : DevRef τ sig).ty.Contents (Elt F) :=
  addf (mulf (res_main_v97 V0) (res_main_v65 V0)) (mulf (subf (broadcastInDim S32x65536 ![] bcast_S_S32x65536 (constant S_ .f32 0x3F800000#32)) (res_main_v97 V0)) (Host.tanh (shapeCast _ (shapeCast _ (addf (Host.dotGeneral dot_S32768x384_S384x64_S32768x64_1_0_0_1_n_n none (shapeCast _ (transpose S32x1024x128x3 [3, 1, 2, 0] (shapeCast _ (concatenate S3x1024x4096 0 [⟨S1x1024x4096, (broadcastInDim S1x1024x4096 ![1, 2] bcast_S1024x4096_S1x1024x4096_1_2 (res_main_v103 V0))⟩, ⟨S1x1024x4096, (broadcastInDim S1x1024x4096 ![1, 2] bcast_S1024x4096_S1x1024x4096_1_2 (res_main_v104 V0))⟩, ⟨S1x1024x4096, (broadcastInDim S1x1024x4096 ![1, 2] bcast_S1024x4096_S1x1024x4096_1_2 (subf (mulf (broadcastInDim S1024x4096 ![] bcast_S_S1024x4096 (constant S_ .f32 0x40000000#32)) (Host.dotGeneral dot_S1024x1024_S1024x4096_S1024x4096_1_0_0_1_n_n none (V0 (Proc.devRef .tc main_arg1)) (res_main_v104 V0))) (res_main_v103 V0)))⟩] concatenates_S1x1024x4096_S1x1024x4096_S1x1024x4096_S3x1024x4096_d0) shapeCasts_S3x1024x4096_S3x1024x128x32) transposes_S3x1024x128x32_S32x1024x128x3_3_1_2_0) shapeCasts_S32x1024x128x3_S32768x384) (V0 (Proc.devRef .tc main_arg9))) (broadcastInDim S32768x64 ![0, 1] bcast_S1x64_S32768x64_0_1 (broadcastInDim S1x64 ![1] bcast_S64_S1x64_1 (V0 (Proc.devRef .tc main_arg10))))) shapeCasts_S32768x64_S32x1024x64) shapeCasts_S32x1024x64_S32x65536)))

end Cert.ReferenceIdeal.ValueP
-- ==== Proof.RefRunStagedAuxShort.lean ====
import proofs.«153073_g19885698580639_cont_8to1_2033_13_alg».proof.Proof.RefRunStagedAuxCuts

namespace Cert.ReferenceIdeal.ValueP

open Cert.ReferenceIdeal.Gen Idealize.ShloMosaic Idealize.ShloMosaic.StableHlo

variable {F : FTy → Type} [FloatOps F]

theorem new_main_v1 (V0 W : Valuation τ sig (Elt F)) (hA : Args V0 W) :
    after (cut 0 2) W (Proc.devRef .tc main_v1) = res_main_v1 V0 := by
  dsimp only [cut, ops, List.drop, List.take]
  after_results_simp
  simp only [hA main_arg2 (by decide)]
  rfl

theorem new_main_v6 (V0 W : Valuation τ sig (Elt F)) (hA : Args V0 W) (h1 : W (Proc.devRef .tc main_v1) = res_main_v1 V0) :
    after (cut 2 5) W (Proc.devRef .tc main_v6) = res_main_v6 V0 := by
  dsimp only [cut, ops, List.drop, List.take]
  after_results
  rw [hA main_arg0 (by decide), h1]
  unfold res_main_v6
  rfl

theorem new_main_v7 (V0 W : Valuation τ sig (Elt F)) (hA : Args V0 W) (h6 : W (Proc.devRef .tc main_v6) = res_main_v6 V0) :
    after (cut 7 1) W (Proc.devRef .tc main_v7) = res_main_v7 V0 := by
  dsimp only [cut, ops, List.drop, List.take]
  after_results_simp
  simp only [hA main_arg1 (by decide), h6]
  rfl

theorem new_main_v33 (V0 W : Valuation τ sig (Elt F)) (h29 : W (Proc.devRef .tc main_v29) = res_main_v29 V0) :
    after (cut 33 10) W (Proc.devRef .tc main_v33) = res_main_v33 V0 := by
  dsimp only [cut, ops, List.drop, List.take]
  after_results_simp
  rw [h29]
  unfold res_main_v33
  rfl

theorem new_main_v39 (V0 W : Valuation τ sig (Elt F)) (hA : Args V0 W) (h29 : W (Proc.devRef .tc main_v29) = res_main_v29 V0) (h1 : W (Proc.devRef .tc main_v1) = res_main_v1 V0) :
    after (cut 33 10) W (Proc.devRef .tc main_v39) = res_main_v39 V0 := by
  dsimp only [cut, ops, List.drop, List.take]
  after_results
  rw [hA main_arg0 (by decide), h29, h1]
  unfold res_main_v39
  rfl

theorem new_main_v40 (V0 W : Valuation τ sig (Elt F)) (hA : Args V0 W) (h39 : W (Proc.devRef .tc main_v39) = res_main_v39 V0) :
    after (cut 43 1) W (Proc.devRef .tc main_v40) = res_main_v40 V0 := by
  dsimp only [cut, ops, List.drop, List.take]
  after_results_simp
  simp only [hA main_arg1 (by decide), h39]
  rfl

theorem new_main_v65 (V0 W : Valuation τ sig (Elt F)) (hA : Args V0 W) :
    after (cut 69 2) W (Proc.devRef .tc main_v65) = res_main_v65 V0 := by
  dsimp only [cut, ops, List.drop, List.take]
  after_results_simp
  simp only [hA main_arg2 (by decide)]
  rfl

theorem new_main_v70 (V0 W : Valuation τ sig (Elt F)) (h63 : W (Proc.devRef .tc main_v63) = res_main_v63 V0) (h65 : W (Proc.devRef .tc main_v65) = res_main_v65 V0) :
    after (cut 71 5) W (Proc.devRef .tc main_v70) = res_main_v70 V0 := by
  dsimp only [cut, ops, List.drop, List.take]
  after_results
  rw [h63, h65]
  unfold res_main_v70
  rfl

theorem new_main_v71 (V0 W : Valuation τ sig (Elt F)) (hA : Args V0 W) (h70 : W (Proc.devRef .tc main_v70) = res_main_v70 V0) :
    after (cut 76 1) W (Proc.devRef .tc main_v71) = res_main_v71 V0 := by
  dsimp only [cut, ops, List.drop, List.take]
  after_results_simp
  simp only [hA main_arg1 (by decide), h70]
  rfl

theorem new_main_v97 (V0 W : Valuation τ sig (Elt F)) (h93 : W (Proc.devRef .tc main_v93) = res_main_v93 V0) :
    after (cut 102 10) W (Proc.devRef .tc main_v97) = res_main_v97 V0 := by
  dsimp only [cut, ops, List.drop, List.take]
  after_results_simp
  rw [h93]
  unfold res_main_v97
  rfl

theorem new_main_v103 (V0 W : Valuation τ sig (Elt F)) (h63 : W (Proc.devRef .tc main_v63) = res_main_v63 V0) (h65 : W (Proc.devRef .tc main_v65) = res_main_v65 V0) (h93 : W (Proc.devRef .tc main_v93) = res_main_v93 V0) :
    after (cut 102 10) W (Proc.devRef .tc main_v103) = res_main_v103 V0 := by
  dsimp only [cut, ops, List.drop, List.take]
  after_results
  rw [h63, h65, h93]
  unfold res_main_v103
  rfl

theorem new_main_v104 (V0 W : Valuation τ sig (Elt F)) (hA : Args V0 W) (h103 : W (Proc.devRef .tc main_v103) = res_main_v103 V0) :
    after (cut 112 1) W (Proc.devRef .tc main_v104) = res_main_v104 V0 := by
  dsimp only [cut, ops, List.drop, List.take]
  after_results_simp
  simp only [hA main_arg1 (by decide), h103]
  rfl

noncomputable def out_main_v130 (V0 : Valuation τ sig (Elt F)) : (Proc.devRef .tc main_v130 : DevRef τ sig).ty.Contents (Elt F) :=
  concatenate S2x32x65536 0 [⟨S1x32x65536, (broadcastInDim S1x32x65536 ![1, 2] bcast_S32x65536_S1x32x65536_1_2 (res_main_v63 V0))⟩, ⟨S1x32x65536, (broadcastInDim S1x32x65536 ![1, 2] bcast_S32x65536_S1x32x65536_1_2 (out_main_v127 V0))⟩] concatenates_S1x32x65536_S1x32x65536_S2x32x65536_d0

theorem fin_main_v130 (V0 W : Valuation τ sig (Elt F)) (h63 : W (Proc.devRef .tc main_v63) = res_main_v63 V0)
    (h127 : W (Proc.devRef .tc main_v127) = out_main_v127 V0) :
    after (ops.drop 138) W (Proc.devRef .tc main_v130) = out_main_v130 V0 := by
  dsimp only [ops, List.drop]
  after_results
  rw [h63, h127]
  rfl

end Cert.ReferenceIdeal.ValueP
-- ==== Proof.RefRunStagedAuxS04.lean ====
import proofs.«153073_g19885698580639_cont_8to1_2033_13_alg».proof.Proof.RefRunStagedAuxCuts

namespace Cert.ReferenceIdeal.ValueP

open Cert.ReferenceIdeal.Gen Idealize.ShloMosaic Idealize.ShloMosaic.StableHlo

variable {F : FTy → Type} [FloatOps F]

theorem new_main_v29 (V0 W : Valuation τ sig (Elt F)) (hA : Args V0 W) (h6 : W (Proc.devRef .tc main_v6) = res_main_v6 V0) (h7 : W (Proc.devRef .tc main_v7) = res_main_v7 V0) :
    after (cut 8 25) W (Proc.devRef .tc main_v29) = res_main_v29 V0 := by
  dsimp only [cut, ops, List.drop, List.take]
  simp (disch := decide) only [after_cons, after_nil, nullary_result', unary_result', binary_result', reshape_result',
    nary3_result_at (Val := Elt F) (x := main_v12) (a := main_v13) (b := main_v14) (y := main_v15)
      (g := fun p q r => concatenate S3x1024x2112 0 [⟨S1x1024x2112, p⟩, ⟨S1x1024x2112, q⟩, ⟨S1x1024x2112, r⟩] concatenates_S1x1024x2112_S1x1024x2112_S1x1024x2112_S3x1024x2112_d0),
    nullary_result_ne', unary_result_ne', binary_result_ne', reshape_result_ne', nary_result_ne']
  repeat (first
    | rw [nullary_result] | rw [unary_result] | rw [binary_result]
    | (rw [nullary_result_ne]; rotate_left; decide)
    | (rw [unary_result_ne]; rotate_left; decide)
    | (rw [binary_result_ne]; rotate_left; decide))
  rw [hA main_arg1 (by decide), hA main_arg3 (by decide), hA main_arg4 (by decide), h6, h7]
  unfold res_main_v29
  rfl

end Cert.ReferenceIdeal.ValueP
-- ==== Proof.RefRunStagedAuxS07.lean ====
import proofs.«153073_g19885698580639_cont_8to1_2033_13_alg».proof.Proof.RefRunStagedAuxCuts

namespace Cert.ReferenceIdeal.ValueP

open Cert.ReferenceIdeal.Gen Idealize.ShloMosaic Idealize.ShloMosaic.StableHlo

variable {F : FTy → Type} [FloatOps F]

theorem new_main_v63 (V0 W : Valuation τ sig (Elt F)) (hA : Args V0 W) (h1 : W (Proc.devRef .tc main_v1) = res_main_v1 V0) (h33 : W (Proc.devRef .tc main_v33) = res_main_v33 V0) (h39 : W (Proc.devRef .tc main_v39) = res_main_v39 V0) (h40 : W (Proc.devRef .tc main_v40) = res_main_v40 V0) :
    after (cut 44 25) W (Proc.devRef .tc main_v63) = res_main_v63 V0 := by
  dsimp only [cut, ops, List.drop, List.take]
  simp (disch := decide) only [after_cons, after_nil, nullary_result', unary_result', binary_result', reshape_result',
    nary3_result_at (Val := Elt F) (x := main_v45) (a := main_v46) (b := main_v47) (y := main_v48)
      (g := fun p q r => concatenate S3x1024x2112 0 [⟨S1x1024x2112, p⟩, ⟨S1x1024x2112, q⟩, ⟨S1x1024x2112, r⟩] concatenates_S1x1024x2112_S1x1024x2112_S1x1024x2112_S3x1024x2112_d0),
    nullary_result_ne', unary_result_ne', binary_result_ne', reshape_result_ne', nary_result_ne']
  repeat (first
    | rw [nullary_result] | rw [unary_result] | rw [binary_result]
    | (rw [nullary_result_ne]; rotate_left; decide)
    | (rw [unary_result_ne]; rotate_left; decide)
    | (rw [binary_result_ne]; rotate_left; decide))
  rw [hA main_arg1 (by decide), hA main_arg5 (by decide), hA main_arg6 (by decide), h1, h33, h39, h40]
  unfold res_main_v63
  rfl

end Cert.ReferenceIdeal.ValueP
-- ==== Proof.RefRunStagedAuxS11.lean ====
import proofs.«153073_g19885698580639_cont_8to1_2033_13_alg».proof.Proof.RefRunStagedAuxCuts

namespace Cert.ReferenceIdeal.ValueP

open Cert.ReferenceIdeal.Gen Idealize.ShloMosaic Idealize.ShloMosaic.StableHlo

variable {F : FTy → Type} [FloatOps F]

theorem new_main_v93 (V0 W : Valuation τ sig (Elt F)) (hA : Args V0 W) (h70 : W (Proc.devRef .tc main_v70) = res_main_v70 V0) (h71 : W (Proc.devRef .tc main_v71) = res_main_v71 V0) :
    after (cut 77 25) W (Proc.devRef .tc main_v93) = res_main_v93 V0 := by
  dsimp only [cut, ops, List.drop, List.take]
  simp (disch := decide) only [after_cons, after_nil, nullary_result', unary_result', binary_result', reshape_result',
    nary3_result_at (Val := Elt F) (x := main_v76) (a := main_v77) (b := main_v78) (y := main_v79)
      (g := fun p q r => concatenate S3x1024x4096 0 [⟨S1x1024x4096, p⟩, ⟨S1x1024x4096, q⟩, ⟨S1x1024x4096, r⟩] concatenates_S1x1024x4096_S1x1024x4096_S1x1024x4096_S3x1024x4096_d0),
    nullary_result_ne', unary_result_ne', binary_result_ne', reshape_result_ne', nary_result_ne']
  repeat (first
    | rw [nullary_result] | rw [unary_result] | rw [binary_result]
    | (rw [nullary_result_ne]; rotate_left; decide)
    | (rw [unary_result_ne]; rotate_left; decide)
    | (rw [binary_result_ne]; rotate_left; decide))
  rw [hA main_arg1 (by decide), hA main_arg7 (by decide), hA main_arg8 (by decide), h70, h71]
  unfold res_main_v93
  rfl

end Cert.ReferenceIdeal.ValueP
-- ==== Proof.RefRunStagedAuxS14.lean ====
import proofs.«153073_g19885698580639_cont_8to1_2033_13_alg».proof.Proof.RefRunStagedAuxCuts

namespace Cert.ReferenceIdeal.ValueP

open Cert.ReferenceIdeal.Gen Idealize.ShloMosaic Idealize.ShloMosaic.StableHlo

variable {F : FTy → Type} [FloatOps F]

theorem fin_main_v127 (V0 W : Valuation τ sig (Elt F)) (hA : Args V0 W) (h65 : W (Proc.devRef .tc main_v65) = res_main_v65 V0) (h97 : W (Proc.devRef .tc main_v97) = res_main_v97 V0) (h103 : W (Proc.devRef .tc main_v103) = res_main_v103 V0) (h104 : W (Proc.devRef .tc main_v104) = res_main_v104 V0) :
    after (cut 113 25) W (Proc.devRef .tc main_v127) = out_main_v127 V0 := by
  dsimp only [cut, ops, List.drop, List.take]
  simp (disch := decide) only [after_cons, after_nil, nullary_result', unary_result', binary_result', reshape_result',
    nary3_result_at (Val := Elt F) (x := main_v109) (a := main_v110) (b := main_v111) (y := main_v112)
      (g := fun p q r => concatenate S3x1024x4096 0 [⟨S1x1024x4096, p⟩, ⟨S1x1024x4096, q⟩, ⟨S1x1024x4096, r⟩] concatenates_S1x1024x4096_S1x1024x4096_S1x1024x4096_S3x1024x4096_d0),
    nullary_result_ne', unary_result_ne', binary_result_ne', reshape_result_ne', nary_result_ne']
  repeat (first
    | rw [nullary_result] | rw [unary_result] | rw [binary_result]
    | (rw [nullary_result_ne]; rotate_left; decide)
    | (rw [unary_result_ne]; rotate_left; decide)
    | (rw [binary_result_ne]; rotate_left; decide))
  rw [hA main_arg1 (by decide), hA main_arg9 (by decide), hA main_arg10 (by decide), h65, h97, h103, h104]
  unfold out_main_v127
  rfl

end Cert.ReferenceIdeal.ValueP
-- ==== Proof.RefRunStaged.lean ====
import proofs.«153073_g19885698580639_cont_8to1_2033_13_alg».proof.Proof.RefRunStagedAuxShort
import proofs.«153073_g19885698580639_cont_8to1_2033_13_alg».proof.Proof.RefRunStagedAuxS04
import proofs.«153073_g19885698580639_cont_8to1_2033_13_alg».proof.Proof.RefRunStagedAuxS07
import proofs.«153073_g19885698580639_cont_8to1_2033_13_alg».proof.Proof.RefRunStagedAuxS11
import proofs.«153073_g19885698580639_cont_8to1_2033_13_alg».proof.Proof.RefRunStagedAuxS14

namespace Cert.ReferenceIdeal.ValueP

open Cert.ReferenceIdeal.Gen Idealize.ShloMosaic Idealize.ShloMosaic.StableHlo Idealize.SL.Sem

variable {F : FTy → Type} [FloatOps F]

theorem after_main (V0 : Valuation τ sig (Elt F)) :
    after ops V0 (Proc.devRef .tc main_v127) = out_main_v127 V0 ∧ after ops V0 (Proc.devRef .tc main_v130) = out_main_v130 V0 := by
  have v1 := st_step (new_main_v1 V0 _ (st_args 0 V0))
  have v6 := st_step (new_main_v6 V0 _ (st_args 2 V0) v1)
  have v7 := st_step (new_main_v7 V0 _ (st_args 7 V0) v6)
  have v29 := st_step (new_main_v29 V0 _ (st_args 8 V0) (st_keep v6 1) v7)
  have v33 := st_step (new_main_v33 V0 _ v29)
  have v39 := st_step (new_main_v39 V0 _ (st_args 33 V0) v29 (st_keep v1 31))
  have v40 := st_step (new_main_v40 V0 _ (st_args 43 V0) v39)
  have v63 := st_step (new_main_v63 V0 _ (st_args 44 V0) (st_keep v1 42) (st_keep v33 1) (st_keep v39 1) v40)
  have v65 := st_step (new_main_v65 V0 _ (st_args 69 V0))
  have v70 := st_step (new_main_v70 V0 _ (st_keep v63 2) v65)
  have v71 := st_step (new_main_v71 V0 _ (st_args 76 V0) v70)
  have v93 := st_step (new_main_v93 V0 _ (st_args 77 V0) (st_keep v70 1) v71)
  have v97 := st_step (new_main_v97 V0 _ v93)
  have v103 := st_step (new_main_v103 V0 _ (st_keep v63 33) (st_keep v65 31) v93)
  have v104 := st_step (new_main_v104 V0 _ (st_args 112 V0) v103)
  have v127 := st_step (fin_main_v127 V0 _ (st_args 113 V0) (st_keep v65 42) (st_keep v97 1) (st_keep v103 1) v104)
  rw [after_ops 138]
  exact ⟨(keep (List.forall₂_drop 138 writes) (by decide) _).trans v127, fin_main_v130 V0 _ (st_keep v63 69) v127⟩

theorem ops_fresh : (ops : List (HloOp τ sig (Elt F))).Forall fun op => op.fresh = ∅ := by
  simp only [List.Forall]; repeat' constructor

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v127) = addf (mulf (res_main_v97 (launchContents m c)) (res_main_v65 (launchContents m c))) (mulf (subf (broadcastInDim S32x65536 ![] bcast_S_S32x65536 (constant S_ .f32 0x3F800000#32)) (res_main_v97 (launchContents m c))) (Host.tanh (shapeCast _ (shapeCast _ (addf (Host.dotGeneral dot_S32768x384_S384x64_S32768x64_1_0_0_1_n_n none (shapeCast _ (transpose S32x1024x128x3 [3, 1, 2, 0] (shapeCast _ (concatenate S3x1024x4096 0 [⟨S1x1024x4096, (broadcastInDim S1x1024x4096 ![1, 2] bcast_S1024x4096_S1x1024x4096_1_2 (res_main_v103 (launchContents m c)))⟩, ⟨S1x1024x4096, (broadcastInDim S1x1024x4096 ![1, 2] bcast_S1024x4096_S1x1024x4096_1_2 (res_main_v104 (launchContents m c)))⟩, ⟨S1x1024x4096, (broadcastInDim S1x1024x4096 ![1, 2] bcast_S1024x4096_S1x1024x4096_1_2 (subf (mulf (broadcastInDim S1024x4096 ![] bcast_S_S1024x4096 (constant S_ .f32 0x40000000#32)) (Host.dotGeneral dot_S1024x1024_S1024x4096_S1024x4096_1_0_0_1_n_n none ((launchContents m c) (Proc.devRef .tc main_arg1)) (res_main_v104 (launchContents m c)))) (res_main_v103 (launchContents m c))))⟩] concatenates_S1x1024x4096_S1x1024x4096_S1x1024x4096_S3x1024x4096_d0) shapeCasts_S3x1024x4096_S3x1024x128x32) transposes_S3x1024x128x32_S32x1024x128x3_3_1_2_0) shapeCasts_S32x1024x128x3_S32768x384) ((launchContents m c) (Proc.devRef .tc main_arg9))) (broadcastInDim S32768x64 ![0, 1] bcast_S1x64_S32768x64_0_1 (broadcastInDim S1x64 ![1] bcast_S64_S1x64_1 ((launchContents m c) (Proc.devRef .tc main_arg10))))) shapeCasts_S32768x64_S32x1024x64) shapeCasts_S32x1024x64_S32x65536)))
      ∧ r.2.mem ((c.tc : Thread nD τ).loc main_v130) = concatenate S2x32x65536 0 [⟨S1x32x65536, (broadcastInDim S1x32x65536 ![1, 2] bcast_S32x65536_S1x32x65536_1_2 (res_main_v63 (launchContents m c)))⟩, ⟨S1x32x65536, (broadcastInDim S1x32x65536 ![1, 2] bcast_S32x65536_S1x32x65536_1_2 (addf (mulf (res_main_v97 (launchContents m c)) (res_main_v65 (launchContents m c))) (mulf (subf (broadcastInDim S32x65536 ![] bcast_S_S32x65536 (constant S_ .f32 0x3F800000#32)) (res_main_v97 (launchContents m c))) (Host.tanh (shapeCast _ (shapeCast _ (addf (Host.dotGeneral dot_S32768x384_S384x64_S32768x64_1_0_0_1_n_n none (shapeCast _ (transpose S32x1024x128x3 [3, 1, 2, 0] (shapeCast _ (concatenate S3x1024x4096 0 [⟨S1x1024x4096, (broadcastInDim S1x1024x4096 ![1, 2] bcast_S1024x4096_S1x1024x4096_1_2 (res_main_v103 (launchContents m c)))⟩, ⟨S1x1024x4096, (broadcastInDim S1x1024x4096 ![1, 2] bcast_S1024x4096_S1x1024x4096_1_2 (res_main_v104 (launchContents m c)))⟩, ⟨S1x1024x4096, (broadcastInDim S1x1024x4096 ![1, 2] bcast_S1024x4096_S1x1024x4096_1_2 (subf (mulf (broadcastInDim S1024x4096 ![] bcast_S_S1024x4096 (constant S_ .f32 0x40000000#32)) (Host.dotGeneral dot_S1024x1024_S1024x4096_S1024x4096_1_0_0_1_n_n none ((launchContents m c) (Proc.devRef .tc main_arg1)) (res_main_v104 (launchContents m c)))) (res_main_v103 (launchContents m c))))⟩] concatenates_S1x1024x4096_S1x1024x4096_S1x1024x4096_S3x1024x4096_d0) shapeCasts_S3x1024x4096_S3x1024x128x32) transposes_S3x1024x128x32_S32x1024x128x3_3_1_2_0) shapeCasts_S32x1024x128x3_S32768x384) ((launchContents m c) (Proc.devRef .tc main_arg9))) (broadcastInDim S32768x64 ![0, 1] bcast_S1x64_S32768x64_0_1 (broadcastInDim S1x64 ![1] bcast_S64_S1x64_1 ((launchContents m c) (Proc.devRef .tc main_arg10))))) shapeCasts_S32768x64_S32x1024x64) shapeCasts_S32x1024x64_S32x65536)))))⟩] concatenates_S1x32x65536_S1x32x65536_S2x32x65536_d0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    have k (r : Ref sig .tc) (hr : r ∉ wr) : _ = m ((c.tc : Thread nD τ).loc r) := (h c r).trans (keep writes hr (launchContents m c))
    ⟨(h c _).trans (after_main _).1, (h c _).trans (after_main _).2, k main_arg0 (by decide), k main_arg1 (by decide), k main_arg2 (by decide), k main_arg3 (by decide), k main_arg4 (by decide), k main_arg5 (by decide), k main_arg6 (by decide), k main_arg7 (by decide), k main_arg8 (by decide), k main_arg9 (by decide), k main_arg10 (by decide)⟩)
    (run_seq scopedRefs_eq scopedSems_eq defs main (fun _ => ops) main_eq (fun _ => ops_sub) m ρ fun _ => List.forall_iff_forall_mem.1 ops_fresh)

end Cert.ReferenceIdeal.ValueP
-- ==== Proof.RefL1.lean ====
import proofs.«153073_g19885698580639_cont_8to1_2033_13_alg».proof.Proof.RefL1Gate
import proofs.«153073_g19885698580639_cont_8to1_2033_13_alg».proof.Proof.RefCell
import proofs.«153073_g19885698580639_cont_8to1_2033_13_alg».proof.Proof.RefRunStaged

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo
open DCGRU ValueIdx

section
variable (V0 : Valuation τ sig (Elt Ideal))

abbrev X1 : Fin 1024 → Fin 32 → Fin 64 → EReal :=
  h1 (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6))
abbrev H1 : Fin 1024 → Fin 32 → Fin 64 → EReal := Hid (V0 (Proc.devRef .tc main_arg2)) 1
abbrev G1 : Fin 1024 → Fin 32 → Fin 128 → EReal :=
  gates (Adj (V0 (Proc.devRef .tc main_arg1))) (cin := 64) (X1 V0) (H1 V0) (Wt (C := 128) (V0 (Proc.devRef .tc main_arg7))) (Bs (V0 (Proc.devRef .tc main_arg8)))
abbrev Z1 : Fin 1024 → Fin 32 → Fin 128 → EReal :=
  cat (X1 V0) fun n b j => G1 V0 n b ⟨j.val, by omega⟩ * H1 V0 n b j

theorem ref_cstate1 (m : Fin 1024) (b : Fin 32) (c : Fin 128) :
    res_main_v103 (F := Ideal) V0 (ix2 m ⟨c.val * 32 + b.val, by omega⟩) = Z1 V0 m b c := by
  unfold res_main_v103
  exact GConv.colcat_apply (cin := 64) _ _ _ _ _ _ _
    (fun b n j => (GConv.castNode_apply (k := 64) _ _ b n j (by omega)).trans (by rw [ref_h1, flat_apply]))
    (fun b n j => (GConv.castNode_apply (k := 64) _ _ b n j (by omega)).trans (by
      rw [mulf_apply, RefCand.rslice_apply, ref_gates1, ref_hid1, flat_apply])) m c b

end

variable (m : (ℓ : Loc nD τ sig) → Buf (Elt Ideal) ℓ) (ρ : Dev nD → PrngReg)

theorem run_spec : θ_run defs (onTc (τ := τ) (main (F := Ideal))) ⟨m, fun _ => 0, ρ⟩ fun r => ∀ c : Dev nD,
      r.2.mem ((c.tc : Thread nD τ).loc main_v127)
        = DCGRU.out0
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
      ∧ r.2.mem ((c.tc : Thread nD τ).loc main_v130)
        = DCGRU.out1
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => by
    obtain ⟨h0, h1', hr⟩ := h c
    have e := h0.trans (RefCand.eq_flat _ _ fun b n j => by
      unfold res_main_v104
      exact RefCand.update_apply (C := 128) ((launchContents m c) (Proc.devRef .tc main_arg1)) (res_main_v103 (launchContents m c)) _ _
        ((launchContents m c) (Proc.devRef .tc main_arg9)) ((launchContents m c) (Proc.devRef .tc main_arg10)) _ _ _ _ _ _
        (fun n b j => G1 (launchContents m c) n b ⟨64 + j.val, by omega⟩) (H1 (launchContents m c)) (Z1 (launchContents m c))
        (fun b n j => by rw [ref_u1, flat_apply]; rfl) (fun b n j => by rw [ref_hid1, flat_apply])
        (ref_cstate1 (launchContents m c)) b n j)
    rw [← h0] at h1'
    rw [e, ref_h1, RefCand.stack2_eq] at h1'
    exact ⟨e, h1', hr⟩) (ValueP.run (F := Ideal) m ρ)

end Cert.ReferenceIdeal.RefValue

end
-- ==== Proof.lean ====
/-
  Two layers of a gated recurrent cell on a graph. In each layer the gates and the candidate are graph
  convolutions: a state's channels are diffused through the adjacency matrix A as z, A z and 2 A (A z) − z, and the
  three are contracted with a weight whose rows are ordered by (channel, term). The kernel program keeps 128
  channels per (node, batch member), the unused ones zero and meeting zero weight rows, and contracts each term
  with its own 128-row block; the reference contracts once over all 3·C rows. The two sums are the same terms
  regrouped, so only commutativity and associativity of the sums are used and the inputs' finiteness is never needed.
-/
import proofs.«153073_g19885698580639_cont_8to1_2033_13_alg».proof.Defs
import proofs.«153073_g19885698580639_cont_8to1_2033_13_alg».proof.Proof.Gen.Kernel
import proofs.«153073_g19885698580639_cont_8to1_2033_13_alg».proof.Proof.Gen.Kernel.Frame
import proofs.«153073_g19885698580639_cont_8to1_2033_13_alg».proof.Proof.Gen.KernelIdeal
import proofs.«153073_g19885698580639_cont_8to1_2033_13_alg».proof.Proof.Gen.KernelIdeal.Frame
import proofs.«153073_g19885698580639_cont_8to1_2033_13_alg».proof.Proof.Gen.ReferenceIdeal
import proofs.«153073_g19885698580639_cont_8to1_2033_13_alg».proof.Proof.Gen.Pre_finite_inputs
import proofs.«153073_g19885698580639_cont_8to1_2033_13_alg».proof.Proof.KValue
import proofs.«153073_g19885698580639_cont_8to1_2033_13_alg».proof.Proof.RefL1
import Idealize.ShloMosaic.Adequacy
import Idealize.ShloMosaic.Init

set_option maxRecDepth 16384

noncomputable section

namespace Cert.Proof

open Idealize.ShloMosaic Idealize.SL.Sem

theorem frame_ri : Cert.frame_ReferenceIdeal :=
  fun m ρ _ => (θ_run Cert.ReferenceIdeal.defs _ _).mono (fun _ h c => (h c).2.2)
    (Cert.ReferenceIdeal.RefValue.run_spec m ρ)

theorem algebraic : Cert.algebraic_KernelIdeal_ReferenceIdeal := by
  intro m ρ m' ρ' _ hagree
  refine ⟨_, _, Cert.KernelIdeal.Val.run_spec m ρ, ?_⟩
  refine (θ_run Cert.ReferenceIdeal.defs _ _).mono (fun _ h c => ?_) (Cert.ReferenceIdeal.RefValue.run_spec m' ρ')
  obtain ⟨e0, e1, e2, e3, e4, e5, e6, e7, e8, e9, e10⟩ := hagree c
  refine ⟨?_, ?_, (h c).2.2⟩
  · rw [(h c).1, e0, e1, e2, e3, e4, e5, e6, e7, e8, e9, e10]
  · rw [(h c).2.1, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_ri,
    trivial,
    algebraic⟩

end Cert.Proof

end
